-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x76x76x255 : Shape := ⟨4, ![16, 76, 76, 255]⟩
abbrev S16x76x76x3x85 : Shape := ⟨5, ![16, 76, 76, 3, 85]⟩
abbrev S16x150x4 : Shape := ⟨3, ![16, 150, 4]⟩
abbrev S_ : Shape := ⟨0, ![]⟩

class Facts : Prop where
  bcast_S_S16x76x76x255 : S_.BroadcastsInDim S16x76x76x255 (![] : Fin 0 → Fin S16x76x76x255.rank)
  reducesTo_S16x76x76x255_S_d0_1_2_3 : S16x76x76x255.ReducesTo [0, 1, 2, 3] S_
  h_S_ : 0 < S_.numel
  bcast_S_S16x76x76x3x85 : S_.BroadcastsInDim S16x76x76x3x85 (![] : Fin 0 → Fin S16x76x76x3x85.rank)
  reducesTo_S16x76x76x3x85_S_d0_1_2_3_4 : S16x76x76x3x85.ReducesTo [0, 1, 2, 3, 4] S_
  bcast_S_S16x150x4 : S_.BroadcastsInDim S16x150x4 (![] : Fin 0 → Fin S16x150x4.rank)
  reducesTo_S16x150x4_S_d0_1_2 : S16x150x4.ReducesTo [0, 1, 2] S_

variable [Facts]

def fn {F : FTy → Type} [FloatOps F] (main_arg0 : FVec F S16x76x76x255 .f32) (main_arg1 : FVec F S16x76x76x3x85 .f32) (main_arg2 : FVec F S16x150x4 .f32) : IVec S_ 1 :=
  let main_v0 : FVec F S16x76x76x255 .f32 := Host.absf main_arg0
  let main_cst : FVec F S_ .f32 := constant S_ .f32 0x7F800000#32
  let main_v1 : FVec F S16x76x76x255 .f32 := broadcastInDim S16x76x76x255 ![] bcast_S_S16x76x76x255 main_cst
  let main_v2 : IVec S16x76x76x255 1 := cmpf .olt main_v0 main_v1
  let main_c : IVec S_ 1 := constantI S_ 1 1#1
  let main_v3 : IVec S_ 1 := (fun x v => Host.reduce IntOp.andi x v reducesTo_S16x76x76x255_S_d0_1_2_3 h_S_) main_v2 main_c
  let main_v4 : FVec F S16x76x76x3x85 .f32 := Host.absf main_arg1
  let main_cst_0 : FVec F S_ .f32 := constant S_ .f32 0x7F800000#32
  let main_v5 : FVec F S16x76x76x3x85 .f32 := broadcastInDim S16x76x76x3x85 ![] bcast_S_S16x76x76x3x85 main_cst_0
  let main_v6 : IVec S16x76x76x3x85 1 := cmpf .olt main_v4 main_v5
  let main_c_1 : IVec S_ 1 := constantI S_ 1 1#1
  let main_v7 : IVec S_ 1 := (fun x v => Host.reduce IntOp.andi x v reducesTo_S16x76x76x3x85_S_d0_1_2_3_4 h_S_) main_v6 main_c_1
  let main_v8 : IVec S_ 1 := andi main_v3 main_v7
  let main_v9 : FVec F S16x150x4 .f32 := Host.absf main_arg2
  let main_cst_2 : FVec F S_ .f32 := constant S_ .f32 0x7F800000#32
  let main_v10 : FVec F S16x150x4 .f32 := broadcastInDim S16x150x4 ![] bcast_S_S16x150x4 main_cst_2
  let main_v11 : IVec S16x150x4 1 := cmpf .olt main_v9 main_v10
  let main_c_3 : IVec S_ 1 := constantI S_ 1 1#1
  let main_v12 : IVec S_ 1 := (fun x v => Host.reduce IntOp.andi x v reducesTo_S16x150x4_S_d0_1_2 h_S_) main_v11 main_c_3
  let main_v13 : IVec S_ 1 := andi main_v8 main_v12
  main_v13
-- ==== Kernel.lean ====
abbrev S16x76x76x255 : Shape := ⟨4, ![16, 76, 76, 255]⟩
abbrev S16x76x76x3x85 : Shape := ⟨5, ![16, 76, 76, 3, 85]⟩
abbrev S16x150x4 : Shape := ⟨3, ![16, 150, 4]⟩
abbrev S3x2 : Shape := ⟨2, ![3, 2]⟩
abbrev S16x1x128 : Shape := ⟨3, ![16, 1, 128]⟩
abbrev S1x19x76x3x85 : Shape := ⟨5, ![1, 19, 76, 3, 85]⟩
abbrev S1x150x4 : Shape := ⟨3, ![1, 150, 4]⟩
abbrev S1x1x128 : Shape := ⟨3, ![1, 1, 128]⟩
abbrev S128 : Shape := ⟨1, ![128]⟩
abbrev S19x76x3x85 : Shape := ⟨4, ![19, 76, 3, 85]⟩
abbrev S150x4 : Shape := ⟨2, ![150, 4]⟩
abbrev S19x76x3x2 : Shape := ⟨4, ![19, 76, 3, 2]⟩
abbrev S19x76x3x1 : Shape := ⟨4, ![19, 76, 3, 1]⟩
abbrev S19x76x3x80 : Shape := ⟨4, ![19, 76, 3, 80]⟩
abbrev S1x76x1x1 : Shape := ⟨4, ![1, 76, 1, 1]⟩
abbrev S19x1x1x1 : Shape := ⟨4, ![19, 1, 1, 1]⟩
abbrev S19x76x1x1 : Shape := ⟨4, ![19, 76, 1, 1]⟩
abbrev S19x76x1x2 : Shape := ⟨4, ![19, 76, 1, 2]⟩
abbrev S1x1x3x2 : Shape := ⟨4, ![1, 1, 3, 2]⟩
abbrev S19x76x3 : Shape := ⟨3, ![19, 76, 3]⟩
abbrev S19x76x3x4 : Shape := ⟨4, ![19, 76, 3, 4]⟩
abbrev S19x76 : Shape := ⟨2, ![19, 76]⟩
abbrev S19 : Shape := ⟨1, ![19]⟩
abbrev S1x19 : Shape := ⟨2, ![1, 19]⟩
abbrev S1 : Shape := ⟨1, ![1]⟩
abbrev S1x1 : Shape := ⟨2, ![1, 1]⟩
abbrev S150x1 : Shape := ⟨2, ![150, 1]⟩
abbrev S150 : Shape := ⟨1, ![150]⟩
abbrev S1x1x1x150 : Shape := ⟨4, ![1, 1, 1, 150]⟩
abbrev S19x76x3x150 : Shape := ⟨4, ![19, 76, 3, 150]⟩
abbrev S125 : Shape := ⟨1, ![125]⟩
abbrev S16x1x1 : Shape := ⟨3, ![16, 1, 1]⟩
abbrev S16 : Shape := ⟨1, ![16]⟩
abbrev S_ : Shape := ⟨0, ![]⟩
abbrev S3 : Shape := ⟨1, ![3]⟩

abbrev nBuf : Space → Nat
  | .hbm => 28
  | .vmem => 9
  | .smem => 0
  | _ => 0

abbrev bufTy : (tb : Table) → Fin (tcTables nBuf tb) → BufTy
  | .hbm, ⟨0, _⟩ => ⟨S16x76x76x255, .f32⟩
  | .hbm, ⟨1, _⟩ => ⟨S16x76x76x3x85, .f32⟩
  | .hbm, ⟨2, _⟩ => ⟨S16x150x4, .f32⟩
  | .hbm, ⟨3, _⟩ => ⟨S3x2, .f32⟩
  | .hbm, ⟨4, _⟩ => ⟨S16x76x76x3x85, .f32⟩
  | .hbm, ⟨5, _⟩ => ⟨S16x1x128, .f32⟩
  | .hbm, ⟨6, _⟩ => ⟨S16x1x1, .f32⟩
  | .hbm, ⟨7, _⟩ => ⟨S16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16x1x1, .f32⟩
  | .hbm, ⟨13, _⟩ => ⟨S16, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S16x1x1, .f32⟩
  | .hbm, ⟨19, _⟩ => ⟨S16, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1, .f32⟩
  | .hbm, ⟨25, _⟩ => ⟨S1, .f32⟩
  | .hbm, ⟨26, _⟩ => ⟨S1, .f32⟩
  | .hbm, ⟨27, _⟩ => ⟨S3, .f32⟩
  | .local _ .vmem, ⟨0, _⟩ => ⟨S1x19x76x3x85, .f32⟩
  | .local _ .vmem, ⟨1, _⟩ => ⟨S1x19x76x3x85, .f32⟩
  | .local _ .vmem, ⟨2, _⟩ => ⟨S1x19x76x3x85, .f32⟩
  | .local _ .vmem, ⟨3, _⟩ => ⟨S1x19x76x3x85, .f32⟩
  | .local _ .vmem, ⟨4, _⟩ => ⟨S1x150x4, .f32⟩
  | .local _ .vmem, ⟨5, _⟩ => ⟨S1x150x4, .f32⟩
  | .local _ .vmem, ⟨6, _⟩ => ⟨S3x2, .f32⟩
  | .local _ .vmem, ⟨7, _⟩ => ⟨S1x1x128, .f32⟩
  | .local _ .vmem, ⟨8, _⟩ => ⟨S1x1x128, .f32⟩
  | _, _ => ⟨S16x76x76x255, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x76x3x85 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x19x76x3x85 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x150x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S3x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16x76x76x255_S16x76x76x3x85 : S16x76x76x255.ShapeCasts S16x76x76x3x85
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  shapeCasts_S128_S1x1x128 : S128.ShapeCasts S1x1x128
  inb_S1x19x76x3x85_S1x19x76x3x85_0_0_0_0_0 : ∀ a, (![0, 0, 0, 0, 0] : Fin 5 → Nat) a + S1x19x76x3x85.size a ≤ S1x19x76x3x85.size a
  h_S1x19x76x3x85 : 0 < S1x19x76x3x85.numel
  shapeCasts_S1x19x76x3x85_S19x76x3x85 : S1x19x76x3x85.ShapeCasts S19x76x3x85
  inb_S1x150x4_S1x150x4_0_0_0 : ∀ a, (![0, 0, 0] : Fin 3 → Nat) a + S1x150x4.size a ≤ S1x150x4.size a
  h_S1x150x4 : 0 < S1x150x4.numel
  shapeCasts_S1x150x4_S150x4 : S1x150x4.ShapeCasts S150x4
  inb_S3x2_S3x2_0_0 : ∀ a, (![0, 0] : Fin 2 → Nat) a + S3x2.size a ≤ S3x2.size a
  h_S3x2 : 0 < S3x2.numel
  slices_S19x76x3x85_o0_0_0_0_S19x76x3x2 : S19x76x3x85.Slices ![0, 0, 0, 0] S19x76x3x2
  slices_S19x76x3x85_o0_0_0_2_S19x76x3x2 : S19x76x3x85.Slices ![0, 0, 0, 2] S19x76x3x2
  slices_S19x76x3x85_o0_0_0_4_S19x76x3x1 : S19x76x3x85.Slices ![0, 0, 0, 4] S19x76x3x1
  slices_S19x76x3x85_o0_0_0_5_S19x76x3x80 : S19x76x3x85.Slices ![0, 0, 0, 5] S19x76x3x80
  iota_S1x76x1x1_d1_w32 : S1x76x1x1.Iotas .tc 32 [1]
  iota_S19x1x1x1_d0_w32 : S19x1x1x1.Iotas .tc 32 [0]
  shapeCasts_S1x76x1x1_S1x76x1x1 : S1x76x1x1.ShapeCasts S1x76x1x1
  broadcasts_S1x76x1x1_S19x76x1x1 : S1x76x1x1.Broadcasts S19x76x1x1
  shapeCasts_S19x1x1x1_S19x1x1x1 : S19x1x1x1.ShapeCasts S19x1x1x1
  broadcasts_S19x1x1x1_S19x76x1x1 : S19x1x1x1.Broadcasts S19x76x1x1
  concatenates_S19x76x1x1_S19x76x1x1_S19x76x1x2_d3 : Shape.Concatenates [S19x76x1x1, S19x76x1x1] S19x76x1x2 3
  broadcasts_S19x76x1x2_S19x76x3x2 : S19x76x1x2.Broadcasts S19x76x3x2
  shapeCasts_S3x2_S1x1x3x2 : S3x2.ShapeCasts S1x1x3x2
  broadcasts_S1x1x3x2_S19x76x3x2 : S1x1x3x2.Broadcasts S19x76x3x2
  slices_S19x76x3x2_o0_0_0_0_S19x76x3x1 : S19x76x3x2.Slices ![0, 0, 0, 0] S19x76x3x1
  shapeCasts_S19x76x3x1_S19x76x3 : S19x76x3x1.ShapeCasts S19x76x3
  slices_S19x76x3x2_o0_0_0_1_S19x76x3x1 : S19x76x3x2.Slices ![0, 0, 0, 1] S19x76x3x1
  slices_S19x76x3x85_o0_0_0_0_S19x76x3x4 : S19x76x3x85.Slices ![0, 0, 0, 0] S19x76x3x4
  slices_S19x76x3x4_o0_0_0_0_S19x76x3x1 : S19x76x3x4.Slices ![0, 0, 0, 0] S19x76x3x1
  slices_S19x76x3x4_o0_0_0_1_S19x76x3x1 : S19x76x3x4.Slices ![0, 0, 0, 1] S19x76x3x1
  slices_S19x76x3x4_o0_0_0_2_S19x76x3x1 : S19x76x3x4.Slices ![0, 0, 0, 2] S19x76x3x1
  slices_S19x76x3x4_o0_0_0_3_S19x76x3x1 : S19x76x3x4.Slices ![0, 0, 0, 3] S19x76x3x1
  reduces_S19x76x3_S19x76 : S19x76x3.Reduces [2] S19x76
  reduces_S19x76_S19 : S19x76.Reduces [1] S19
  shapeCasts_S19_S1x19 : S19.ShapeCasts S1x19
  reduces_S1x19_S1 : S1x19.Reduces [1] S1
  shapeCasts_S1_S1x1 : S1.ShapeCasts S1x1
  inpos_S1x1_p0_0 : ∀ a, (![0, 0] : Fin 2 → Nat) a < S1x1.size a
  slices_S150x4_o0_0_S150x1 : S150x4.Slices ![0, 0] S150x1
  shapeCasts_S150x1_S150 : S150x1.ShapeCasts S150
  slices_S150x4_o0_1_S150x1 : S150x4.Slices ![0, 1] S150x1
  slices_S150x4_o0_2_S150x1 : S150x4.Slices ![0, 2] S150x1
  slices_S150x4_o0_3_S150x1 : S150x4.Slices ![0, 3] S150x1
  shapeCasts_S150_S1x1x1x150 : S150.ShapeCasts S1x1x1x150
  shapeCasts_S19x76x3_S19x76x3x1 : S19x76x3.ShapeCasts S19x76x3x1
  broadcasts_S19x76x3x1_S19x76x3x150 : S19x76x3x1.Broadcasts S19x76x3x150
  broadcasts_S1x1x1x150_S19x76x3x150 : S1x1x1x150.Broadcasts S19x76x3x150
  reduces_S19x76x3x150_S19x76x3 : S19x76x3x150.Reduces [3] S19x76x3
  natLt_1_32 : 1 < 32
  reduces_S19x76x3x1_S19x76x3 : S19x76x3x1.Reduces [3] S19x76x3
  broadcasts_S19x76x3x1_S19x76x3x80 : S19x76x3x1.Broadcasts S19x76x3x80
  reduces_S19x76x3x80_S19x76x3 : S19x76x3x80.Reduces [3] S19x76x3
  concatenates_S1_S1_S1_S125_S128_d0 : Shape.Concatenates [S1, S1, S1, S125] S128 0
  slices_S16x1x128_S16x1x1_0_0_0 : S16x1x128.Slices ![0, 0, 0] S16x1x1
  shapeCasts_S16x1x1_S16 : S16x1x1.ShapeCasts S16
  reducesTo_S16_S_d0 : S16.ReducesTo [0] S_
  h_S_ : 0 < S_.numel
  slices_S16x1x128_S16x1x1_0_0_1 : S16x1x128.Slices ![0, 0, 1] S16x1x1
  slices_S16x1x128_S16x1x1_0_0_2 : S16x1x128.Slices ![0, 0, 2] S16x1x1
  bcast_S_S1 : S_.BroadcastsInDim S1 (![] : Fin 0 → Fin S1.rank)
  concatenates_S1_S1_S1_S3_d0 : Shape.Concatenates [S1, S1, S1] S3 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x76x3x85.size a ≤ S16x76x76x3x85.size a
  hwx0_0 : ∀ i : grid0.Coords, EltTy.bits .f32 = 32 ∨ (Rect.block (s := S16x76x76x3x85) S1x19x76x3x85.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x19x76x3x85.size a ≤ S16x76x76x3x85.size a
  hwx0_1 : ∀ i : grid0.Coords, EltTy.bits .f32 = 32 ∨ (Rect.block (s := S16x76x76x3x85) S1x19x76x3x85.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x150x4.size a ≤ S16x150x4.size a
  hwx0_2 : ∀ i : grid0.Coords, EltTy.bits .f32 = 32 ∨ (Rect.block (s := S16x150x4) S1x150x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x2.size a ≤ S3x2.size a
  hwx0_3 : ∀ i : grid0.Coords, EltTy.bits .f32 = 32 ∨ (Rect.block (s := S3x2) S3x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S16x1x128.size a
  hwx0_4 : ∀ i : grid0.Coords, EltTy.bits .f32 = 32 ∨ (Rect.block (s := S16x1x128) S1x1x128.size (cc0_transform_4 i) (hinb0_4 i)).WholeWords (EltTy.packing .f32)

variable [Facts₀]

abbrev win0_0 : Pipeline.Window sig grid0 :=
  Pipeline.Window.ofSpec (Memref.whole main_v0) S1x19x76x3x85.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x19x76x3x85.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x150x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_cst) S3x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x76x76x255 : Shape := ⟨4, ![16, 76, 76, 255]⟩
abbrev S16x76x76x3x85 : Shape := ⟨5, ![16, 76, 76, 3, 85]⟩
abbrev S16x150x4 : Shape := ⟨3, ![16, 150, 4]⟩
abbrev S3x2 : Shape := ⟨2, ![3, 2]⟩
abbrev S16x76x76x3x2 : Shape := ⟨5, ![16, 76, 76, 3, 2]⟩
abbrev S16x76x76x3x1 : Shape := ⟨5, ![16, 76, 76, 3, 1]⟩
abbrev S16x76x76x3x80 : Shape := ⟨5, ![16, 76, 76, 3, 80]⟩
abbrev S76 : Shape := ⟨1, ![76]⟩
abbrev S76x76 : Shape := ⟨2, ![76, 76]⟩
abbrev S76x76x1 : Shape := ⟨3, ![76, 76, 1]⟩
abbrev S76x76x2 : Shape := ⟨3, ![76, 76, 2]⟩
abbrev S1x76x76x1x2 : Shape := ⟨5, ![1, 76, 76, 1, 2]⟩
abbrev S_ : Shape := ⟨0, ![]⟩
abbrev S1x1x1x3x2 : Shape := ⟨5, ![1, 1, 1, 3, 2]⟩
abbrev S16x76x76x3x4 : Shape := ⟨5, ![16, 76, 76, 3, 4]⟩
abbrev S16x76x76x3 : Shape := ⟨4, ![16, 76, 76, 3]⟩
abbrev S16x76x76x3x1x4 : Shape := ⟨6, ![16, 76, 76, 3, 1, 4]⟩
abbrev S16x1x1x1x150x4 : Shape := ⟨6, ![16, 1, 1, 1, 150, 4]⟩
abbrev S16x76x76x3x1x1 : Shape := ⟨6, ![16, 76, 76, 3, 1, 1]⟩
abbrev S16x1x1x1x150x1 : Shape := ⟨6, ![16, 1, 1, 1, 150, 1]⟩
abbrev S16x1x1x1x150 : Shape := ⟨5, ![16, 1, 1, 1, 150]⟩
abbrev S16x76x76x3x1x2 : Shape := ⟨6, ![16, 76, 76, 3, 1, 2]⟩
abbrev S16x1x1x1x150x2 : Shape := ⟨6, ![16, 1, 1, 1, 150, 2]⟩
abbrev S16x76x76x3x150x2 : Shape := ⟨6, ![16, 76, 76, 3, 150, 2]⟩
abbrev S16x76x76x3x150x1 : Shape := ⟨6, ![16, 76, 76, 3, 150, 1]⟩
abbrev S16x76x76x3x150 : Shape := ⟨5, ![16, 76, 76, 3, 150]⟩
abbrev S16 : Shape := ⟨1, ![16]⟩
abbrev S1 : Shape := ⟨1, ![1]⟩
abbrev S3 : Shape := ⟨1, ![3]⟩

abbrev nBuf : Space → Nat
  | .hbm => 276
  | .vmem => 0
  | .smem => 0
  | _ => 0

abbrev hbmTy0_0 (i : Nat) : BufTy := match i % 128 with
  | 0 => ⟨S16x76x76x255, .f32⟩
  | 1 => ⟨S16x76x76x3x85, .f32⟩
  | 2 => ⟨S16x150x4, .f32⟩
  | 3 => ⟨S3x2, .f32⟩
  | 4 => ⟨S16x76x76x3x85, .f32⟩
  | 5 => ⟨S16x76x76x3x2, .f32⟩
  | 6 => ⟨S16x76x76x3x2, .f32⟩
  | 7 => ⟨S16x76x76x3x1, .f32⟩
  | 8 => ⟨S16x76x76x3x80, .f32⟩
  | 9 => ⟨S76, .i32⟩
  | 10 => ⟨S76, .i32⟩
  | 11 => ⟨S76x76, .i32⟩
  | 12 => ⟨S76x76, .i32⟩
  | 13 => ⟨S76x76x1, .i32⟩
  | 14 => ⟨S76x76x1, .i32⟩
  | 15 => ⟨S76x76x2, .i32⟩
  | 16 => ⟨S1x76x76x1x2, .i32⟩
  | 17 => ⟨S1x76x76x1x2, .f32⟩
  | 18 => ⟨S16x76x76x3x2, .f32⟩
  | 19 => ⟨S16x76x76x3x2, .f32⟩
  | 20 => ⟨S_, .f32⟩
  | 21 => ⟨S16x76x76x3x2, .f32⟩
  | 22 => ⟨S16x76x76x3x2, .f32⟩
  | 23 => ⟨S_, .f32⟩
  | 24 => ⟨S16x76x76x3x2, .f32⟩
  | 25 => ⟨S16x76x76x3x2, .f32⟩
  | 26 => ⟨S_, .f32⟩
  | 27 => ⟨S16x76x76x3x2, .f32⟩
  | 28 => ⟨S16x76x76x3x2, .f32⟩
  | 29 => ⟨S_, .f32⟩
  | 30 => ⟨S16x76x76x3x2, .f32⟩
  | 31 => ⟨S16x76x76x3x2, .f32⟩
  | 32 => ⟨S16x76x76x3x2, .f32⟩
  | 33 => ⟨S16x76x76x3x2, .f32⟩
  | 34 => ⟨S_, .f32⟩
  | 35 => ⟨S16x76x76x3x2, .f32⟩
  | 36 => ⟨S16x76x76x3x2, .f32⟩
  | 37 => ⟨S16x76x76x3x2, .f32⟩
  | 38 => ⟨S1x1x1x3x2, .f32⟩
  | 39 => ⟨S16x76x76x3x2, .f32⟩
  | 40 => ⟨S16x76x76x3x2, .f32⟩
  | 41 => ⟨S16x76x76x3x1, .f32⟩
  | 42 => ⟨S16x76x76x3x1, .f32⟩
  | 43 => ⟨S_, .f32⟩
  | 44 => ⟨S16x76x76x3x1, .f32⟩
  | 45 => ⟨S16x76x76x3x1, .f32⟩
  | 46 => ⟨S_, .f32⟩
  | 47 => ⟨S16x76x76x3x1, .f32⟩
  | 48 => ⟨S16x76x76x3x1, .f32⟩
  | 49 => ⟨S16x76x76x3x80, .f32⟩
  | 50 => ⟨S16x76x76x3x80, .f32⟩
  | 51 => ⟨S_, .f32⟩
  | 52 => ⟨S16x76x76x3x80, .f32⟩
  | 53 => ⟨S16x76x76x3x80, .f32⟩
  | 54 => ⟨S_, .f32⟩
  | 55 => ⟨S16x76x76x3x80, .f32⟩
  | 56 => ⟨S16x76x76x3x80, .f32⟩
  | 57 => ⟨S16x76x76x3x85, .f32⟩
  | 58 => ⟨S16x76x76x3x85, .f32⟩
  | 59 => ⟨S16x76x76x3x1, .f32⟩
  | 60 => ⟨S16x76x76x3x80, .f32⟩
  | 61 => ⟨S16x76x76x3x4, .f32⟩
  | 62 => ⟨S16x76x76x3x1, .f32⟩
  | 63 => ⟨S16x76x76x3x4, .f32⟩
  | 64 => ⟨S16x76x76x3x1, .f32⟩
  | 65 => ⟨S16x76x76x3x80, .f32⟩
  | 66 => ⟨S16x76x76x3x1, .f32⟩
  | 67 => ⟨S16x76x76x3, .f32⟩
  | 68 => ⟨S16x76x76x3x1, .f32⟩
  | 69 => ⟨S16x76x76x3, .f32⟩
  | 70 => ⟨S16x76x76x3, .f32⟩
  | 71 => ⟨S16x76x76x3x1, .f32⟩
  | 72 => ⟨S16x76x76x3, .f32⟩
  | 73 => ⟨S16x76x76x3x1, .f32⟩
  | 74 => ⟨S16x76x76x3, .f32⟩
  | 75 => ⟨S16x76x76x3, .f32⟩
  | 76 => ⟨S16x76x76x3x2, .f32⟩
  | 77 => ⟨S16x76x76x3x2, .f32⟩
  | 78 => ⟨S_, .f32⟩
  | 79 => ⟨S16x76x76x3x2, .f32⟩
  | 80 => ⟨S16x76x76x3x2, .f32⟩
  | 81 => ⟨S16x76x76x3x2, .f32⟩
  | 82 => ⟨S16x76x76x3x2, .f32⟩
  | 83 => ⟨S16x76x76x3x2, .f32⟩
  | 84 => ⟨S_, .f32⟩
  | 85 => ⟨S16x76x76x3x2, .f32⟩
  | 86 => ⟨S16x76x76x3x2, .f32⟩
  | 87 => ⟨S16x76x76x3x2, .f32⟩
  | 88 => ⟨S16x76x76x3x4, .f32⟩
  | 89 => ⟨S16x76x76x3x2, .f32⟩
  | 90 => ⟨S16x76x76x3x2, .f32⟩
  | 91 => ⟨S_, .f32⟩
  | 92 => ⟨S16x76x76x3x2, .f32⟩
  | 93 => ⟨S16x76x76x3x2, .f32⟩
  | 94 => ⟨S16x76x76x3x2, .f32⟩
  | 95 => ⟨S16x76x76x3x2, .f32⟩
  | 96 => ⟨S16x76x76x3x2, .f32⟩
  | 97 => ⟨S_, .f32⟩
  | 98 => ⟨S16x76x76x3x2, .f32⟩
  | 99 => ⟨S16x76x76x3x2, .f32⟩
  | 100 => ⟨S16x76x76x3x2, .f32⟩
  | 101 => ⟨S16x76x76x3x4, .f32⟩
  | 102 => ⟨S16x76x76x3x2, .f32⟩
  | 103 => ⟨S16x76x76x3x2, .f32⟩
  | 104 => ⟨S16x76x76x3x2, .f32⟩
  | 105 => ⟨S16x76x76x3x2, .f32⟩
  | 106 => ⟨S16x76x76x3x2, .f32⟩
  | 107 => ⟨S16x76x76x3x2, .f32⟩
  | 108 => ⟨S16x76x76x3x2, .f32⟩
  | 109 => ⟨S_, .f32⟩
  | 110 => ⟨S16x76x76x3x2, .f32⟩
  | 111 => ⟨S16x76x76x3x2, .f32⟩
  | 112 => ⟨S16x76x76x3x1, .f32⟩
  | 113 => ⟨S16x76x76x3, .f32⟩
  | 114 => ⟨S16x76x76x3x1, .f32⟩
  | 115 => ⟨S16x76x76x3, .f32⟩
  | 116 => ⟨S16x76x76x3, .f32⟩
  | 117 => ⟨S16x76x76x3, .f32⟩
  | 118 => ⟨S16x76x76x3, .f32⟩
  | 119 => ⟨S16x76x76x3, .f32⟩
  | 120 => ⟨S16x76x76x3x2, .f32⟩
  | 121 => ⟨S16x76x76x3x2, .f32⟩
  | 122 => ⟨S16x76x76x3x2, .f32⟩
  | 123 => ⟨S16x76x76x3x2, .f32⟩
  | 124 => ⟨S16x76x76x3x2, .f32⟩
  | 125 => ⟨S16x76x76x3x2, .f32⟩
  | 126 => ⟨S16x76x76x3x2, .f32⟩
  | 127 => ⟨S_, .f32⟩
  | _ => ⟨S16x76x76x255, .f32⟩

abbrev hbmTy0_1 (i : Nat) : BufTy := match i % 128 with
  | 0 => ⟨S16x76x76x3x2, .f32⟩
  | 1 => ⟨S16x76x76x3x2, .f32⟩
  | 2 => ⟨S16x76x76x3x1, .f32⟩
  | 3 => ⟨S16x76x76x3, .f32⟩
  | 4 => ⟨S16x76x76x3x1, .f32⟩
  | 5 => ⟨S16x76x76x3, .f32⟩
  | 6 => ⟨S16x76x76x3, .f32⟩
  | 7 => ⟨S16x76x76x3, .f32⟩
  | 8 => ⟨S16x76x76x3, .f32⟩
  | 9 => ⟨S16x76x76x3, .f32⟩
  | 10 => ⟨S16x76x76x3x1, .f32⟩
  | 11 => ⟨S16x76x76x3x1, .f32⟩
  | 12 => ⟨S16x76x76x3x1, .f32⟩
  | 13 => ⟨S16x76x76x3x1, .f32⟩
  | 14 => ⟨S_, .f32⟩
  | 15 => ⟨S16x76x76x3x1, .f32⟩
  | 16 => ⟨S16x76x76x3x1, .f32⟩
  | 17 => ⟨S_, .f32⟩
  | 18 => ⟨S16x76x76x3x1, .f32⟩
  | 19 => ⟨S16x76x76x3x1, .f32⟩
  | 20 => ⟨S16x76x76x3x1, .f32⟩
  | 21 => ⟨S_, .f32⟩
  | 22 => ⟨S16x76x76x3x1, .f32⟩
  | 23 => ⟨S16x76x76x3x1, .f32⟩
  | 24 => ⟨S16x76x76x3x1, .f32⟩
  | 25 => ⟨S16x76x76x3x1x4, .f32⟩
  | 26 => ⟨S16x1x1x1x150x4, .f32⟩
  | 27 => ⟨S16x76x76x3x1x1, .f32⟩
  | 28 => ⟨S16x76x76x3x1, .f32⟩
  | 29 => ⟨S16x76x76x3x1x1, .f32⟩
  | 30 => ⟨S16x76x76x3x1, .f32⟩
  | 31 => ⟨S16x76x76x3x1, .f32⟩
  | 32 => ⟨S16x1x1x1x150x1, .f32⟩
  | 33 => ⟨S16x1x1x1x150, .f32⟩
  | 34 => ⟨S16x1x1x1x150x1, .f32⟩
  | 35 => ⟨S16x1x1x1x150, .f32⟩
  | 36 => ⟨S16x1x1x1x150, .f32⟩
  | 37 => ⟨S16x76x76x3x1x2, .f32⟩
  | 38 => ⟨S16x76x76x3x1x2, .f32⟩
  | 39 => ⟨S_, .f32⟩
  | 40 => ⟨S16x76x76x3x1x2, .f32⟩
  | 41 => ⟨S16x76x76x3x1x2, .f32⟩
  | 42 => ⟨S16x76x76x3x1x2, .f32⟩
  | 43 => ⟨S16x76x76x3x1x2, .f32⟩
  | 44 => ⟨S16x76x76x3x1x2, .f32⟩
  | 45 => ⟨S_, .f32⟩
  | 46 => ⟨S16x76x76x3x1x2, .f32⟩
  | 47 => ⟨S16x76x76x3x1x2, .f32⟩
  | 48 => ⟨S16x76x76x3x1x2, .f32⟩
  | 49 => ⟨S16x76x76x3x1x4, .f32⟩
  | 50 => ⟨S16x1x1x1x150x2, .f32⟩
  | 51 => ⟨S16x1x1x1x150x2, .f32⟩
  | 52 => ⟨S_, .f32⟩
  | 53 => ⟨S16x1x1x1x150x2, .f32⟩
  | 54 => ⟨S16x1x1x1x150x2, .f32⟩
  | 55 => ⟨S16x1x1x1x150x2, .f32⟩
  | 56 => ⟨S16x1x1x1x150x2, .f32⟩
  | 57 => ⟨S16x1x1x1x150x2, .f32⟩
  | 58 => ⟨S_, .f32⟩
  | 59 => ⟨S16x1x1x1x150x2, .f32⟩
  | 60 => ⟨S16x1x1x1x150x2, .f32⟩
  | 61 => ⟨S16x1x1x1x150x2, .f32⟩
  | 62 => ⟨S16x1x1x1x150x4, .f32⟩
  | 63 => ⟨S16x76x76x3x1x2, .f32⟩
  | 64 => ⟨S16x1x1x1x150x2, .f32⟩
  | 65 => ⟨S16x76x76x3x150x2, .f32⟩
  | 66 => ⟨S16x76x76x3x150x2, .f32⟩
  | 67 => ⟨S16x76x76x3x150x2, .f32⟩
  | 68 => ⟨S16x76x76x3x1x2, .f32⟩
  | 69 => ⟨S16x1x1x1x150x2, .f32⟩
  | 70 => ⟨S16x76x76x3x150x2, .f32⟩
  | 71 => ⟨S16x76x76x3x150x2, .f32⟩
  | 72 => ⟨S16x76x76x3x150x2, .f32⟩
  | 73 => ⟨S16x76x76x3x150x2, .f32⟩
  | 74 => ⟨S_, .f32⟩
  | 75 => ⟨S16x76x76x3x150x2, .f32⟩
  | 76 => ⟨S16x76x76x3x150x2, .f32⟩
  | 77 => ⟨S16x76x76x3x150x1, .f32⟩
  | 78 => ⟨S16x76x76x3x150, .f32⟩
  | 79 => ⟨S16x76x76x3x150x1, .f32⟩
  | 80 => ⟨S16x76x76x3x150, .f32⟩
  | 81 => ⟨S16x76x76x3x150, .f32⟩
  | 82 => ⟨S16x76x76x3x150, .f32⟩
  | 83 => ⟨S16x76x76x3x150, .f32⟩
  | 84 => ⟨S16x76x76x3x150, .f32⟩
  | 85 => ⟨S16x76x76x3x150, .f32⟩
  | 86 => ⟨S16x76x76x3x150, .f32⟩
  | 87 => ⟨S_, .f32⟩
  | 88 => ⟨S16x76x76x3, .f32⟩
  | 89 => ⟨S16x76x76x3x1, .f32⟩
  | 90 => ⟨S_, .f32⟩
  | 91 => ⟨S16x76x76x3x1, .f32⟩
  | 92 => ⟨S16x76x76x3x1, .f32⟩
  | 93 => ⟨S_, .f32⟩
  | 94 => ⟨S16x76x76x3x1, .f32⟩
  | 95 => ⟨S16x76x76x3x1, .i1⟩
  | 96 => ⟨S16x76x76x3x1, .f32⟩
  | 97 => ⟨S16x76x76x3x1, .f32⟩
  | 98 => ⟨S16x76x76x3x1, .f32⟩
  | 99 => ⟨S16x76x76x3x1, .f32⟩
  | 100 => ⟨S_, .f32⟩
  | 101 => ⟨S16x76x76x3x1, .f32⟩
  | 102 => ⟨S16x76x76x3x1, .f32⟩
  | 103 => ⟨S16x76x76x3x1, .f32⟩
  | 104 => ⟨S16x76x76x3x1, .f32⟩
  | 105 => ⟨S16x76x76x3x1, .f32⟩
  | 106 => ⟨S16x76x76x3x1, .f32⟩
  | 107 => ⟨S16x76x76x3x1, .f32⟩
  | 108 => ⟨S16x76x76x3x1, .f32⟩
  | 109 => ⟨S16x76x76x3x1, .f32⟩
  | 110 => ⟨S16x76x76x3x1, .f32⟩
  | 111 => ⟨S16x76x76x3x1, .f32⟩
  | 112 => ⟨S16x76x76x3x1, .f32⟩
  | 113 => ⟨S16x76x76x3x1, .f32⟩
  | 114 => ⟨S_, .f32⟩
  | 115 => ⟨S16x76x76x3x80, .f32⟩
  | 116 => ⟨S16x76x76x3x80, .f32⟩
  | 117 => ⟨S16x76x76x3x80, .f32⟩
  | 118 => ⟨S16x76x76x3x80, .f32⟩
  | 119 => ⟨S16x76x76x3x80, .f32⟩
  | 120 => ⟨S16x76x76x3x80, .f32⟩
  | 121 => ⟨S16x76x76x3x80, .f32⟩
  | 122 => ⟨S16x76x76x3x80, .f32⟩
  | 123 => ⟨S16x76x76x3x80, .f32⟩
  | 124 => ⟨S16x76x76x3x80, .f32⟩
  | 125 => ⟨S16x76x76x3x80, .f32⟩
  | 126 => ⟨S_, .f32⟩
  | 127 => ⟨S16, .f32⟩
  | _ => ⟨S16x76x76x255, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S16, .f32⟩
  | 6 => ⟨S_, .f32⟩
  | 7 => ⟨S_, .f32⟩
  | 8 => ⟨S_, .f32⟩
  | 9 => ⟨S_, .f32⟩
  | 10 => ⟨S_, .f32⟩
  | 11 => ⟨S16, .f32⟩
  | 12 => ⟨S_, .f32⟩
  | 13 => ⟨S_, .f32⟩
  | 14 => ⟨S_, .f32⟩
  | 15 => ⟨S_, .f32⟩
  | 16 => ⟨S1, .f32⟩
  | 17 => ⟨S1, .f32⟩
  | 18 => ⟨S1, .f32⟩
  | 19 => ⟨S3, .f32⟩
  | _ => ⟨S16x76x76x255, .f32⟩

abbrev hbmTy (i : Nat) : BufTy := match i / 128 with
  | 0 => hbmTy0_0 i
  | 1 => hbmTy0_1 i
  | 2 => hbmTy0_2 i
  | _ => ⟨S16x76x76x255, .f32⟩

abbrev bufTy : (tb : Table) → Fin (tcTables nBuf tb) → BufTy
  | .hbm, ⟨i, _⟩ => hbmTy i
  | _, _ => ⟨S16x76x76x255, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_9 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_10 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_cst_11 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_cst_12 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_13 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_cst_14 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_cst_15 : Ref sig .tc := ⟨.hbm, 142, rfl⟩
abbrev main_v123 : Ref sig .tc := ⟨.hbm, 143, rfl⟩
abbrev main_v124 : Ref sig .tc := ⟨.hbm, 144, rfl⟩
abbrev main_cst_16 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_cst_17 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_cst_18 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_cst_19 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_cst_20 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_cst_21 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_cst_22 : Ref sig .tc := ⟨.hbm, 202, rfl⟩
abbrev main_v176 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_cst_23 : Ref sig .tc := ⟨.hbm, 215, rfl⟩
abbrev main_v188 : Ref sig .tc := ⟨.hbm, 216, rfl⟩
abbrev main_v189 : Ref sig .tc := ⟨.hbm, 217, rfl⟩
abbrev main_cst_24 : Ref sig .tc := ⟨.hbm, 218, rfl⟩
abbrev main_v190 : Ref sig .tc := ⟨.hbm, 219, rfl⟩
abbrev main_v191 : Ref sig .tc := ⟨.hbm, 220, rfl⟩
abbrev main_cst_25 : Ref sig .tc := ⟨.hbm, 221, rfl⟩
abbrev main_v192 : Ref sig .tc := ⟨.hbm, 222, rfl⟩
abbrev main_v193 : Ref sig .tc := ⟨.hbm, 223, rfl⟩
abbrev main_v194 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_cst_26 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_cst_27 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_cst_28 : Ref sig .tc := ⟨.hbm, 254, rfl⟩
abbrev main_v222 : Ref sig .tc := ⟨.hbm, 255, rfl⟩
abbrev main_cst_29 : Ref sig .tc := ⟨.hbm, 256, rfl⟩
abbrev main_v223 : Ref sig .tc := ⟨.hbm, 257, rfl⟩
abbrev main_cst_30 : Ref sig .tc := ⟨.hbm, 258, rfl⟩
abbrev main_v224 : Ref sig .tc := ⟨.hbm, 259, rfl⟩
abbrev main_cst_31 : Ref sig .tc := ⟨.hbm, 260, rfl⟩
abbrev main_v225 : Ref sig .tc := ⟨.hbm, 261, rfl⟩
abbrev main_cst_32 : Ref sig .tc := ⟨.hbm, 262, rfl⟩
abbrev main_v226 : Ref sig .tc := ⟨.hbm, 263, rfl⟩
abbrev main_cst_33 : Ref sig .tc := ⟨.hbm, 264, rfl⟩
abbrev main_v227 : Ref sig .tc := ⟨.hbm, 265, rfl⟩
abbrev main_cst_34 : Ref sig .tc := ⟨.hbm, 266, rfl⟩
abbrev main_v228 : Ref sig .tc := ⟨.hbm, 267, rfl⟩
abbrev main_cst_35 : Ref sig .tc := ⟨.hbm, 268, rfl⟩
abbrev main_v229 : Ref sig .tc := ⟨.hbm, 269, rfl⟩
abbrev main_cst_36 : Ref sig .tc := ⟨.hbm, 270, rfl⟩
abbrev main_v230 : Ref sig .tc := ⟨.hbm, 271, rfl⟩
abbrev main_v231 : Ref sig .tc := ⟨.hbm, 272, rfl⟩
abbrev main_v232 : Ref sig .tc := ⟨.hbm, 273, rfl⟩
abbrev main_v233 : Ref sig .tc := ⟨.hbm, 274, rfl⟩
abbrev main_v234 : Ref sig .tc := ⟨.hbm, 275, rfl⟩

abbrev nD : Nat := 1
abbrev τ : Topo := Topo.v7x

variable {F : FTy → Type} [FloatOps F]

class Facts₀ : Prop where
  shapeCasts_S16x76x76x255_S16x76x76x3x85 : S16x76x76x255.ShapeCasts S16x76x76x3x85
  slices_S16x76x76x3x85_S16x76x76x3x2_0_0_0_0_0 : S16x76x76x3x85.Slices ![0, 0, 0, 0, 0] S16x76x76x3x2
  slices_S16x76x76x3x85_S16x76x76x3x2_0_0_0_0_2 : S16x76x76x3x85.Slices ![0, 0, 0, 0, 2] S16x76x76x3x2
  slices_S16x76x76x3x85_S16x76x76x3x1_0_0_0_0_4 : S16x76x76x3x85.Slices ![0, 0, 0, 0, 4] S16x76x76x3x1
  slices_S16x76x76x3x85_S16x76x76x3x80_0_0_0_0_5 : S16x76x76x3x85.Slices ![0, 0, 0, 0, 5] S16x76x76x3x80
  bcast_S76_S76x76_0 : S76.BroadcastsInDim S76x76 (![0] : Fin 1 → Fin S76x76.rank)
  bcast_S76_S76x76_1 : S76.BroadcastsInDim S76x76 (![1] : Fin 1 → Fin S76x76.rank)
  bcast_S76x76_S76x76x1_0_1 : S76x76.BroadcastsInDim S76x76x1 (![0, 1] : Fin 2 → Fin S76x76x1.rank)
  concatenates_S76x76x1_S76x76x1_S76x76x2_d2 : Shape.Concatenates [S76x76x1, S76x76x1] S76x76x2 2
  bcast_S76x76x2_S1x76x76x1x2_1_2_4 : S76x76x2.BroadcastsInDim S1x76x76x1x2 (![1, 2, 4] : Fin 3 → Fin S1x76x76x1x2.rank)
  bcast_S_S16x76x76x3x2 : S_.BroadcastsInDim S16x76x76x3x2 (![] : Fin 0 → Fin S16x76x76x3x2.rank)
  bcast_S1x76x76x1x2_S16x76x76x3x2_0_1_2_3_4 : S1x76x76x1x2.BroadcastsInDim S16x76x76x3x2 (![0, 1, 2, 3, 4] : Fin 5 → Fin S16x76x76x3x2.rank)
  bcast_S3x2_S1x1x1x3x2_3_4 : S3x2.BroadcastsInDim S1x1x1x3x2 (![3, 4] : Fin 2 → Fin S1x1x1x3x2.rank)
  bcast_S1x1x1x3x2_S16x76x76x3x2_0_1_2_3_4 : S1x1x1x3x2.BroadcastsInDim S16x76x76x3x2 (![0, 1, 2, 3, 4] : Fin 5 → Fin S16x76x76x3x2.rank)
  bcast_S_S16x76x76x3x1 : S_.BroadcastsInDim S16x76x76x3x1 (![] : Fin 0 → Fin S16x76x76x3x1.rank)
  bcast_S_S16x76x76x3x80 : S_.BroadcastsInDim S16x76x76x3x80 (![] : Fin 0 → Fin S16x76x76x3x80.rank)
  concatenates_S16x76x76x3x2_S16x76x76x3x2_S16x76x76x3x1_S16x76x76x3x80_S16x76x76x3x85_d4 : Shape.Concatenates [S16x76x76x3x2, S16x76x76x3x2, S16x76x76x3x1, S16x76x76x3x80] S16x76x76x3x85 4
  slices_S16x76x76x3x85_S16x76x76x3x4_0_0_0_0_0 : S16x76x76x3x85.Slices ![0, 0, 0, 0, 0] S16x76x76x3x4
  slices_S16x76x76x3x4_S16x76x76x3x1_0_0_0_0_2 : S16x76x76x3x4.Slices ![0, 0, 0, 0, 2] S16x76x76x3x1
  shapeCasts_S16x76x76x3x1_S16x76x76x3 : S16x76x76x3x1.ShapeCasts S16x76x76x3
  slices_S16x76x76x3x4_S16x76x76x3x1_0_0_0_0_3 : S16x76x76x3x4.Slices ![0, 0, 0, 0, 3] S16x76x76x3x1
  slices_S16x76x76x3x4_S16x76x76x3x2_0_0_0_0_0 : S16x76x76x3x4.Slices ![0, 0, 0, 0, 0] S16x76x76x3x2
  slices_S16x76x76x3x4_S16x76x76x3x2_0_0_0_0_2 : S16x76x76x3x4.Slices ![0, 0, 0, 0, 2] S16x76x76x3x2
  concatenates_S16x76x76x3x2_S16x76x76x3x2_S16x76x76x3x4_d4 : Shape.Concatenates [S16x76x76x3x2, S16x76x76x3x2] S16x76x76x3x4 4
  slices_S16x76x76x3x2_S16x76x76x3x1_0_0_0_0_0 : S16x76x76x3x2.Slices ![0, 0, 0, 0, 0] S16x76x76x3x1
  slices_S16x76x76x3x2_S16x76x76x3x1_0_0_0_0_1 : S16x76x76x3x2.Slices ![0, 0, 0, 0, 1] S16x76x76x3x1
  bcast_S16x76x76x3_S16x76x76x3x1_0_1_2_3 : S16x76x76x3.BroadcastsInDim S16x76x76x3x1 (![0, 1, 2, 3] : Fin 4 → Fin S16x76x76x3x1.rank)
  bcast_S16x76x76x3x4_S16x76x76x3x1x4_0_1_2_3_5 : S16x76x76x3x4.BroadcastsInDim S16x76x76x3x1x4 (![0, 1, 2, 3, 5] : Fin 5 → Fin S16x76x76x3x1x4.rank)
  bcast_S16x150x4_S16x1x1x1x150x4_0_4_5 : S16x150x4.BroadcastsInDim S16x1x1x1x150x4 (![0, 4, 5] : Fin 3 → Fin S16x1x1x1x150x4.rank)
  slices_S16x76x76x3x1x4_S16x76x76x3x1x1_0_0_0_0_0_2 : S16x76x76x3x1x4.Slices ![0, 0, 0, 0, 0, 2] S16x76x76x3x1x1
  shapeCasts_S16x76x76x3x1x1_S16x76x76x3x1 : S16x76x76x3x1x1.ShapeCasts S16x76x76x3x1
  slices_S16x76x76x3x1x4_S16x76x76x3x1x1_0_0_0_0_0_3 : S16x76x76x3x1x4.Slices ![0, 0, 0, 0, 0, 3] S16x76x76x3x1x1
  slices_S16x1x1x1x150x4_S16x1x1x1x150x1_0_0_0_0_0_2 : S16x1x1x1x150x4.Slices ![0, 0, 0, 0, 0, 2] S16x1x1x1x150x1
  shapeCasts_S16x1x1x1x150x1_S16x1x1x1x150 : S16x1x1x1x150x1.ShapeCasts S16x1x1x1x150
  slices_S16x1x1x1x150x4_S16x1x1x1x150x1_0_0_0_0_0_3 : S16x1x1x1x150x4.Slices ![0, 0, 0, 0, 0, 3] S16x1x1x1x150x1
  slices_S16x76x76x3x1x4_S16x76x76x3x1x2_0_0_0_0_0_0 : S16x76x76x3x1x4.Slices ![0, 0, 0, 0, 0, 0] S16x76x76x3x1x2
  slices_S16x76x76x3x1x4_S16x76x76x3x1x2_0_0_0_0_0_2 : S16x76x76x3x1x4.Slices ![0, 0, 0, 0, 0, 2] S16x76x76x3x1x2
  bcast_S_S16x76x76x3x1x2 : S_.BroadcastsInDim S16x76x76x3x1x2 (![] : Fin 0 → Fin S16x76x76x3x1x2.rank)
  concatenates_S16x76x76x3x1x2_S16x76x76x3x1x2_S16x76x76x3x1x4_d5 : Shape.Concatenates [S16x76x76x3x1x2, S16x76x76x3x1x2] S16x76x76x3x1x4 5
  slices_S16x1x1x1x150x4_S16x1x1x1x150x2_0_0_0_0_0_0 : S16x1x1x1x150x4.Slices ![0, 0, 0, 0, 0, 0] S16x1x1x1x150x2
  slices_S16x1x1x1x150x4_S16x1x1x1x150x2_0_0_0_0_0_2 : S16x1x1x1x150x4.Slices ![0, 0, 0, 0, 0, 2] S16x1x1x1x150x2
  bcast_S_S16x1x1x1x150x2 : S_.BroadcastsInDim S16x1x1x1x150x2 (![] : Fin 0 → Fin S16x1x1x1x150x2.rank)
  concatenates_S16x1x1x1x150x2_S16x1x1x1x150x2_S16x1x1x1x150x4_d5 : Shape.Concatenates [S16x1x1x1x150x2, S16x1x1x1x150x2] S16x1x1x1x150x4 5
  bcast_S16x76x76x3x1x2_S16x76x76x3x150x2_0_1_2_3_4_5 : S16x76x76x3x1x2.BroadcastsInDim S16x76x76x3x150x2 (![0, 1, 2, 3, 4, 5] : Fin 6 → Fin S16x76x76x3x150x2.rank)
  bcast_S16x1x1x1x150x2_S16x76x76x3x150x2_0_1_2_3_4_5 : S16x1x1x1x150x2.BroadcastsInDim S16x76x76x3x150x2 (![0, 1, 2, 3, 4, 5] : Fin 6 → Fin S16x76x76x3x150x2.rank)
  bcast_S_S16x76x76x3x150x2 : S_.BroadcastsInDim S16x76x76x3x150x2 (![] : Fin 0 → Fin S16x76x76x3x150x2.rank)
  slices_S16x76x76x3x150x2_S16x76x76x3x150x1_0_0_0_0_0_0 : S16x76x76x3x150x2.Slices ![0, 0, 0, 0, 0, 0] S16x76x76x3x150x1
  shapeCasts_S16x76x76x3x150x1_S16x76x76x3x150 : S16x76x76x3x150x1.ShapeCasts S16x76x76x3x150
  slices_S16x76x76x3x150x2_S16x76x76x3x150x1_0_0_0_0_0_1 : S16x76x76x3x150x2.Slices ![0, 0, 0, 0, 0, 1] S16x76x76x3x150x1
  bcast_S16x76x76x3x1_S16x76x76x3x150_0_1_2_3_4 : S16x76x76x3x1.BroadcastsInDim S16x76x76x3x150 (![0, 1, 2, 3, 4] : Fin 5 → Fin S16x76x76x3x150.rank)
  bcast_S16x1x1x1x150_S16x76x76x3x150_0_1_2_3_4 : S16x1x1x1x150.BroadcastsInDim S16x76x76x3x150 (![0, 1, 2, 3, 4] : Fin 5 → Fin S16x76x76x3x150.rank)
  reducesTo_S16x76x76x3x150_S16x76x76x3_d4 : S16x76x76x3x150.ReducesTo [4] S16x76x76x3
  h_S_ : 0 < S_.numel
  bcast_S16x76x76x3x1_S16x76x76x3x80_0_1_2_3_4 : S16x76x76x3x1.BroadcastsInDim S16x76x76x3x80 (![0, 1, 2, 3, 4] : Fin 5 → Fin S16x76x76x3x80.rank)
  reducesTo_S16x76x76x3x1_S16_d1_2_3_4 : S16x76x76x3x1.ReducesTo [1, 2, 3, 4] S16
  reducesTo_S16_S_d0 : S16.ReducesTo [0] S_
  reducesTo_S16x76x76x3x80_S16_d1_2_3_4 : S16x76x76x3x80.ReducesTo [1, 2, 3, 4] S16
  bcast_S_S1 : S_.BroadcastsInDim S1 (![] : Fin 0 → Fin S1.rank)
  concatenates_S1_S1_S1_S3_d0 : Shape.Concatenates [S1, S1, S1] S3 0

variable [Facts₀]

class Facts : Prop extends Facts₀ where

variable [Facts]
-- ==== Proof.K.FrameKit.lean ====
import proofs.«103457_j67783173865496_1_alg».proof.Proof.Gen.Kernel.Launch
import proofs.«103457_j67783173865496_1_alg».proof.Proof.Gen.Kernel.Skeleton
import proofs.«103457_j67783173865496_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.HF

open Cert.Kernel.Gen
open Idealize.ShloMosaic Idealize.ShloMosaic.TcCoe
open Idealize.ShloMosaic.Pipeline (Dat)

variable {F : FTy → Type} [FloatOps F]

variable (m : (ℓ : Loc nD τ sig) → Buf (Elt F) ℓ) (c : Dev nD)

abbrev V0 : Valuation τ sig (Elt F) := StableHlo.after (List.flatten [hostOps0]) (fun b => m (c, b))
abbrev V (b : Ref sig .tc) : Buf (Elt F) ((c : Thread nD τ).loc b) := V0 m c (Proc.devRef .tc b)

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub (And.intro rfl rfl) main_chain

theorem sfx_sub : ∀ ops ∈ [hostOps1 (F := F)], ∀ op ∈ ops,
    op.bufs ⊆ Pipeline.tailRefs sig Pipeline.Prefetch.none spec0 := by
  rw [Pipeline.tailRefs_none spec0 launch0.win.arr_unscoped]
  exact List.forall_mem_singleton.2 fun op hop => Pipeline.sub_ucRefs op (List.forall_iff_forall_mem.1 hostOps1_sub op hop)

theorem sfx_fresh : ∀ ops ∈ [hostOps1 (F := F)], ∀ op ∈ ops, op.fresh = ∅ :=
  List.forall_mem_singleton.2 (List.forall_iff_forall_mem.1 (by simp only [List.Forall]; repeat' constructor))

/-- Each later operation writes its one result, and no result is a window's array. -/
theorem sfx_keeps : ∀ ops ∈ [hostOps1 (F := F)], ∀ op ∈ ops,
    ∀ w, Proc.devRef .tc (Pipeline.arrRef spec0 w) ∉ op.writes :=
  List.forall_mem_singleton.2 fun op hop w => by
    fin_cases hop <;> exact Finset.notMem_singleton.2 (StableHlo.devRef_ne_of_ne (by revert w; decide))

/-- The two leading operations write `main_cst` and `main_v0`: any other buffer is as launched. -/
theorem V_of_ne {b : Ref sig .tc} (h0 : b ≠ main_cst) (h1 : b ≠ main_v0) : V m c b = m ((c : Thread nD τ).loc b) :=
  StableHlo.after_of_forall_not_mem (b := Proc.devRef .tc b) _ _ (List.forall_iff_forall_mem.1
    (And.intro (Finset.notMem_singleton.2 (StableHlo.devRef_ne_of_ne h0)) (Finset.notMem_singleton.2 (StableHlo.devRef_ne_of_ne h1))))
theorem V_main_arg1 : V m c main_arg1 = m ((c : Thread nD τ).loc main_arg1) := V_of_ne m c (by decide) (by decide)
theorem V_main_arg2 : V m c main_arg2 = m ((c : Thread nD τ).loc main_arg2) := V_of_ne m c (by decide) (by decide)

/-- The first argument is no window's array and no result of a later operation. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ fun op hop => by
      fin_cases hop <;> exact Finset.notMem_singleton.2 (StableHlo.devRef_ne_of_ne (by decide)),
    Pipeline.withArrays_of_ne _ c (V0 m c) _ main_arg0 (by decide)]
  exact V_of_ne m c (by decide) (by decide)

def iblk (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev cond0_0 (i : grid0.Coords) : Prop := (Scalar.cmpi .ne (Scalar.extui (Scalar.cmpi .eq (BitVec.ofNat 32 (i 1).val) 0#32)) 0#32) = 1#1
/-- Point `t` has coordinates `(t / 4, t % 4)`. -/
theorem hcond0_0 : ∀ t : Fin cfg0.N, cond0_0 (grid0.coords t) ↔ t.val % 4 = 0 := by decide +kernel

abbrev VO0_4 : View sig .tc .vmem S1x1x128 .f32 := (Memref.whole cc0_stg4_0 : Memref sig .tc .vmem S1x1x128 .f32).view
abbrev ms0_0 (t : Fin cfg0.N) : Memref sig .tc .vmem S1x19x76x3x85 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x19x76x3x85 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x150x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)

end Cert.Kernel.HF

end
-- ==== Proof.K.RunA.lean ====
import proofs.«103457_j67783173865496_1_alg».proof.Proof.K.FrameKit

noncomputable section

namespace Cert.Kernel.HF

open Cert.Kernel.Gen
open Idealize.ShloMosaic Idealize.ShloMosaic.TcCoe
open Idealize.SL Idealize.SL.RA Idealize.SL.BI Idealize.SL.BI.BIBase Idealize.SL.Sem

variable {F : FTy → Type} [FloatOps F]

def kernelRun0_A (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole) (hc0 : cond0_0 i)
    (x0 : Vec F S1x19x76x3x85 .f32) (x1 : Vec F S1x19x76x3x85 .f32) (x2 : Vec F S1x150x4 .f32) (x3 : Vec F S3x2 .f32) :
    { L4 : List (View.Piece (Elt F) S1x1x128 .f32) //
      ∀ (E : Set ℕ) (K : PUnit → sProp (MT nD τ sig Unit (Elt F) ℕ (UR sig nD τ) ℕ)),
        iprop(owns c.tc arg2 fullShare x0 ∗ owns c.tc arg3 fullShare x1 ∗ owns c.tc arg4 fullShare x2 ∗ owns c.tc arg5 fullShare x3 ∗ (∃ d, owns c.tc arg6 fullShare d)
            ∗ (iprop(owns c.tc arg2 fullShare x0 ∗ owns c.tc arg3 fullShare x1 ∗ owns c.tc arg4 fullShare x2 ∗ owns c.tc arg5 fullShare x3 ∗ (∃ f, arg6.view.loc c.tc ↦[arg6.view.set]{fullShare} arg6.view.writes (Elt F) f L4)) -∗ K ⟨⟩))
          ⊢ wp frame (wpE (defs₀ (F := F)) Variants.none c none) E (cc0__yolo_kernel i arg2 harg2 arg3 harg3 arg4 harg4 arg5 harg5 arg6 harg6) K } := by
  refine ⟨?_, fun E K => ?run⟩
  case run =>
    simp only [cc0__yolo_kernel_eq_skeleton]; unfold cc0__yolo_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]; · iexists _; iframe H0; ipureintro; exact harg2.read_unread _
    isplitl [H1]; · iexists _; iframe H1; ipureintro; exact harg3.read_unread _
    isplitl [H2]; · iexists _; iframe H2; ipureintro; exact harg4.read_unread _
    isplitl [H3]; · iexists _; iframe H3; ipureintro; exact harg5.read_unread _
    iexists _; iexact H4

end Cert.Kernel.HF

end
-- ==== Proof.K.RunB.lean ====
import proofs.«103457_j67783173865496_1_alg».proof.Proof.K.RunA

noncomputable section

namespace Cert.Kernel.HF

open Cert.Kernel.Gen
open Idealize.ShloMosaic Idealize.ShloMosaic.TcCoe
open Idealize.SL Idealize.SL.RA Idealize.SL.BI Idealize.SL.BI.BIBase Idealize.SL.Sem

variable {F : FTy → Type} [FloatOps F]

def kernelRun0_B (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole) (hc0 : ¬cond0_0 i)
    (x0 : Vec F S1x19x76x3x85 .f32) (x1 : Vec F S1x19x76x3x85 .f32) (x2 : Vec F S1x150x4 .f32) (x3 : Vec F S3x2 .f32) (xo4 : Vec F S1x1x128 .f32) :
    { L4 : List (View.Piece (Elt F) S1x1x128 .f32) //
      ∀ (E : Set ℕ) (K : PUnit → sProp (MT nD τ sig Unit (Elt F) ℕ (UR sig nD τ) ℕ)),
        iprop(owns c.tc arg2 fullShare x0 ∗ owns c.tc arg3 fullShare x1 ∗ owns c.tc arg4 fullShare x2 ∗ owns c.tc arg5 fullShare x3 ∗ owns c.tc arg6 fullShare xo4
            ∗ (iprop(owns c.tc arg2 fullShare x0 ∗ owns c.tc arg3 fullShare x1 ∗ owns c.tc arg4 fullShare x2 ∗ owns c.tc arg5 fullShare x3 ∗ (∃ f, arg6.view.loc c.tc ↦[arg6.view.set]{fullShare} arg6.view.writes (Elt F) f L4)) -∗ K ⟨⟩))
          ⊢ wp frame (wpE (defs₀ (F := F)) Variants.none c none) E (cc0__yolo_kernel i arg2 harg2 arg3 harg3 arg4 harg4 arg5 harg5 arg6 harg6) K } := by
  refine ⟨?_, fun E K => ?run⟩
  case run =>
    simp only [cc0__yolo_kernel_eq_skeleton]; unfold cc0__yolo_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]; · iexists _; iframe H0; ipureintro; exact harg2.read_unread _
    isplitl [H1]; · iexists _; iframe H1; ipureintro; exact harg3.read_unread _
    isplitl [H2]; · iexists _; iframe H2; ipureintro; exact harg4.read_unread _
    isplitl [H3]; · iexists _; iframe H3; ipureintro; exact harg5.read_unread _
    iexists _; iexact H4

end Cert.Kernel.HF

end
-- ==== Proof.K.Frame.lean ====
import proofs.«103457_j67783173865496_1_alg».proof.Proof.K.RunB

noncomputable section

namespace Cert.Kernel.HF

open Cert.Kernel.Gen
open Idealize.ShloMosaic Idealize.ShloMosaic.TcCoe
open Idealize.SL Idealize.SL.RA Idealize.SL.BI Idealize.SL.BI.BIBase Idealize.SL.Sem
open Idealize.ShloMosaic.Pipeline (Dat BodyObligation)

variable {F : FTy → Type} [FloatOps F]

variable (m : (ℓ : Loc nD τ sig) → Buf (Elt F) ℓ) (ρ : Dev nD → PrngReg)

section
variable (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole)

section
variable (hc0 : cond0_0 i) (x0 : Vec F S1x19x76x3x85 .f32) (x1 : Vec F S1x19x76x3x85 .f32) (x2 : Vec F S1x150x4 .f32) (x3 : Vec F S3x2 .f32)

/-- Case A's stores tile the output's block. -/
theorem cover0_A_4 (y : S1x1x128.Idx) : ∃ pc ∈ (kernelRun0_A c i arg2 harg2 arg3 harg3 arg4 harg4 arg5 harg5 arg6 harg6 hc0 x0 x1 x2 x3).1, y ∈ pc.1.set :=
  View.cover_of_tiledL _ S1x1x128.size (by sl_kernel_rfl) y

/-- What case A leaves in the output's block: its stores read back. -/
def out0_A_4 : Vec F S1x1x128 .f32 :=
  VO0_4.read (Elt F) (VO0_4.writes (Elt F) VO0_4.junk (kernelRun0_A c i arg2 harg2 arg3 harg3 arg4 harg4 arg5 harg5 arg6 harg6 hc0 x0 x1 x2 x3).1)

end

section
variable (hc0 : ¬cond0_0 i) (x0 : Vec F S1x19x76x3x85 .f32) (x1 : Vec F S1x19x76x3x85 .f32) (x2 : Vec F S1x150x4 .f32) (x3 : Vec F S3x2 .f32) (xo4 : Vec F S1x1x128 .f32)

theorem cover0_B_4 (y : S1x1x128.Idx) : ∃ pc ∈ (kernelRun0_B c i arg2 harg2 arg3 harg3 arg4 harg4 arg5 harg5 arg6 harg6 hc0 x0 x1 x2 x3 xo4).1, y ∈ pc.1.set :=
  View.cover_of_tiledL _ S1x1x128.size (by sl_kernel_rfl) y

/-- What case B leaves there, from what it found (`xo4`). -/
def out0_B_4 : Vec F S1x1x128 .f32 :=
  VO0_4.read (Elt F) (VO0_4.writes (Elt F) VO0_4.junk (kernelRun0_B c i arg2 harg2 arg3 harg3 arg4 harg4 arg5 harg5 arg6 harg6 hc0 x0 x1 x2 x3 xo4).1)

end
end

section
variable (c : Dev nD) (t : Fin cfg0.N)

abbrev outA (h0 : t.val % 4 = 0) : Vec F S1x1x128 .f32 :=
  out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t)
abbrev outB (h0 : ¬t.val % 4 = 0) (xo : Vec F S1x1x128 .f32) : Vec F S1x1x128 .f32 :=
  out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) xo

/-- The output block after point `n`: afresh (case A) when `n % 4 = 0`, else continuing from point `n - 1` (case B). -/
def outsAt0 : (n : ℕ) → n < cfg0.N → Vec F S1x1x128 .f32
  | 0, hn => outA m c ⟨0, hn⟩ (Nat.zero_mod _)
  | n + 1, hn => if h0 : (n + 1) % 4 = 0 then outA m c ⟨n + 1, hn⟩ h0 else outB m c ⟨n + 1, hn⟩ h0 (outsAt0 n (Nat.lt_of_succ_lt hn))

theorem outsAt0_A (h0 : t.val % 4 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨_ | n, hn⟩ := t
  · rfl
  · exact (dif_pos h0).trans rfl

theorem outsAt0_B (h0 : ¬t.val % 4 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨_ | n, hn⟩ := t
  · exact absurd (Nat.zero_mod _) h0
  · exact (dif_neg h0).trans rfl

/-- The proof data on core `c`: after point `t` each input holds its block and the output `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.ΦA spec0 c
  q _ := fullShare
  owed _ := 0

theorem A_eq (w : Fin cfg0.W) : (dats m 0 c).A w = V m c (Pipeline.arrRef spec0 w) := rfl

theorem after0_4 : (dats m 0 c).after 4 t = (outsAt0 m c t.val t.isLt) := rfl

theorem before0_0 (d) : (dats m 0 c).before 0 t d = iblk m c 0 t :=
  (dats m 0 c).before_in_eq_fetched 0 rfl (fun _ => rfl) (fun _ _ _ => rfl) (fun _ => rfl) t d
theorem before0_1 (d) : (dats m 0 c).before 1 t d = iblk m c 1 t :=
  (dats m 0 c).before_in_eq_fetched 1 rfl (fun _ => rfl) (fun _ _ _ => rfl) (fun _ => rfl) t d
theorem before0_2 (d) : (dats m 0 c).before 2 t d = iblk m c 2 t :=
  (dats m 0 c).before_in_eq_fetched 2 rfl (fun _ => rfl) (fun _ _ _ => rfl) (fun _ => rfl) t d
theorem before0_3 (d) : (dats m 0 c).before 3 t d = iblk m c 3 t :=
  (dats m 0 c).before_in_eq_fetched 3 rfl (fun _ => rfl) (fun _ _ _ => rfl) (fun _ => rfl) t d

/-- `t % 4 ≠ 0` gives `(t - 1) % 4 ≠ 3`. -/
theorem before0_4_B (h0 : ¬t.val % 4 = 0) (d) :
    (dats m 0 c).before 4 t d = (outsAt0 m c (t.val - 1) (Nat.lt_of_le_of_lt (Nat.sub_le _ _) t.isLt)) := by
  rw [Dat.before_out_kept _ 4 rfl t (by omega) (Bool.eq_false_iff.mpr fun h => by have := (flush0_4 _).mp h; dsimp only at this; omega)
    (fun _ => rfl) (fun _ _ => rfl)]
  rfl

/-- `t % 4` says which case applies; the case's stores cover the output's block, so what they leave is their read-back. -/
theorem sound_body :
    iprop((dats m 0 c).Φ t.castSucc ∗ (dats m 0 c).owesAt () t.castSucc
      ∗ (∃ d, owns c.tc (ms0_0 t) fullShare ((dats m 0 c).before 0 t d))
      ∗ (∃ d, owns c.tc (ms0_1 t) fullShare ((dats m 0 c).before 1 t d))
      ∗ (∃ d, owns c.tc (ms0_2 t) fullShare ((dats m 0 c).before 2 t d))
      ∗ (∃ d, owns c.tc (ms0_3 t) fullShare ((dats m 0 c).before 3 t d))
      ∗ (∃ d, owns c.tc (ms0_4 t) fullShare ((dats m 0 c).before 4 t d)))
    ⊢ wp frame (wpE (defs₀ (F := F)) Variants.none c none) Set.univ (bodyAt0 t) fun _ =>
      iprop((dats m 0 c).Φ t.castSucc ∗ (dats m 0 c).owesAt () t.castSucc
        ∗ owns c.tc (ms0_0 t) fullShare (iblk m c 0 t)
        ∗ owns c.tc (ms0_1 t) fullShare (iblk m c 1 t)
        ∗ owns c.tc (ms0_2 t) fullShare (iblk m c 2 t)
        ∗ owns c.tc (ms0_3 t) fullShare (iblk m c 3 t)
        ∗ owns c.tc (ms0_4 t) fullShare (outsAt0 m c t.val t.isLt)) := by
  unfold bodyAt0
  simp only [before0_0, before0_1, before0_2, before0_3]
  iintro ⟨HΦ, Ho, ⟨%d0, H0⟩, ⟨%d1, H1⟩, ⟨%d2, H2⟩, ⟨%d3, H3⟩, ⟨%d4, H4⟩⟩
  by_cases h0 : t.val % 4 = 0
  on_goal 1 =>
    rw [outsAt0_A m c t h0]; unfold out0_A_4
    iapply ((kernelRun0_A (hc0 := (hcond0_0 t).mpr h0) ..).2 Set.univ _)
    iframe H0 H1 H2 H3
    isplitl [H4]; · iexists _; iexact H4
  on_goal 2 =>
    rw [outsAt0_B m c t h0]; rw [before0_4_B m c t h0]; unfold out0_B_4
    iapply ((kernelRun0_B (hc0 := fun h => h0 ((hcond0_0 t).mp h)) ..).2 Set.univ _)
    iframe H0 H1 H2 H3 H4
  all_goals
    iintro ⟨H0, H1, H2, H3, ⟨%e4, H4⟩⟩
    iframe HΦ Ho H0 H1 H2 H3
    unfold owns; iexists _; iframe H4; ipureintro
  · exact View.read_writes_of_cover _ _ _ _ _ fun _ => cover0_A_4 ..
  · exact View.read_writes_of_cover _ _ _ _ _ fun _ => cover0_B_4 ..

end

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The three arguments of @main end as launched: no host operation writes them and none is the output's array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m (dats m) c),
      ((h c).1 1).trans (((dats m 0 c).arrAt_in 1 rfl _).trans (V_main_arg1 m c)),
      ((h c).1 2).trans (((dats m 0 c).arrAt_in 2 rfl _).trans (V_main_arg2 m c))⟩) (run_main m ρ)

end Cert.Kernel.HF

end
-- ==== Proof.KI.FrameKit.lean ====
import proofs.«103457_j67783173865496_1_alg».proof.Proof.Gen.KernelIdeal.Launch
import proofs.«103457_j67783173865496_1_alg».proof.Proof.Gen.KernelIdeal.Skeleton
import proofs.«103457_j67783173865496_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.HF

open Cert.KernelIdeal.Gen
open Idealize.ShloMosaic Idealize.ShloMosaic.TcCoe
open Idealize.ShloMosaic.Pipeline (Dat)

variable {F : FTy → Type} [FloatOps F]

variable (m : (ℓ : Loc nD τ sig) → Buf (Elt F) ℓ) (c : Dev nD)

abbrev V0 : Valuation τ sig (Elt F) := StableHlo.after (List.flatten [hostOps0]) (fun b => m (c, b))
abbrev V (b : Ref sig .tc) : Buf (Elt F) ((c : Thread nD τ).loc b) := V0 m c (Proc.devRef .tc b)

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] hostOps0_sub (And.intro rfl rfl) main_chain

theorem sfx_sub : ∀ ops ∈ [hostOps1 (F := F)], ∀ op ∈ ops,
    op.bufs ⊆ Pipeline.tailRefs sig Pipeline.Prefetch.none spec0 := by
  rw [Pipeline.tailRefs_none spec0 launch0.win.arr_unscoped]
  exact List.forall_mem_singleton.2 fun op hop => Pipeline.sub_ucRefs op (List.forall_iff_forall_mem.1 hostOps1_sub op hop)

theorem sfx_fresh : ∀ ops ∈ [hostOps1 (F := F)], ∀ op ∈ ops, op.fresh = ∅ :=
  List.forall_mem_singleton.2 (List.forall_iff_forall_mem.1 (by simp only [List.Forall]; repeat' constructor))

/-- Each later operation writes its one result, and no result is a window's array. -/
theorem sfx_keeps : ∀ ops ∈ [hostOps1 (F := F)], ∀ op ∈ ops,
    ∀ w, Proc.devRef .tc (Pipeline.arrRef spec0 w) ∉ op.writes :=
  List.forall_mem_singleton.2 fun op hop w => by
    fin_cases hop <;> exact Finset.notMem_singleton.2 (StableHlo.devRef_ne_of_ne (by revert w; decide))

/-- The two leading operations write `main_cst` and `main_v0`: any other buffer is as launched. -/
theorem V_of_ne {b : Ref sig .tc} (h0 : b ≠ main_cst) (h1 : b ≠ main_v0) : V m c b = m ((c : Thread nD τ).loc b) :=
  StableHlo.after_of_forall_not_mem (b := Proc.devRef .tc b) _ _ (List.forall_iff_forall_mem.1
    (And.intro (Finset.notMem_singleton.2 (StableHlo.devRef_ne_of_ne h0)) (Finset.notMem_singleton.2 (StableHlo.devRef_ne_of_ne h1))))
theorem V_main_arg1 : V m c main_arg1 = m ((c : Thread nD τ).loc main_arg1) := V_of_ne m c (by decide) (by decide)
theorem V_main_arg2 : V m c main_arg2 = m ((c : Thread nD τ).loc main_arg2) := V_of_ne m c (by decide) (by decide)

/-- The first argument is no window's array and no result of a later operation. -/
theorem W_main_arg0 (dats : (p : Fin 1) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ fun op hop => by
      fin_cases hop <;> exact Finset.notMem_singleton.2 (StableHlo.devRef_ne_of_ne (by decide)),
    Pipeline.withArrays_of_ne _ c (V0 m c) _ main_arg0 (by decide)]
  exact V_of_ne m c (by decide) (by decide)

def iblk (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev cond0_0 (i : grid0.Coords) : Prop := (Scalar.cmpi .ne (Scalar.extui (Scalar.cmpi .eq (BitVec.ofNat 32 (i 1).val) 0#32)) 0#32) = 1#1
/-- Point `t` has coordinates `(t / 4, t % 4)`. -/
theorem hcond0_0 : ∀ t : Fin cfg0.N, cond0_0 (grid0.coords t) ↔ t.val % 4 = 0 := by decide +kernel

abbrev VO0_4 : View sig .tc .vmem S1x1x128 .f32 := (Memref.whole cc0_stg4_0 : Memref sig .tc .vmem S1x1x128 .f32).view
abbrev ms0_0 (t : Fin cfg0.N) : Memref sig .tc .vmem S1x19x76x3x85 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x19x76x3x85 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x150x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x2 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x128 .f32 := win0_4.stage (cfg0.slots t 4)
abbrev hs0_4 (t : Fin cfg0.N) : (ms0_4 t).IsWhole := hstage0_4 ((cfg0.slots t 4).cast nbuf0_4)

end Cert.KernelIdeal.HF

end
-- ==== Proof.KI.RunA.lean ====
import proofs.«103457_j67783173865496_1_alg».proof.Proof.KI.FrameKit

noncomputable section

namespace Cert.KernelIdeal.HF

open Cert.KernelIdeal.Gen
open Idealize.ShloMosaic Idealize.ShloMosaic.TcCoe
open Idealize.SL Idealize.SL.RA Idealize.SL.BI Idealize.SL.BI.BIBase Idealize.SL.Sem

variable {F : FTy → Type} [FloatOps F]

def kernelRun0_A (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole) (hc0 : cond0_0 i)
    (x0 : Vec F S1x19x76x3x85 .f32) (x1 : Vec F S1x19x76x3x85 .f32) (x2 : Vec F S1x150x4 .f32) (x3 : Vec F S3x2 .f32) :
    { L4 : List (View.Piece (Elt F) S1x1x128 .f32) //
      ∀ (E : Set ℕ) (K : PUnit → sProp (MT nD τ sig Unit (Elt F) ℕ (UR sig nD τ) ℕ)),
        iprop(owns c.tc arg2 fullShare x0 ∗ owns c.tc arg3 fullShare x1 ∗ owns c.tc arg4 fullShare x2 ∗ owns c.tc arg5 fullShare x3 ∗ (∃ d, owns c.tc arg6 fullShare d)
            ∗ (iprop(owns c.tc arg2 fullShare x0 ∗ owns c.tc arg3 fullShare x1 ∗ owns c.tc arg4 fullShare x2 ∗ owns c.tc arg5 fullShare x3 ∗ (∃ f, arg6.view.loc c.tc ↦[arg6.view.set]{fullShare} arg6.view.writes (Elt F) f L4)) -∗ K ⟨⟩))
          ⊢ wp frame (wpE (defs₀ (F := F)) Variants.none c none) E (cc0__yolo_kernel i arg2 harg2 arg3 harg3 arg4 harg4 arg5 harg5 arg6 harg6) K } := by
  refine ⟨?_, fun E K => ?run⟩
  case run =>
    simp only [cc0__yolo_kernel_eq_skeleton]; unfold cc0__yolo_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]; · iexists _; iframe H0; ipureintro; exact harg2.read_unread _
    isplitl [H1]; · iexists _; iframe H1; ipureintro; exact harg3.read_unread _
    isplitl [H2]; · iexists _; iframe H2; ipureintro; exact harg4.read_unread _
    isplitl [H3]; · iexists _; iframe H3; ipureintro; exact harg5.read_unread _
    iexists _; iexact H4

end Cert.KernelIdeal.HF

end
-- ==== Proof.KI.RunB.lean ====
import proofs.«103457_j67783173865496_1_alg».proof.Proof.KI.RunA

noncomputable section

namespace Cert.KernelIdeal.HF

open Cert.KernelIdeal.Gen
open Idealize.ShloMosaic Idealize.ShloMosaic.TcCoe
open Idealize.SL Idealize.SL.RA Idealize.SL.BI Idealize.SL.BI.BIBase Idealize.SL.Sem

variable {F : FTy → Type} [FloatOps F]

def kernelRun0_B (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole) (hc0 : ¬cond0_0 i)
    (x0 : Vec F S1x19x76x3x85 .f32) (x1 : Vec F S1x19x76x3x85 .f32) (x2 : Vec F S1x150x4 .f32) (x3 : Vec F S3x2 .f32) (xo4 : Vec F S1x1x128 .f32) :
    { L4 : List (View.Piece (Elt F) S1x1x128 .f32) //
      ∀ (E : Set ℕ) (K : PUnit → sProp (MT nD τ sig Unit (Elt F) ℕ (UR sig nD τ) ℕ)),
        iprop(owns c.tc arg2 fullShare x0 ∗ owns c.tc arg3 fullShare x1 ∗ owns c.tc arg4 fullShare x2 ∗ owns c.tc arg5 fullShare x3 ∗ owns c.tc arg6 fullShare xo4
            ∗ (iprop(owns c.tc arg2 fullShare x0 ∗ owns c.tc arg3 fullShare x1 ∗ owns c.tc arg4 fullShare x2 ∗ owns c.tc arg5 fullShare x3 ∗ (∃ f, arg6.view.loc c.tc ↦[arg6.view.set]{fullShare} arg6.view.writes (Elt F) f L4)) -∗ K ⟨⟩))
          ⊢ wp frame (wpE (defs₀ (F := F)) Variants.none c none) E (cc0__yolo_kernel i arg2 harg2 arg3 harg3 arg4 harg4 arg5 harg5 arg6 harg6) K } := by
  refine ⟨?_, fun E K => ?run⟩
  case run =>
    simp only [cc0__yolo_kernel_eq_skeleton]; unfold cc0__yolo_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]; · iexists _; iframe H0; ipureintro; exact harg2.read_unread _
    isplitl [H1]; · iexists _; iframe H1; ipureintro; exact harg3.read_unread _
    isplitl [H2]; · iexists _; iframe H2; ipureintro; exact harg4.read_unread _
    isplitl [H3]; · iexists _; iframe H3; ipureintro; exact harg5.read_unread _
    iexists _; iexact H4

end Cert.KernelIdeal.HF

end
-- ==== Proof.KI.Frame.lean ====
import proofs.«103457_j67783173865496_1_alg».proof.Proof.KI.RunB

noncomputable section

namespace Cert.KernelIdeal.HF

open Cert.KernelIdeal.Gen
open Idealize.ShloMosaic Idealize.ShloMosaic.TcCoe
open Idealize.SL Idealize.SL.RA Idealize.SL.BI Idealize.SL.BI.BIBase Idealize.SL.Sem
open Idealize.ShloMosaic.Pipeline (Dat BodyObligation)

variable {F : FTy → Type} [FloatOps F]

variable (m : (ℓ : Loc nD τ sig) → Buf (Elt F) ℓ) (ρ : Dev nD → PrngReg)

section
variable (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole)

section
variable (hc0 : cond0_0 i) (x0 : Vec F S1x19x76x3x85 .f32) (x1 : Vec F S1x19x76x3x85 .f32) (x2 : Vec F S1x150x4 .f32) (x3 : Vec F S3x2 .f32)

/-- Case A's stores tile the output's block. -/
theorem cover0_A_4 (y : S1x1x128.Idx) : ∃ pc ∈ (kernelRun0_A c i arg2 harg2 arg3 harg3 arg4 harg4 arg5 harg5 arg6 harg6 hc0 x0 x1 x2 x3).1, y ∈ pc.1.set :=
  View.cover_of_tiledL _ S1x1x128.size (by sl_kernel_rfl) y

/-- What case A leaves in the output's block: its stores read back. -/
def out0_A_4 : Vec F S1x1x128 .f32 :=
  VO0_4.read (Elt F) (VO0_4.writes (Elt F) VO0_4.junk (kernelRun0_A c i arg2 harg2 arg3 harg3 arg4 harg4 arg5 harg5 arg6 harg6 hc0 x0 x1 x2 x3).1)

end

section
variable (hc0 : ¬cond0_0 i) (x0 : Vec F S1x19x76x3x85 .f32) (x1 : Vec F S1x19x76x3x85 .f32) (x2 : Vec F S1x150x4 .f32) (x3 : Vec F S3x2 .f32) (xo4 : Vec F S1x1x128 .f32)

theorem cover0_B_4 (y : S1x1x128.Idx) : ∃ pc ∈ (kernelRun0_B c i arg2 harg2 arg3 harg3 arg4 harg4 arg5 harg5 arg6 harg6 hc0 x0 x1 x2 x3 xo4).1, y ∈ pc.1.set :=
  View.cover_of_tiledL _ S1x1x128.size (by sl_kernel_rfl) y

/-- What case B leaves there, from what it found (`xo4`). -/
def out0_B_4 : Vec F S1x1x128 .f32 :=
  VO0_4.read (Elt F) (VO0_4.writes (Elt F) VO0_4.junk (kernelRun0_B c i arg2 harg2 arg3 harg3 arg4 harg4 arg5 harg5 arg6 harg6 hc0 x0 x1 x2 x3 xo4).1)

end
end

section
variable (c : Dev nD) (t : Fin cfg0.N)

abbrev outA (h0 : t.val % 4 = 0) : Vec F S1x1x128 .f32 :=
  out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t)
abbrev outB (h0 : ¬t.val % 4 = 0) (xo : Vec F S1x1x128 .f32) : Vec F S1x1x128 .f32 :=
  out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) xo

/-- The output block after point `n`: afresh (case A) when `n % 4 = 0`, else continuing from point `n - 1` (case B). -/
def outsAt0 : (n : ℕ) → n < cfg0.N → Vec F S1x1x128 .f32
  | 0, hn => outA m c ⟨0, hn⟩ (Nat.zero_mod _)
  | n + 1, hn => if h0 : (n + 1) % 4 = 0 then outA m c ⟨n + 1, hn⟩ h0 else outB m c ⟨n + 1, hn⟩ h0 (outsAt0 n (Nat.lt_of_succ_lt hn))

theorem outsAt0_A (h0 : t.val % 4 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨_ | n, hn⟩ := t
  · rfl
  · exact (dif_pos h0).trans rfl

theorem outsAt0_B (h0 : ¬t.val % 4 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨_ | n, hn⟩ := t
  · exact absurd (Nat.zero_mod _) h0
  · exact (dif_neg h0).trans rfl

/-- The proof data on core `c`: after point `t` each input holds its block and the output `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.ΦA spec0 c
  q _ := fullShare
  owed _ := 0

theorem A_eq (w : Fin cfg0.W) : (dats m 0 c).A w = V m c (Pipeline.arrRef spec0 w) := rfl

theorem after0_4 : (dats m 0 c).after 4 t = (outsAt0 m c t.val t.isLt) := rfl

theorem before0_0 (d) : (dats m 0 c).before 0 t d = iblk m c 0 t :=
  (dats m 0 c).before_in_eq_fetched 0 rfl (fun _ => rfl) (fun _ _ _ => rfl) (fun _ => rfl) t d
theorem before0_1 (d) : (dats m 0 c).before 1 t d = iblk m c 1 t :=
  (dats m 0 c).before_in_eq_fetched 1 rfl (fun _ => rfl) (fun _ _ _ => rfl) (fun _ => rfl) t d
theorem before0_2 (d) : (dats m 0 c).before 2 t d = iblk m c 2 t :=
  (dats m 0 c).before_in_eq_fetched 2 rfl (fun _ => rfl) (fun _ _ _ => rfl) (fun _ => rfl) t d
theorem before0_3 (d) : (dats m 0 c).before 3 t d = iblk m c 3 t :=
  (dats m 0 c).before_in_eq_fetched 3 rfl (fun _ => rfl) (fun _ _ _ => rfl) (fun _ => rfl) t d

/-- `t % 4 ≠ 0` gives `(t - 1) % 4 ≠ 3`. -/
theorem before0_4_B (h0 : ¬t.val % 4 = 0) (d) :
    (dats m 0 c).before 4 t d = (outsAt0 m c (t.val - 1) (Nat.lt_of_le_of_lt (Nat.sub_le _ _) t.isLt)) := by
  rw [Dat.before_out_kept _ 4 rfl t (by omega) (Bool.eq_false_iff.mpr fun h => by have := (flush0_4 _).mp h; dsimp only at this; omega)
    (fun _ => rfl) (fun _ _ => rfl)]
  rfl

/-- `t % 4` says which case applies; the case's stores cover the output's block, so what they leave is their read-back. -/
theorem sound_body :
    iprop((dats m 0 c).Φ t.castSucc ∗ (dats m 0 c).owesAt () t.castSucc
      ∗ (∃ d, owns c.tc (ms0_0 t) fullShare ((dats m 0 c).before 0 t d))
      ∗ (∃ d, owns c.tc (ms0_1 t) fullShare ((dats m 0 c).before 1 t d))
      ∗ (∃ d, owns c.tc (ms0_2 t) fullShare ((dats m 0 c).before 2 t d))
      ∗ (∃ d, owns c.tc (ms0_3 t) fullShare ((dats m 0 c).before 3 t d))
      ∗ (∃ d, owns c.tc (ms0_4 t) fullShare ((dats m 0 c).before 4 t d)))
    ⊢ wp frame (wpE (defs₀ (F := F)) Variants.none c none) Set.univ (bodyAt0 t) fun _ =>
      iprop((dats m 0 c).Φ t.castSucc ∗ (dats m 0 c).owesAt () t.castSucc
        ∗ owns c.tc (ms0_0 t) fullShare (iblk m c 0 t)
        ∗ owns c.tc (ms0_1 t) fullShare (iblk m c 1 t)
        ∗ owns c.tc (ms0_2 t) fullShare (iblk m c 2 t)
        ∗ owns c.tc (ms0_3 t) fullShare (iblk m c 3 t)
        ∗ owns c.tc (ms0_4 t) fullShare (outsAt0 m c t.val t.isLt)) := by
  unfold bodyAt0
  simp only [before0_0, before0_1, before0_2, before0_3]
  iintro ⟨HΦ, Ho, ⟨%d0, H0⟩, ⟨%d1, H1⟩, ⟨%d2, H2⟩, ⟨%d3, H3⟩, ⟨%d4, H4⟩⟩
  by_cases h0 : t.val % 4 = 0
  on_goal 1 =>
    rw [outsAt0_A m c t h0]; unfold out0_A_4
    iapply ((kernelRun0_A (hc0 := (hcond0_0 t).mpr h0) ..).2 Set.univ _)
    iframe H0 H1 H2 H3
    isplitl [H4]; · iexists _; iexact H4
  on_goal 2 =>
    rw [outsAt0_B m c t h0]; rw [before0_4_B m c t h0]; unfold out0_B_4
    iapply ((kernelRun0_B (hc0 := fun h => h0 ((hcond0_0 t).mp h)) ..).2 Set.univ _)
    iframe H0 H1 H2 H3 H4
  all_goals
    iintro ⟨H0, H1, H2, H3, ⟨%e4, H4⟩⟩
    iframe HΦ Ho H0 H1 H2 H3
    unfold owns; iexists _; iframe H4; ipureintro
  · exact View.read_writes_of_cover _ _ _ _ _ fun _ => cover0_A_4 ..
  · exact View.read_writes_of_cover _ _ _ _ _ fun _ => cover0_B_4 ..

end

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The three arguments of @main end as launched: no host operation writes them and none is the output's array. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (W_main_arg0 m (dats m) c),
      ((h c).1 1).trans (((dats m 0 c).arrAt_in 1 rfl _).trans (V_main_arg1 m c)),
      ((h c).1 2).trans (((dats m 0 c).arrAt_in 2 rfl _).trans (V_main_arg2 m c))⟩) (run_main m ρ)

end Cert.KernelIdeal.HF

end
-- ==== Proof.LibNary3.lean ====
import Idealize.ShloMosaic.Lib.StableHlo.Run

namespace Cert.LibNary3

open Idealize.ShloMosaic Idealize.ShloMosaic.StableHlo

variable {τ : Topo} {sig : RefSig} {Val : EltTy → Type} {x a b y : Ref sig .tc}

/-- After an operation on three literal references the result holds the function of the three operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3
-- ==== Proof.KI.ValTail.lean ====
import proofs.«103457_j67783173865496_1_alg».proof.Proof.KI.FrameKit
import proofs.«103457_j67783173865496_1_alg».proof.Proof.LibNary3
import Idealize.ShloMosaic.Lib.Pipeline.Value
import Idealize.ShloMosaic.Lib.StableHlo.Run
import Idealize.ShloMosaic.Lib.IdealHost
import Idealize.ShloMosaic.Lib.ValueIdx
import Idealize.ShloMosaic.Lib.ValueIdxRank1

set_option maxRecDepth 16384

noncomputable section

namespace Cert.KernelIdeal.HV

open Cert.KernelIdeal Cert.KernelIdeal.Gen
open Idealize.ShloMosaic Idealize.ShloMosaic.TcCoe Idealize.ShloMosaic.ValueIdx
open Idealize.SL.Sem
open scoped BigOperators

variable {F : FTy → Type} [FloatOps F]

-- One lane over the sixteen images: summed from zero and divided by sixteen, as a one-entry vector.
def laneMean (X : Vec F S16x1x128 .f32) (off : Fin 3 → Nat) (h : S16x1x128.Slices off S16x1x1) : Vec F S1 .f32 :=
  broadcastInDim S1 ![] bcast_S_S1
    (Host.divf
      (Host.reduceAdd (shapeCast S16 (extractStridedSlice S16x1x1 off X h) shapeCasts_S16x1x1_S16)
        (constant (F := F) S_ .f32 0x00000000#32) reducesTo_S16_S_d0 h_S_)
      (constant (F := F) S_ .f32 0x41800000#32))

-- The three lane means side by side.
def tail (X : Vec F S16x1x128 .f32) : Vec F S3 .f32 :=
  concatenate S3 0
    [⟨S1, laneMean X ![0, 0, 0] slices_S16x1x128_S16x1x1_0_0_0⟩,
     ⟨S1, laneMean X ![0, 0, 1] slices_S16x1x128_S16x1x1_0_0_1⟩,
     ⟨S1, laneMean X ![0, 0, 2] slices_S16x1x128_S16x1x1_0_0_2⟩]
    concatenates_S1_S1_S1_S3_d0

set_option maxHeartbeats 1600000 in
theorem after_hostOps1 (W : Valuation τ sig (Elt F)) :
    StableHlo.after (hostOps1 (F := F)) W (Proc.devRef .tc main_v17) = tail (W (Proc.devRef .tc main_v1)) := by
  simp only [StableHlo.after_cons, StableHlo.after_nil]
  rw [Cert.LibNary3.nary3_result]
  repeat (first
    | rw [StableHlo.nullary_result] | rw [StableHlo.unary_result] | rw [StableHlo.binary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide))
  rfl

theorem laneMean_apply (X : Vec Ideal S16x1x128 .f32) (off : Fin 3 → Nat) (h : S16x1x128.Slices off S16x1x1)
    (l : Fin 128) (hoff : off = ![0, 0, l.val]) (j : S1.Idx) :
    laneMean (F := Ideal) X off h j
      = Ideal.div (0 + ∑ b : Fin 16, X (ix3 b (0 : Fin 1) l)) (Ideal.ofBits .f32 0x41800000#32) := by
  subst hoff
  unfold laneMean
  refine (broadcastInDim_scalar_apply bcast_S_S1 _ j).trans ?_
  refine (hostDivf_apply _ _ ix0).trans ?_
  refine congrArg₂ Ideal.div ?_ rfl
  refine (hostReduceAdd_apply _ _ reducesTo_S16_S_d0 h_S_ ix0).trans ?_
  refine (Ideal.hostReduceAdd_total reducesTo_S16_S_d0 (fun b => b.elim0) _ _ ix0).trans ?_
  refine congrArg₂ (· + ·) Ideal.ofBits_zero_f32 ?_
  refine (Equiv.sum_comp (idxEquiv1 (n := 16)).symm _).symm.trans ?_
  refine Finset.sum_congr rfl fun b _ => ?_
  show shapeCast S16 (extractStridedSlice S16x1x1 _ X h) shapeCasts_S16x1x1_S16 (ix1 b) = _
  refine (shapeCast_apply _ shapeCasts_S16x1x1_S16 (ix1 b) (ix3 b (0 : Fin 1) (0 : Fin 1)) ?_).trans ?_
  · rw [Shape.rowMajor_val_three, Shape.rowMajor_val_one]
    show (b.val * 1 + 0) * 1 + 0 = b.val
    omega
  refine extractStridedSlice_apply _ X h _ (ix3 b (0 : Fin 1) l) fun a => ?_
  match a with
  | ⟨0, _⟩ => exact (Nat.zero_add _).symm
  | ⟨1, _⟩ => rfl
  | ⟨2, _⟩ => rfl

-- Three one-entry pieces side by side: entry k of the whole is the entry of piece k.
theorem concat3_apply {α : Type} (f0 f1 f2 : S1.Idx → α)
    (h : Shape.Concatenates (([⟨S1, f0⟩, ⟨S1, f1⟩, ⟨S1, f2⟩] : List ((s : Shape) × (s.Idx → α))).map (·.1)) S3 0) (k : Fin 3) :
    concatenate S3 0 [⟨S1, f0⟩, ⟨S1, f1⟩, ⟨S1, f2⟩] h (ix1 k) = ![f0, f1, f2] k (ix1 (0 : Fin 1)) := by
  refine concatenate_apply_piece (0 : Fin S3.rank) _ h (ix1 k) k.val k.isLt S1 _ ?_ rfl k.val ?_ (ix1 (0 : Fin 1))
    (fun b hb => absurd (Fin.ext (by have : b.val < 1 := b.isLt; show b.val = 0; omega)) hb) rfl <;> fin_cases k <;> rfl

-- Entry k of the tail is the mean over the images of lane k.
theorem tail_apply (X : Vec Ideal S16x1x128 .f32) (k : Fin 3) :
    tail (F := Ideal) X (ix1 k)
      = Ideal.div (0 + ∑ b : Fin 16, X (ix3 b (0 : Fin 1) (⟨k.val, by omega⟩ : Fin 128))) (Ideal.ofBits .f32 0x41800000#32) := by
  unfold tail
  refine (concat3_apply _ _ _ _ k).trans ?_
  match k with
  | ⟨0, _⟩ => exact laneMean_apply X _ _ (0 : Fin 128) rfl _
  | ⟨1, _⟩ => exact laneMean_apply X _ _ (1 : Fin 128) rfl _
  | ⟨2, _⟩ => exact laneMean_apply X _ _ (2 : Fin 128) rfl _

end Cert.KernelIdeal.HV

end
-- ==== Proof.Spec.lean ====
import Idealize.ShloMosaic.PureOps.Ideal
import Idealize.ShloMosaic.Lib.ValueIdx

noncomputable section

open scoped BigOperators
open Classical

namespace Cert.Yolo

open Idealize.ShloMosaic

abbrev lit (w : BitVec 32) : EReal := Ideal.ofBits .f32 w

def half : EReal := lit 0x3F000000#32

def lo (c s : EReal) : EReal := c - s * half
def hi (c s : EReal) : EReal := c + s * half

def ovl (alo ahi blo bhi : EReal) : EReal := max (min ahi bhi - max alo blo) 0

def hull (alo ahi blo bhi : EReal) : EReal := max (max ahi bhi - min alo blo) 0

def inter (x1 y1 w1 h1 x2 y2 w2 h2 : EReal) : EReal :=
  ovl (lo x1 w1) (hi x1 w1) (lo x2 w2) (hi x2 w2) * ovl (lo y1 h1) (hi y1 h1) (lo y2 h2) (hi y2 h2)

def union (x1 y1 w1 h1 x2 y2 w2 h2 : EReal) : EReal := w1 * h1 + w2 * h2 - inter x1 y1 w1 h1 x2 y2 w2 h2

def iou (x1 y1 w1 h1 x2 y2 w2 h2 : EReal) : EReal :=
  Ideal.div (inter x1 y1 w1 h1 x2 y2 w2 h2) (union x1 y1 w1 h1 x2 y2 w2 h2)

def encl (x1 y1 w1 h1 x2 y2 w2 h2 : EReal) : EReal :=
  hull (lo x1 w1) (hi x1 w1) (lo x2 w2) (hi x2 w2) * hull (lo y1 h1) (hi y1 h1) (lo y2 h2) (hi y2 h2)

def giou (x1 y1 w1 h1 x2 y2 w2 h2 : EReal) : EReal :=
  iou x1 y1 w1 h1 x2 y2 w2 h2
    - Ideal.div (encl x1 y1 w1 h1 x2 y2 w2 h2 - union x1 y1 w1 h1 x2 y2 w2 h2) (encl x1 y1 w1 h1 x2 y2 w2 h2)

def bce (x l : EReal) : EReal := max x 0 - x * l + Ideal.log1p (Ideal.exp (-(max x (-x))))

def decodeC (d g : EReal) : EReal :=
  (Ideal.logistic d * lit 0x3F99999A#32 - lit 0x3DCCCCCD#32 + g) * lit 0x41000000#32

def decodeS (d a : EReal) : EReal := Ideal.exp d * a

def anchor (a : Fin 3) (d : Fin 2) : EReal :=
  lit (![![0x41400000#32, 0x41800000#32], ![0x41980000#32, 0x42100000#32], ![0x42200000#32, 0x41E00000#32]] a d)

def gridR (n : ℕ) : EReal := ((n : ℝ) : EReal)

def ind (p : Prop) : EReal := if p then 1 else 0

section Cell

variable (cvc lbc : Fin 85 → EReal) (bxb : Fin 150 → Fin 4 → EReal) (gi gj : ℕ) (a : Fin 3)

def pX : EReal := decodeC (cvc 0) (gridR gj)
def pY : EReal := decodeC (cvc 1) (gridR gi)
def pW : EReal := decodeS (cvc 2) (anchor a 0)
def pH : EReal := decodeS (cvc 3) (anchor a 1)

def giouCell : EReal :=
  lbc 4 * (lit 0x40000000#32 - Ideal.div (lbc 2 * lbc 3) (lit 0x48B48000#32))
    * (lit 0x3F800000#32 - giou (pX cvc gj) (pY cvc gi) (pW cvc a) (pH cvc a) (lbc 0) (lbc 1) (lbc 2) (lbc 3))

def maxIouCell : EReal :=
  (Finset.univ : Finset (Fin 150)).fold max (lit 0xFF800000#32) fun n =>
    iou (pX cvc gj) (pY cvc gi) (pW cvc a) (pH cvc a) (bxb n 0) (bxb n 1) (bxb n 2) (bxb n 3)

def bgdCell : EReal := (lit 0x3F800000#32 - lbc 4) * ind (maxIouCell cvc bxb gi gj a < half)

def focalCell : EReal := (lbc 4 - Ideal.logistic (cvc 4)) * (lbc 4 - Ideal.logistic (cvc 4))

def confKCell : EReal := focalCell cvc lbc * bce (cvc 4) (lbc 4) * (lbc 4 + bgdCell cvc lbc bxb gi gj a)

def confRCell : EReal :=
  focalCell cvc lbc * (lbc 4 * bce (cvc 4) (lbc 4) + bgdCell cvc lbc bxb gi gj a * bce (cvc 4) (lbc 4))

def probCell (c : Fin 80) : EReal := lbc 4 * bce (cvc ⟨5 + c.val, by omega⟩) (lbc ⟨5 + c.val, by omega⟩)

end Cell

section Terms

variable (cv lb : Fin 16 → Fin 76 → Fin 76 → Fin 3 → Fin 85 → EReal) (bx : Fin 16 → Fin 150 → Fin 4 → EReal)

def giouT (b : Fin 16) (i j : Fin 76) (a : Fin 3) : EReal := giouCell (cv b i j a) (lb b i j a) i.val j.val a
def confK (b : Fin 16) (i j : Fin 76) (a : Fin 3) : EReal := confKCell (cv b i j a) (lb b i j a) (bx b) i.val j.val a
def confR (b : Fin 16) (i j : Fin 76) (a : Fin 3) : EReal := confRCell (cv b i j a) (lb b i j a) (bx b) i.val j.val a
def probT (b : Fin 16) (i j : Fin 76) (a : Fin 3) (c : Fin 80) : EReal := probCell (cv b i j a) (lb b i j a) c

def rowOf (r : Fin 4) (p : Fin 19) : Fin 76 := ⟨19 * r.val + p.val, by omega⟩

def mean16 (s : EReal) : EReal := Ideal.div s (lit 0x41800000#32)

def KG : Fin 3 → EReal
  | 0 => mean16 (∑ b : Fin 16, ∑ r : Fin 4, ∑ p : Fin 19, ∑ q : Fin 76, ∑ a : Fin 3, giouT cv lb b (rowOf r p) q a)
  | 1 => mean16 (∑ b : Fin 16, ∑ r : Fin 4, ∑ p : Fin 19, ∑ q : Fin 76, ∑ a : Fin 3, confK cv lb bx b (rowOf r p) q a)
  | 2 => mean16 (∑ b : Fin 16, ∑ r : Fin 4, ∑ p : Fin 19, ∑ q : Fin 76, ∑ a : Fin 3, ∑ c : Fin 80,
      probT cv lb b (rowOf r p) q a c)

def RG : Fin 3 → EReal
  | 0 => mean16 (∑ b : Fin 16, ∑ i : Fin 76, ∑ j : Fin 76, ∑ a : Fin 3, giouT cv lb b i j a)
  | 1 => mean16 (∑ b : Fin 16, ∑ i : Fin 76, ∑ j : Fin 76, ∑ a : Fin 3, confR cv lb bx b i j a)
  | 2 => mean16 (∑ b : Fin 16, ∑ i : Fin 76, ∑ j : Fin 76, ∑ a : Fin 3, ∑ c : Fin 80, probT cv lb b i j a c)

end Terms

def arr5 (x : (⟨5, ![16, 76, 76, 3, 85]⟩ : Shape).Idx → EReal) : Fin 16 → Fin 76 → Fin 76 → Fin 3 → Fin 85 → EReal :=
  fun b i j a k => x (ValueIdx.ix5 b i j a k)

def arr3 (x : (⟨3, ![16, 150, 4]⟩ : Shape).Idx → EReal) : Fin 16 → Fin 150 → Fin 4 → EReal :=
  fun b n d => x (ValueIdx.ix3 b n d)

def conv5 (x : (⟨4, ![16, 76, 76, 255]⟩ : Shape).Idx → EReal) : Fin 16 → Fin 76 → Fin 76 → Fin 3 → Fin 85 → EReal :=
  fun b i j a k => x (ValueIdx.ix4 b i j ⟨85 * a.val + k.val, by omega⟩)

def kOut (a0 : (⟨4, ![16, 76, 76, 255]⟩ : Shape).Idx → EReal) (a1 : (⟨5, ![16, 76, 76, 3, 85]⟩ : Shape).Idx → EReal)
    (a2 : (⟨3, ![16, 150, 4]⟩ : Shape).Idx → EReal) : (⟨1, ![3]⟩ : Shape).Idx → EReal :=
  fun i => KG (conv5 a0) (arr5 a1) (arr3 a2) (i 0)

def rOut (a0 : (⟨4, ![16, 76, 76, 255]⟩ : Shape).Idx → EReal) (a1 : (⟨5, ![16, 76, 76, 3, 85]⟩ : Shape).Idx → EReal)
    (a2 : (⟨3, ![16, 150, 4]⟩ : Shape).Idx → EReal) : (⟨1, ![3]⟩ : Shape).Idx → EReal :=
  fun i => RG (conv5 a0) (arr5 a1) (arr3 a2) (i 0)

def laneTotal (a0 : (⟨4, ![16, 76, 76, 255]⟩ : Shape).Idx → EReal) (a1 : (⟨5, ![16, 76, 76, 3, 85]⟩ : Shape).Idx → EReal)
    (a2 : (⟨3, ![16, 150, 4]⟩ : Shape).Idx → EReal) (b : Fin 16) (l : Fin 128) : EReal :=
  if l.val = 0 then ∑ r : Fin 4, ∑ p : Fin 19, ∑ q : Fin 76, ∑ a : Fin 3, giouT (conv5 a0) (arr5 a1) b (rowOf r p) q a
  else if l.val = 1 then
    ∑ r : Fin 4, ∑ p : Fin 19, ∑ q : Fin 76, ∑ a : Fin 3, confK (conv5 a0) (arr5 a1) (arr3 a2) b (rowOf r p) q a
  else if l.val = 2 then
    ∑ r : Fin 4, ∑ p : Fin 19, ∑ q : Fin 76, ∑ a : Fin 3, ∑ c : Fin 80, probT (conv5 a0) (arr5 a1) b (rowOf r p) q a c
  else 0

end Cert.Yolo

end
-- ==== Proof.KI.ValArr.lean ====
import proofs.«103457_j67783173865496_1_alg».proof.Proof.KI.Frame
import proofs.«103457_j67783173865496_1_alg».proof.Proof.KI.ValTail
import proofs.«103457_j67783173865496_1_alg».proof.Proof.Spec

noncomputable section

namespace Cert.KernelIdeal.HV

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

abbrev arg0 (c : Dev nD) : S16x76x76x255.Idx → EReal := m ((c.tc : Thread nD τ).loc main_arg0)
abbrev arg1 (c : Dev nD) : S16x76x76x3x85.Idx → EReal := m ((c.tc : Thread nD τ).loc main_arg1)
abbrev arg2 (c : Dev nD) : S16x150x4.Idx → EReal := m ((c.tc : Thread nD τ).loc main_arg2)

abbrev outArr (c : Dev nD) : Vec Ideal S16x1x128 .f32 :=
  fun i => Cert.Yolo.laneTotal (arg0 m c) (arg1 m c) (arg2 m c) (i 0) (i 2)

-- After an image's fourth band, lane l of the accumulated row is the image's lane total.
def LastOK (c : Dev nD) : Prop :=
  ∀ (b : Fin 16) (l : Fin 128) (h : 4 * b.val + 3 < cfg0.N),
    HF.outsAt0 m c (4 * b.val + 3) h (ix3 (0 : Fin 1) (0 : Fin 1) l)
      = Cert.Yolo.laneTotal (arg0 m c) (arg1 m c) (arg2 m c) b l

theorem idx4 : ∀ t : Fin grid0.N, win0_4.index t 0 = t.val / 4 ∧ win0_4.index t 1 = 0 ∧ win0_4.index t 2 = 0 := by
  decide +kernel

theorem blk4_read (t : Fin cfg0.N) (X : Vec Ideal S16x1x128 .f32) (hb : t.val / 4 < 16) (l : Fin 128) :
    (((cfg0.win 4).blk t).view.read (Elt Ideal) X : S1x1x128.Idx → EReal) (ix3 (0 : Fin 1) (0 : Fin 1) l)
      = X (ix3 ⟨t.val / 4, hb⟩ (0 : Fin 1) l) := by
  obtain ⟨e0, e1, e2⟩ := idx4 t
  rw [View.read_apply]
  refine congrArg X (funext fun a => Fin.ext ?_)
  match a with
  | ⟨0, _⟩ => show win0_4.index t 0 * 1 + 1 * 0 = t.val / 4; omega
  | ⟨1, _⟩ => show win0_4.index t 1 * 1 + 1 * 0 = 0; omega
  | ⟨2, _⟩ => show win0_4.index t 2 * 128 + 1 * l.val = l.val; omega

theorem outsAt_congr' (c : Dev nD) {n n' : ℕ} (e : n = n') (h : n < cfg0.N) (h' : n' < cfg0.N) :
    HF.outsAt0 m c n h = HF.outsAt0 m c n' h' := by
  subst e; rfl

theorem flushed_eq (c : Dev nD) (H : LastOK m c) (t : Fin cfg0.N) (hf : (cfg0.win 4).flush t = true) :
    (HF.dats m 0 c).flushed 4 t = ((cfg0.win 4).blk t).view.read (Elt Ideal) (outArr m c) := by
  have h3 : t.val % 4 = 3 := (flush0_4 t).mp hf
  have hN : cfg0.N = 64 := N_0
  have hlt := t.isLt
  have hb : t.val / 4 < 16 := by omega
  show (cfg0.win 4).cut (grid0.coords t) ((HF.dats m 0 c).after 4 t) = _
  rw [HF.after0_4]
  funext y
  show HF.outsAt0 m c t.val t.isLt y = (((cfg0.win 4).blk t).view.read (Elt Ideal) (outArr m c) : S1x1x128.Idx → EReal) y
  have ey : (y : S1x1x128.Idx) = ix3 (0 : Fin 1) (0 : Fin 1) (y 2) :=
    (eq_ix3 (y : S1x1x128.Idx)).trans (congrArg₂ (fun u v => ix3 u v (y 2)) (Fin.eq_zero _) (Fin.eq_zero _))
  rw [outsAt_congr' m c (show t.val = 4 * (t.val / 4) + 3 by omega) t.isLt (by omega), ey]
  exact (H ⟨t.val / 4, hb⟩ (y 2) _).trans (blk4_read t (outArr m c) hb (y 2)).symm

-- Row b of the array is what the fourth band of image b leaves: the lane totals.
theorem arr_last (c : Dev nD) (H : LastOK m c) : (HF.dats m 0 c).arrAt 4 cfg0.N = outArr m c :=
  (HF.dats m 0 c).arrAt_eq_of_cover 4 (outArr m c) (flushed_eq m c H) fun i => by
    have h0 : (i 0 : Nat) < 16 := (i 0).isLt
    have h1 : (i 1 : Nat) < 1 := (i 1).isLt
    have h2 : (i 2 : Nat) < 128 := (i 2).isLt
    have hN : cfg0.N = 64 := N_0
    obtain ⟨t, ht⟩ : ∃ t : Fin cfg0.N, t.val = 4 * (i 0 : Nat) + 3 := ⟨⟨_, by omega⟩, rfl⟩
    obtain ⟨e0, e1, e2⟩ := idx4 t
    refine ⟨t, (flush0_4 t).mpr (by omega), ?_⟩
    show i ∈ ((View.whole main_v1).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1; omega
    | ⟨1, _⟩ => show win0_4.index t 1 * 1 ≤ (i 1 : Nat) ∧ (i 1 : Nat) < win0_4.index t 1 * 1 + 1; omega
    | ⟨2, _⟩ => show win0_4.index t 2 * 128 ≤ (i 2 : Nat) ∧ (i 2 : Nat) < win0_4.index t 2 * 128 + 128; omega

theorem tail_result (c : Dev nD) :
    Pipeline.afterTail₀ cfgs (HF.dats m) 0 (HF.V0 m) [hostOps1] c main_v17 = tail ((HF.dats m 0 c).arrAt 4 cfg0.N) := by
  unfold Pipeline.afterTail₀
  show StableHlo.after hostOps1 _ (Proc.devRef .tc main_v17) = _
  refine (after_hostOps1 _).trans ?_
  exact congrArg tail (Pipeline.withArrays_arr spec0 launch0.win.arr_inj c _ _ 4)

-- The three means of the lane totals are the three losses, rows grouped band by band.
theorem tail_outArr (c : Dev nD) :
    tail (F := Ideal) (outArr m c) = Cert.Yolo.kOut (arg0 m c) (arg1 m c) (arg2 m c) := by
  funext i
  obtain ⟨k, rfl⟩ : ∃ k : Fin 3, i = ix1 k := ⟨i 0, eq_ix1 i⟩
  rw [tail_apply, zero_add]
  fin_cases k <;> rfl

end Cert.KernelIdeal.HV

end
-- ==== Proof.KI.Body.lean ====
import proofs.«103457_j67783173865496_1_alg».proof.Proof.Gen.KernelIdeal.Skeleton

noncomputable section

namespace Cert.KernelIdeal.HV

open Idealize.ShloMosaic Cert.KernelIdeal Cert.KernelIdeal.Gen

variable {F : FTy → Type} [FloatOps F]

section Body

/-! The band's value terms at grid point `i`, from the conv block `x0`, the label block `x1`, the boxes `x2` and the anchors `x3`. -/

variable (i : grid0.Coords) (x0 x1 : Vec F S1x19x76x3x85 .f32) (x2 : Vec F S1x150x4 .f32) (x3 : Vec F S3x2 .f32)

def lbl : FVec F S19x76x3x85 .f32 := k0_pay4 x1
def gtb : FVec F S150x4 .f32 := k0_pay5 x2
def dwh : FVec F S19x76x3x2 .f32 := k0_pay6 x0
def rawc : FVec F S19x76x3x1 .f32 := k0_pay7 x0
def rawp : FVec F S19x76x3x80 .f32 := k0_pay8 x0
def pxy : FVec F S19x76x3x2 .f32 := k0_pay9 i x0
def anc : FVec F S1x1x3x2 .f32 := k0_pay10 x3
def pw : FVec F S19x76x3 .f32 := k0_pay15 (dwh x0) (anc x3)
def ph : FVec F S19x76x3 .f32 := k0_pay16 (dwh x0) (anc x3)
def flag3 : FVec F S19x76x3 .f32 := k0_pay18 (lbl x1)
def flag4 : FVec F S19x76x3x1 .f32 := k0_pay19 (lbl x1)
def ltgt : FVec F S19x76x3x80 .f32 := k0_pay20 (lbl x1)
def lw : FVec F S19x76x3 .f32 := k0_pay23 (lbl x1)
def lh : FVec F S19x76x3 .f32 := k0_pay24 (lbl x1)
def px1 : FVec F S19x76x3 .f32 := k0_pay25 (dwh x0) (pxy i x0) (anc x3)
def px2 : FVec F S19x76x3 .f32 := k0_pay26 (dwh x0) (pxy i x0) (anc x3)
def py1 : FVec F S19x76x3 .f32 := k0_pay27 (dwh x0) (pxy i x0) (anc x3)
def py2 : FVec F S19x76x3 .f32 := k0_pay28 (dwh x0) (pxy i x0) (anc x3)
def lx1 : FVec F S19x76x3 .f32 := k0_pay29 (lbl x1)
def lx2 : FVec F S19x76x3 .f32 := k0_pay30 (lbl x1)
def ly1 : FVec F S19x76x3 .f32 := k0_pay31 (lbl x1)
def ly2 : FVec F S19x76x3 .f32 := k0_pay32 (lbl x1)
def ovx : FVec F S19x76x3 .f32 := k0_pay33 (lbl x1) (dwh x0) (pxy i x0) (anc x3)

/-- GIoU total of the band. -/
def giouSum : F .f32 :=
  k0_pay35 (pw x0 x3) (ph x0 x3) (flag3 x1) (lw x1) (lh x1) (px1 i x0 x3) (px2 i x0 x3) (py1 i x0 x3) (py2 i x0 x3)
    (lx1 x1) (lx2 x1) (ly1 x1) (ly2 x1) (ovx i x0 x1 x3)

/-- Best IoU of each cell over the ground-truth boxes. -/
def maxIouV : FVec F S19x76x3x1 .f32 :=
  k0_pay40 (px1 i x0 x3) (px2 i x0 x3) (py1 i x0 x3) (py2 i x0 x3) (k0_pay34 (pw x0 x3) (ph x0 x3))
    (k0_pay36 (gtb x2)) (k0_pay37 (gtb x2)) (k0_pay38 (gtb x2)) (k0_pay39 (gtb x2))

/-- Objectness total of the band. -/
def confSum : FVec F S1 .f32 :=
  k0_pay44 (rawc x0) (k0_pay12 (rawc x0)) (flag4 x1) (maxIouV i x0 x2 x3) (k0_pay41 (flag4 x1)) (Scalar.ofBits .f32 0x3F000000#32)

/-- Class total of the band. -/
def probSum : F .f32 := k0_pay42 (rawp x0) (flag4 x1) (ltgt x1)

/-- What is stored: `acc` plus the three totals in entries 0, 1, 2. -/
def bodyOut (acc : Vec F S1x1x128 .f32) : FVec F S1x1x128 .f32 :=
  k0_pay1 (probSum x0 x1) (k0_pay43 (giouSum i x0 x1 x3)) (confSum i x0 x1 x2 x3) acc

end Body

end Cert.KernelIdeal.HV

end
-- ==== Proof.KI.ValPiece.lean ====
import proofs.«103457_j67783173865496_1_alg».proof.Proof.KI.Frame
import proofs.«103457_j67783173865496_1_alg».proof.Proof.KI.Body
import Idealize.ShloMosaic.Lib.Pipeline.Value
import Idealize.ShloMosaic.Lib.Tactic

noncomputable section

namespace Cert.KernelIdeal.HV

open Idealize.ShloMosaic Idealize.ShloMosaic.TcCoe Idealize.ShloMosaic.Tactic Idealize.SL.Sem
open Cert.KernelIdeal Cert.KernelIdeal.Gen Cert.KernelIdeal.HF

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

variable (c : Dev nD) (i : grid0.Coords) (arg2 : Memref sig .tc .vmem S1x19x76x3x85 .f32) (harg2 : arg2.IsWhole) (arg3 : Memref sig .tc .vmem S1x19x76x3x85 .f32) (harg3 : arg3.IsWhole) (arg4 : Memref sig .tc .vmem S1x150x4 .f32) (harg4 : arg4.IsWhole) (arg5 : Memref sig .tc .vmem S3x2 .f32) (harg5 : arg5.IsWhole) (arg6 : Memref sig .tc .vmem S1x1x128 .f32) (harg6 : arg6.IsWhole)
  (x0 x1 : Vec F S1x19x76x3x85 .f32) (x2 : Vec F S1x150x4 .f32) (x3 : Vec F S3x2 .f32)

-- A later band adds its three sums to the row found; a first band (below) adds them to zeros.
theorem out_B (hc0 : ¬cond0_0 i) (xo4 : Vec F S1x1x128 .f32) :
    out0_B_4 c i arg2 harg2 arg3 harg3 arg4 harg4 arg5 harg5 arg6 harg6 hc0 x0 x1 x2 x3 xo4 = bodyOut i x0 x1 x2 x3 xo4 := by
  unfold out0_B_4
  rw [View.read_writes_eq_canon _ _ _ (cover0_B_4 c i arg2 harg2 arg3 harg3 arg4 harg4 arg5 harg5 arg6 harg6 hc0 x0 x1 x2 x3 xo4)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S1x19x76x3x85) hz5, View.ld_unit_zero (S := S1x150x4) hz3, View.ld_unit_zero (S := S3x2) hz2,
    View.ld_unit_zero (S := S1x1x128) hz3]
  unfold bodyOut giouSum confSum probSum maxIouV pw ph flag3 flag4 ltgt lw lh px1 px2 py1 py2 lx1 lx2 ly1 ly2 ovx lbl gtb dwh rawc rawp pxy anc
  rfl

theorem out_A (hc0 : cond0_0 i) :
    out0_A_4 c i arg2 harg2 arg3 harg3 arg4 harg4 arg5 harg5 arg6 harg6 hc0 x0 x1 x2 x3 = bodyOut i x0 x1 x2 x3 (k0_pay2 (F := F)) := by
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  rw [View.canon_cons_unit_zero (S := S1x1x128) hz3, View.readCov_unit_zero (S := S1x1x128) _ hz3]
  simp only [View.readAt_eq_ld, harg2.read_unread, harg3.read_unread, harg4.read_unread, harg5.read_unread,
    View.ld_unit_zero (S := S1x19x76x3x85) hz5, View.ld_unit_zero (S := S1x150x4) hz3, View.ld_unit_zero (S := S3x2) hz2]
  unfold bodyOut giouSum confSum probSum maxIouV pw ph flag3 flag4 ltgt lw lh px1 px2 py1 py2 lx1 lx2 ly1 ly2 ovx lbl gtb dwh rawc rawp pxy anc
  rfl

end Cert.KernelIdeal.HV

end
-- ==== Proof.KI.ValBlocks.lean ====
import proofs.«103457_j67783173865496_1_alg».proof.Proof.KI.FrameKit
import proofs.«103457_j67783173865496_1_alg».proof.Proof.Spec
import Idealize.ShloMosaic.Lib.Pipeline.Value
import Idealize.ShloMosaic.Lib.StableHlo.Run
import Idealize.ShloMosaic.Lib.ValueIdx

noncomputable section

namespace Cert.KernelIdeal.HV

open Idealize.ShloMosaic Idealize.ShloMosaic.TcCoe Idealize.SL.Sem Idealize.ShloMosaic.ValueIdx
open Idealize.ShloMosaic.StableHlo
open Cert.KernelIdeal Cert.KernelIdeal.Gen

section AnyF
variable {F : FTy → Type} [FloatOps F]
variable (m : (ℓ : Loc nD τ sig) → Buf (Elt F) ℓ)

theorem V_main (c : Dev nD) :
    HF.V m c main_v0 = shapeCast S16x76x76x3x85 (m ((c.tc : Thread nD τ).loc main_arg0)) shapeCasts_S16x76x76x255_S16x76x76x3x85
    ∧ HF.V m c main_cst = fun i => FloatOps.ofBits .f32 (lit0 (S3x2.rowMajor i)) := by
  constructor <;>
  · show StableHlo.after (List.flatten [hostOps0]) (fun b => m (c, b)) (Proc.devRef .tc _) = _
    simp only [List.flatten_cons, List.flatten_nil, List.append_nil, hostOps0]
    after_results
    rfl

end AnyF

theorem index0_of : ∀ t : Fin grid0.N, win0_0.index t 0 = t.val / 4 ∧ win0_0.index t 1 = t.val % 4 ∧ win0_0.index t 2 = 0 ∧ win0_0.index t 3 = 0 ∧ win0_0.index t 4 = 0 := by
  decide +kernel
theorem index2_of : ∀ t : Fin grid0.N, win0_2.index t 0 = t.val / 4 ∧ win0_2.index t 1 = 0 ∧ win0_2.index t 2 = 0 := by
  decide +kernel
theorem index3_of : ∀ t : Fin grid0.N, win0_3.index t 0 = 0 ∧ win0_3.index t 1 = 0 := by
  decide +kernel
theorem coord1_of : ∀ t : Fin grid0.N, ((grid0.coords t) 1).val = t.val % 4 := by
  decide +kernel

variable (m : (ℓ : Loc nD τ sig) → Buf (Elt Ideal) ℓ)

-- Cell (p, q, a, k) of band r's block of image b is cell (b, 19 r + p, q, a, k) of the array.
theorem emb0 (t : Fin cfg0.N) (b : Fin 16) (r : Fin 4) (ht : t.val = 4 * b.val + r.val) (p : Fin 19) (q : Fin 76) (a : Fin 3) (k : Fin 85) :
    ((cfg0.win 0).blk t).view.emb (ix5 (0 : Fin 1) p q a k) = ix5 b (Cert.Yolo.rowOf r p) q a k := by
  funext e
  apply Fin.ext
  obtain ⟨h0, h1, h2, h3, h4⟩ := index0_of t
  have hb := b.isLt
  have hr := r.isLt
  match e with
  | ⟨0, _⟩ => show win0_0.index t 0 * 1 + 1 * 0 = b.val; rw [h0]; omega
  | ⟨1, _⟩ => show win0_0.index t 1 * 19 + 1 * p.val = 19 * r.val + p.val; rw [h1]; omega
  | ⟨2, _⟩ => show win0_0.index t 2 * 76 + 1 * q.val = q.val; rw [h2]; omega
  | ⟨3, _⟩ => show win0_0.index t 3 * 3 + 1 * a.val = a.val; rw [h3]; omega
  | ⟨4, _⟩ => show win0_0.index t 4 * 85 + 1 * k.val = k.val; rw [h4]; omega

theorem emb1 (t : Fin cfg0.N) (b : Fin 16) (r : Fin 4) (ht : t.val = 4 * b.val + r.val) (p : Fin 19) (q : Fin 76) (a : Fin 3) (k : Fin 85) :
    ((cfg0.win 1).blk t).view.emb (ix5 (0 : Fin 1) p q a k) = ix5 b (Cert.Yolo.rowOf r p) q a k :=
  emb0 t b r ht p q a k

theorem emb2 (t : Fin cfg0.N) (b : Fin 16) (r : Fin 4) (ht : t.val = 4 * b.val + r.val) (n : Fin 150) (d : Fin 4) :
    ((cfg0.win 2).blk t).view.emb (ix3 (0 : Fin 1) n d) = ix3 b n d := by
  funext e
  apply Fin.ext
  obtain ⟨h0, h1, h2⟩ := index2_of t
  have hb := b.isLt
  have hr := r.isLt
  match e with
  | ⟨0, _⟩ => show win0_2.index t 0 * 1 + 1 * 0 = b.val; rw [h0]; omega
  | ⟨1, _⟩ => show win0_2.index t 1 * 150 + 1 * n.val = n.val; rw [h1]; omega
  | ⟨2, _⟩ => show win0_2.index t 2 * 4 + 1 * d.val = d.val; rw [h2]; omega

theorem emb3 (t : Fin cfg0.N) (a : Fin 3) (d : Fin 2) :
    ((cfg0.win 3).blk t).view.emb (ix2 a d) = ix2 a d := by
  funext e
  apply Fin.ext
  obtain ⟨h0, h1⟩ := index3_of t
  match e with
  | ⟨0, _⟩ => show win0_3.index t 0 * 3 + 1 * a.val = a.val; rw [h0]; omega
  | ⟨1, _⟩ => show win0_3.index t 1 * 2 + 1 * d.val = d.val; rw [h1]; omega

theorem iblk1_apply (c : Dev nD) (t : Fin cfg0.N) (b : Fin 16) (r : Fin 4) (ht : t.val = 4 * b.val + r.val) (p : Fin 19) (q : Fin 76) (a : Fin 3) (k : Fin 85) :
    (HF.iblk m c 1 t : Vec Ideal S1x19x76x3x85 .f32) (ix5 (0 : Fin 1) p q a k)
      = Cert.Yolo.arr5 (m ((c.tc : Thread nD τ).loc main_arg1)) b (Cert.Yolo.rowOf r p) q a k := by
  unfold HF.iblk
  rw [View.read_apply, emb1 t b r ht]
  show HF.V m c main_arg1 _ = _
  rw [HF.V_main_arg1]
  rfl

theorem iblk2_apply (c : Dev nD) (t : Fin cfg0.N) (b : Fin 16) (r : Fin 4) (ht : t.val = 4 * b.val + r.val) (n : Fin 150) (d : Fin 4) :
    (HF.iblk m c 2 t : Vec Ideal S1x150x4 .f32) (ix3 (0 : Fin 1) n d)
      = Cert.Yolo.arr3 (m ((c.tc : Thread nD τ).loc main_arg2)) b n d := by
  unfold HF.iblk
  rw [View.read_apply, emb2 t b r ht]
  show HF.V m c main_arg2 _ = _
  rw [HF.V_main_arg2]
  rfl

-- Reshaping [16,76,76,255] to [16,76,76,3,85] keeps the row-major position: channel 85 a + k.
theorem iblk0_apply (c : Dev nD) (t : Fin cfg0.N) (b : Fin 16) (r : Fin 4) (ht : t.val = 4 * b.val + r.val) (p : Fin 19) (q : Fin 76) (a : Fin 3) (k : Fin 85) :
    (HF.iblk m c 0 t : Vec Ideal S1x19x76x3x85 .f32) (ix5 (0 : Fin 1) p q a k)
      = Cert.Yolo.conv5 (m ((c.tc : Thread nD τ).loc main_arg0)) b (Cert.Yolo.rowOf r p) q a k := by
  unfold HF.iblk
  rw [View.read_apply, emb0 t b r ht]
  show HF.V m c main_v0 _ = _
  rw [(V_main m c).1]
  unfold Cert.Yolo.conv5
  refine shapeCast_apply (s := S16x76x76x255) (t := S16x76x76x3x85) _ _ _ _ ?_
  rw [Shape.rowMajor_val_four, Shape.rowMajor_val_five]
  show (((b.val * 76 + (19 * r.val + p.val)) * 76 + q.val) * 255 + (85 * a.val + k.val))
    = ((((b.val * 76 + (19 * r.val + p.val)) * 76 + q.val) * 3 + a.val) * 85 + k.val)
  ring

theorem iblk3_apply (c : Dev nD) (t : Fin cfg0.N) (a : Fin 3) (d : Fin 2) :
    (HF.iblk m c 3 t : Vec Ideal S3x2 .f32) (ix2 a d) = Cert.Yolo.anchor a d := by
  unfold HF.iblk
  rw [View.read_apply, emb3 t]
  show HF.V m c main_cst _ = _
  rw [(V_main m c).2]
  fin_cases a <;> fin_cases d <;> rfl

end Cert.KernelIdeal.HV

end
-- ==== Proof.KI.ValOut.lean ====
import proofs.«103457_j67783173865496_1_alg».proof.Proof.KI.Body
import Idealize.ShloMosaic.PureOps.Ideal.Laws
import Idealize.ShloMosaic.Lib.ValueIdx
import Idealize.ShloMosaic.Lib.Pipeline.Value

noncomputable section

namespace Cert.KernelIdeal.HV

open Cert.KernelIdeal Cert.KernelIdeal.Gen Idealize.ShloMosaic Idealize.ShloMosaic.ValueIdx

theorem view_1x1x128 (v : FVec Ideal S128 .f32) (l : Fin 128) :
    shapeCast S1x1x128 v shapeCasts_S128_S1x1x128 (ix3 (0 : Fin 1) (0 : Fin 1) l) = v (ix1 l) :=
  shapeCast_apply v _ _ _ (by
    rw [Shape.rowMajor_val_one, Shape.rowMajor_val_three]
    show l.val = (0 * 1 + 0) * 128 + l.val
    omega)

theorem view_128 (v : Vec Ideal S1x1x128 .f32) (l : Fin 128) :
    shapeCast S128 v shapeCasts_S1x1x128_S128 (ix1 l) = v (ix3 (0 : Fin 1) (0 : Fin 1) l) :=
  shapeCast_apply v _ _ _ (by
    rw [Shape.rowMajor_val_three, Shape.rowMajor_val_one]
    show (0 * 1 + 0) * 128 + l.val = l.val
    omega)

-- Lane by lane the body's value is the accumulator plus (GIoU sum, objectness sum, class sum, 0, …, 0).
theorem bodyOut_lane (i : grid0.Coords) (x0 x1 : Vec Ideal S1x19x76x3x85 .f32) (x2 : Vec Ideal S1x150x4 .f32)
    (x3 : Vec Ideal S3x2 .f32) (acc : Vec Ideal S1x1x128 .f32) (l : Fin 128) :
    bodyOut (F := Ideal) i x0 x1 x2 x3 acc (ix3 (0 : Fin 1) (0 : Fin 1) l)
      = acc (ix3 (0 : Fin 1) (0 : Fin 1) l)
        + if l.val = 0 then giouSum (F := Ideal) i x0 x1 x3
          else if l.val = 1 then confSum (F := Ideal) i x0 x1 x2 x3 (ix1 (0 : Fin 1))
          else if l.val = 2 then probSum (F := Ideal) x0 x1 else 0 := by
  unfold bodyOut k0_pay1
  refine (view_1x1x128 _ l).trans ((addf_apply _ _ _).trans (congrArg₂ (· + ·) (view_128 acc l) ?_))
  have hb {n : ℕ} (j : (⟨1, ![n]⟩ : Shape).Idx) (b : Fin 1) (hb : b.cast (rfl : 1 = S128.rank) ≠ (0 : Fin S128.rank)) :
      (j b).val = ((ix1 l : S128.Idx) (b.cast rfl)).val := absurd (Fin.ext (by omega)) hb
  by_cases h0 : l.val = 0
  · rw [if_pos h0]
    exact (concatenate_apply_piece (0 : Fin S128.rank) _ _ (ix1 l) 0 (by show (0 : ℕ) < 4; omega) S1 _ rfl rfl 0 rfl (ix1 (0 : Fin 1)) (hb _) h0.symm).trans rfl
  by_cases h1 : l.val = 1
  · rw [if_neg h0, if_pos h1]
    exact (concatenate_apply_piece (0 : Fin S128.rank) _ _ (ix1 l) 1 (by show (1 : ℕ) < 4; omega) S1 _ rfl rfl 1 rfl (ix1 (0 : Fin 1)) (hb _) h1.symm).trans rfl
  by_cases h2 : l.val = 2
  · rw [if_neg h0, if_neg h1, if_pos h2]
    exact (concatenate_apply_piece (0 : Fin S128.rank) _ _ (ix1 l) 2 (by show (2 : ℕ) < 4; omega) S1 _ rfl rfl 2 rfl (ix1 (0 : Fin 1)) (hb _) h2.symm).trans rfl
  rw [if_neg h0, if_neg h1, if_neg h2]
  exact (concatenate_apply_piece (0 : Fin S128.rank) _ _ (ix1 l) 3 (by show (3 : ℕ) < 4; omega) S125 _ rfl rfl 3 rfl
    (ix1 (⟨l.val - 3, by omega⟩ : Fin 125)) (hb _) (by show 3 + (l.val - 3) = l.val; omega)).trans Ideal.ofBits_zero_f32

theorem zeros_lane (l : Fin 128) : k0_pay2 (F := Ideal) (ix3 (0 : Fin 1) (0 : Fin 1) l) = 0 := by
  unfold k0_pay2
  exact (view_1x1x128 _ l).trans Ideal.ofBits_zero_f32

end Cert.KernelIdeal.HV

end
-- ==== Proof.KI.ValSum.lean ====
import proofs.«103457_j67783173865496_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.HV

open Cert.KernelIdeal Cert.KernelIdeal.Gen Idealize.ShloMosaic Idealize.ShloMosaic.ValueIdx
open scoped BigOperators

variable {n0 n1 n2 n3 : Nat}

/-- What holds on each of three (of four) axes holds on every axis. -/
theorem fin3 {P : Fin 3 → Prop} (h0 : P 0) (h1 : P 1) (h2 : P 2) : ∀ a, P a
  | ⟨0, _⟩ => h0 | ⟨1, _⟩ => h1 | ⟨2, _⟩ => h2

theorem fin4 {P : Fin 4 → Prop} (h0 : P 0) (h1 : P 1) (h2 : P 2) (h3 : P 3) : ∀ a, P a
  | ⟨0, _⟩ => h0 | ⟨1, _⟩ => h1 | ⟨2, _⟩ => h2 | ⟨3, _⟩ => h3

/-- A sum over the last of two (three, four) axes: the entries along it added. -/
theorem sum_last2 (v : FVec Ideal ⟨2, ![n0, n1]⟩ .f32) (h : (⟨2, ![n0, n1]⟩ : Shape).Reduces [1] ⟨1, ![n0]⟩) (p : Fin n0) :
    multiReduction .add [1] ⟨1, ![n0]⟩ v 0x00000000#32 h (.inl rfl) rfl (ix1 p) = ∑ q : Fin n1, v (ix2 p q) :=
  (Ideal.multiReduction_add_single v _ h _ _ _).trans
    (Finset.sum_congr rfl fun _ _ => congrArg v (Shape.idx_ext₂ rfl rfl))

theorem sum_last3 (v : FVec Ideal ⟨3, ![n0, n1, n2]⟩ .f32)
    (h : (⟨3, ![n0, n1, n2]⟩ : Shape).Reduces [2] ⟨2, ![n0, n1]⟩) (p : Fin n0) (q : Fin n1) :
    multiReduction .add [2] ⟨2, ![n0, n1]⟩ v 0x00000000#32 h (.inl rfl) rfl (ix2 p q) = ∑ a : Fin n2, v (ix3 p q a) :=
  (Ideal.multiReduction_add_single v _ h _ _ _).trans
    (Finset.sum_congr rfl fun _ _ => congrArg v (funext (fin3 (Fin.ext rfl) (Fin.ext rfl) (Fin.ext rfl))))

theorem sum_last4 (v : FVec Ideal ⟨4, ![n0, n1, n2, n3]⟩ .f32)
    (h : (⟨4, ![n0, n1, n2, n3]⟩ : Shape).Reduces [3] ⟨3, ![n0, n1, n2]⟩) (p : Fin n0) (q : Fin n1) (a : Fin n2) :
    multiReduction .add [3] ⟨3, ![n0, n1, n2]⟩ v 0x00000000#32 h (.inl rfl) rfl (ix3 p q a)
      = ∑ c : Fin n3, v (ix4 p q a c) :=
  (Ideal.multiReduction_add_single v _ h _ _ _).trans
    (Finset.sum_congr rfl fun _ _ =>
      congrArg v (funext (fin4 (Fin.ext rfl) (Fin.ext rfl) (Fin.ext rfl) (Fin.ext rfl))))

/-- A vector viewed as a one-row matrix: entry (0, p) is entry p. -/
theorem view_1a (v : FVec Ideal ⟨1, ![n0]⟩ .f32) (h : (⟨1, ![n0]⟩ : Shape).ShapeCasts ⟨2, ![1, n0]⟩) (p : Fin n0) :
    shapeCast ⟨2, ![1, n0]⟩ v h (ix2 (0 : Fin 1) p) = v (ix1 p) :=
  (shapeCast_addUnit_apply ![n0] v h _).trans (congrArg v (funext fun | ⟨0, _⟩ => rfl))

theorem read_1x1 (v : FVec Ideal S1x1 .f32) :
    extractAt ![0, 0] v inpos_S1x1_p0_0 = v (ix2 (0 : Fin 1) (0 : Fin 1)) :=
  congrArg v (Shape.idx_ext₂ rfl rfl)

/-- Summing over anchors, then columns, then (through two one-row views) rows gives the triple sum. -/
theorem sum3_chain (v : FVec Ideal S19x76x3 .f32) :
    extractAt ![0, 0]
        (shapeCast S1x1
          (multiReduction .add [1] S1
            (shapeCast S1x19
              (multiReduction .add [1] S19
                (multiReduction .add [2] S19x76 v 0x00000000#32 reduces_S19x76x3_S19x76 (.inl rfl) rfl)
                0x00000000#32 reduces_S19x76_S19 (.inl rfl) rfl)
              shapeCasts_S19_S1x19)
            0x00000000#32 reduces_S1x19_S1 (.inl rfl) rfl)
          shapeCasts_S1_S1x1)
        inpos_S1x1_p0_0
      = ∑ p : Fin 19, ∑ q : Fin 76, ∑ a : Fin 3, v (ix3 p q a) :=
  (read_1x1 _).trans <| (view_1a _ _ 0).trans <| (sum_last2 _ _ 0).trans <| Finset.sum_congr rfl fun p _ =>
    (view_1a _ _ p).trans <| (sum_last2 _ _ p).trans <| Finset.sum_congr rfl fun q _ => sum_last3 v _ p q

theorem sum_last1 (v : FVec Ideal S19x76x3x1 .f32) (p : Fin 19) (q : Fin 76) (a : Fin 3) :
    multiReduction .add [3] S19x76x3 v 0x00000000#32 reduces_S19x76x3x1_S19x76x3 (.inl rfl) rfl (ix3 p q a)
      = v (ix4 p q a (0 : Fin 1)) :=
  (sum_last4 v _ p q a).trans (Fin.sum_univ_one _)

theorem sum_last80 (v : FVec Ideal S19x76x3x80 .f32) (p : Fin 19) (q : Fin 76) (a : Fin 3) :
    multiReduction .add [3] S19x76x3 v 0x00000000#32 reduces_S19x76x3x80_S19x76x3 (.inl rfl) rfl (ix3 p q a)
      = ∑ c : Fin 80, v (ix4 p q a c) :=
  sum_last4 v _ p q a

end Cert.KernelIdeal.HV

end
-- ==== Proof.KI.ValProb.lean ====
import proofs.«103457_j67783173865496_1_alg».proof.Proof.Spec
import proofs.«103457_j67783173865496_1_alg».proof.Proof.KI.Body
import proofs.«103457_j67783173865496_1_alg».proof.Proof.KI.ValSum

noncomputable section

namespace Cert.KernelIdeal.HV

open Cert.KernelIdeal Cert.KernelIdeal.Gen Idealize.ShloMosaic Idealize.ShloMosaic.ValueIdx Cert.Yolo
open scoped BigOperators

variable (x0 x1 : Vec Ideal S1x19x76x3x85 .f32) (p : Fin 19) (q : Fin 76) (a : Fin 3) (c : Fin 80)

/-- Channel `k = o + j` of a block `x`, read through the slice from `o` of the block without its unit axis. -/
theorem prob_ch_apply {m : Nat} (x : Vec Ideal S1x19x76x3x85 .f32) (o : Nat)
    (h : S19x76x3x85.Slices ![0, 0, 0, o] ⟨4, ![19, 76, 3, m]⟩) (j : Fin m) (k : Fin 85) (hk : k.val = o + j.val) :
    extractStridedSlice ⟨4, ![19, 76, 3, m]⟩ ![0, 0, 0, o]
        (shapeCast S19x76x3x85 x shapeCasts_S1x19x76x3x85_S19x76x3x85) h (ix4 p q a j)
      = x (ix5 (0 : Fin 1) p q a k) :=
  (extractStridedSlice_apply _ _ h (ix4 p q a j) (ix4 p q a k)
      (fin4 (Nat.zero_add _).symm (Nat.zero_add _).symm (Nat.zero_add _).symm hk)).trans <|
    (shapeCast_dropUnit_apply ![19, 76, 3, 85] x _ _).trans <|
      congrArg x (funext fun | ⟨0, _⟩ => rfl | ⟨1, _⟩ => rfl | ⟨2, _⟩ => rfl | ⟨3, _⟩ => rfl | ⟨4, _⟩ => rfl)

theorem prob_rawp_apply :
    rawp (F := Ideal) x0 (ix4 p q a c) = x0 (ix5 (0 : Fin 1) p q a (⟨5 + c.val, by omega⟩ : Fin 85)) := by
  unfold rawp k0_pay8 k0_pay3
  exact prob_ch_apply p q a x0 5 _ c _ rfl

theorem prob_ltgt_apply :
    ltgt (F := Ideal) x1 (ix4 p q a c) = x1 (ix5 (0 : Fin 1) p q a (⟨5 + c.val, by omega⟩ : Fin 85)) := by
  unfold ltgt k0_pay20 lbl k0_pay4
  exact prob_ch_apply p q a x1 5 _ c _ rfl

theorem prob_flag4_apply :
    flag4 (F := Ideal) x1 (ix4 p q a (0 : Fin 1)) = x1 (ix5 (0 : Fin 1) p q a (4 : Fin 85)) := by
  unfold flag4 k0_pay19 lbl k0_pay4
  exact prob_ch_apply p q a x1 4 _ 0 4 rfl

/-- With `|x|` written `max x (-x)` and `-y` written `0 - y` this is the stable cross-entropy. -/
theorem bce_spelt (x l : EReal) :
    max x (Ideal.ofBits .f32 0x00000000#32) - x * l
        + Ideal.log1p (Ideal.exp (Ideal.ofBits .f32 0x00000000#32 - max x (-x)))
      = bce x l := by
  rw [Ideal.ofBits_zero_f32, zero_sub]
  rfl

/-- The class total is the sum of the class terms over cells and classes. -/
theorem probSum_eq :
    probSum (F := Ideal) x0 x1
      = ∑ p : Fin 19, ∑ q : Fin 76, ∑ a : Fin 3, ∑ c : Fin 80,
          probCell (fun k => x0 (ix5 (0 : Fin 1) p q a k)) (fun k => x1 (ix5 (0 : Fin 1) p q a k)) c := by
  unfold probSum k0_pay42
  refine (sum3_chain _).trans ?_
  refine Finset.sum_congr rfl fun p _ => Finset.sum_congr rfl fun q _ => Finset.sum_congr rfl fun a _ => ?_
  refine (sum_last80 _ p q a).trans (Finset.sum_congr rfl fun c _ => ?_)
  refine (mulf_apply _ _ _).trans (congrArg₂ (· * ·) ?_ ((bce_spelt _ _).trans ?_))
  · exact (broadcastTo_apply _ _ _ (ix4 p q a (0 : Fin 1)) (fin4 rfl rfl rfl rfl)).trans (prob_flag4_apply x1 p q a)
  · exact congrArg₂ bce (prob_rawp_apply x0 p q a c) (prob_ltgt_apply x1 p q a c)

end Cert.KernelIdeal.HV

end
-- ==== Proof.KI.ValDecodeAux.lean ====
import Idealize.ShloMosaic.Lib.ValueLayout
import Idealize.ShloMosaic.Lib.WordArith

noncomputable section

namespace Cert.KernelIdeal.HV.DecodeAux

open Idealize.ShloMosaic Idealize.ShloMosaic.ValueIdx

variable {α : Type} {n0 n1 n2 n3 m : Nat}

/-- What holds on each of four axes holds on every axis. -/
theorem fin4 {P : Fin 4 → Prop} (h0 : P 0) (h1 : P 1) (h2 : P 2) (h3 : P 3) : ∀ a, P a
  | ⟨0, _⟩ => h0 | ⟨1, _⟩ => h1 | ⟨2, _⟩ => h2 | ⟨3, _⟩ => h3

/-- A slice from `o` along the last of four axes reads the source at `k = o + j`. -/
theorem slice4_axis3_apply (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) (k : Fin n3) (hk : k.val = o + j.val) :
    extractStridedSlice ⟨4, ![n0, n1, n2, m]⟩ ![0, 0, 0, o] X h (ix4 a b c j) = X (ix4 a b c k) :=
  extractStridedSlice_apply _ _ _ _ _
    (fin4 (Nat.zero_add _).symm (Nat.zero_add _).symm (Nat.zero_add _).symm hk)

theorem shapeCast_abc1_abc_apply (x : (⟨4, ![n0, n1, n2, 1]⟩ : Shape).Idx → α)
    (h : (⟨4, ![n0, n1, n2, 1]⟩ : Shape).ShapeCasts ⟨3, ![n0, n1, n2]⟩) (a : Fin n0) (b : Fin n1) (c : Fin n2) :
    shapeCast ⟨3, ![n0, n1, n2]⟩ x h (ix3 a b c) = x (ix4 a b c (0 : Fin 1)) :=
  shapeCast_apply x h _ _ (by
    rw [Shape.rowMajor_val_four, Shape.rowMajor_val_three]
    exact Nat.mul_one _)

/-- One channel `k = o` of a rank-4 array as a rank-3 array. -/
theorem chan_apply (o : Nat) (X : (⟨4, ![n0, n1, n2, n3]⟩ : Shape).Idx → α)
    (h : (⟨4, ![n0, n1, n2, n3]⟩ : Shape).Slices ![0, 0, 0, o] ⟨4, ![n0, n1, n2, 1]⟩)
    (h' : (⟨4, ![n0, n1, n2, 1]⟩ : Shape).ShapeCasts ⟨3, ![n0, n1, n2]⟩)
    (a : Fin n0) (b : Fin n1) (c : Fin n2) (k : Fin n3) (hk : k.val = o + 0) :
    shapeCast ⟨3, ![n0, n1, n2]⟩ (extractStridedSlice ⟨4, ![n0, n1, n2, 1]⟩ ![0, 0, 0, o] X h) h' (ix3 a b c)
      = X (ix4 a b c k) :=
  (shapeCast_abc1_abc_apply _ h' a b c).trans (slice4_axis3_apply o X h a b c 0 k hk)

theorem shapeCast_1abcd_abcd_apply (x : (⟨5, ![1, n0, n1, n2, n3]⟩ : Shape).Idx → α)
    (h : (⟨5, ![1, n0, n1, n2, n3]⟩ : Shape).ShapeCasts ⟨4, ![n0, n1, n2, n3]⟩)
    (a : Fin n0) (b : Fin n1) (c : Fin n2) (d : Fin n3) :
    shapeCast ⟨4, ![n0, n1, n2, n3]⟩ x h (ix4 a b c d) = x (ix5 (0 : Fin 1) a b c d) :=
  shapeCast_apply x h _ _ (by
    rw [Shape.rowMajor_val_five, Shape.rowMajor_val_four]
    show (((0 * n0 + a.val) * n1 + b.val) * n2 + c.val) * n3 + d.val = ((a.val * n1 + b.val) * n2 + c.val) * n3 + d.val
    rw [Nat.zero_mul, Nat.zero_add])

theorem shapeCast_ab_11ab_apply (x : (⟨2, ![n0, n1]⟩ : Shape).Idx → α)
    (h : (⟨2, ![n0, n1]⟩ : Shape).ShapeCasts ⟨4, ![1, 1, n0, n1]⟩) (a : Fin n0) (b : Fin n1) :
    shapeCast ⟨4, ![1, 1, n0, n1]⟩ x h (ix4 (0 : Fin 1) (0 : Fin 1) a b) = x (ix2 a b) :=
  shapeCast_apply x h _ _ (by
    rw [Shape.rowMajor_val_four, Shape.rowMajor_val_two]
    show a.val * n1 + b.val = ((0 * 1 + 0) * n0 + a.val) * n1 + b.val
    rw [Nat.zero_mul, Nat.zero_add])

/-- A grid number as a signed 32-bit word, converted exactly, is the number. -/
theorem sitofp_ofNat (n : Nat) (hn : n < 2 ^ 31) :
    (FloatOps.sitofp (F := Ideal) .f32 (BitVec.ofNat 32 n) : EReal) = ((n : ℝ) : EReal) := by
  show (((BitVec.ofNat 32 n).toInt : ℝ) : EReal) = _
  rw [WordArith.toInt_ofNat_small n hn, Int.cast_natCast]

/-- The word `p + r · 19` is the number `19 r + p`. -/
theorem row_word (p r : Nat) (hp : p < 19) (hr : r < 4) :
    IntOp.addi (BitVec.ofNat 32 p) (Scalar.muli (BitVec.ofNat 32 r) 19#32) = BitVec.ofNat 32 (19 * r + p) := by
  show BitVec.ofNat 32 p + BitVec.ofNat 32 r * 19#32 = _
  apply BitVec.eq_of_toNat_eq
  simp only [BitVec.toNat_add, BitVec.toNat_mul, BitVec.toNat_ofNat]
  omega

end Cert.KernelIdeal.HV.DecodeAux

end
-- ==== Proof.KI.ValDecode.lean ====
import proofs.«103457_j67783173865496_1_alg».proof.Proof.KI.Body
import proofs.«103457_j67783173865496_1_alg».proof.Proof.KI.ValDecodeAux
import proofs.«103457_j67783173865496_1_alg».proof.Proof.Spec

noncomputable section

namespace Cert.KernelIdeal.HV

open Cert.KernelIdeal Cert.KernelIdeal.Gen Idealize.ShloMosaic Idealize.ShloMosaic.ValueIdx
open Cert.KernelIdeal.HV.DecodeAux Cert.Yolo

variable (i : grid0.Coords) (x0 x1 : Vec Ideal S1x19x76x3x85 .f32) (x3 : Vec Ideal S3x2 .f32)
  (hx3 : ∀ (a : Fin 3) (d : Fin 2), x3 (ix2 a d) = anchor a d) (p : Fin 19) (q : Fin 76) (a : Fin 3)

/-- Channel `k = o + j` of a block `x`, read through the slice from `o` of the block without its unit axis. -/
theorem ch_apply {m : Nat} (x : Vec Ideal S1x19x76x3x85 .f32) (o : Nat)
    (h : S19x76x3x85.Slices ![0, 0, 0, o] ⟨4, ![19, 76, 3, m]⟩) (j : Fin m) (k : Fin 85) (hk : k.val = o + j.val) :
    extractStridedSlice ⟨4, ![19, 76, 3, m]⟩ ![0, 0, 0, o]
        (shapeCast S19x76x3x85 x shapeCasts_S1x19x76x3x85_S19x76x3x85) h (ix4 p q a j)
      = x (ix5 (0 : Fin 1) p q a k) :=
  (slice4_axis3_apply o _ h p q a j k hk).trans (shapeCast_1abcd_abcd_apply x _ p q a k)

theorem dwh_apply (d : Fin 2) (k : Fin 85) (hk : k.val = 2 + d.val) :
    dwh x0 (ix4 p q a d) = x0 (ix5 (0 : Fin 1) p q a k) := by
  unfold dwh k0_pay6 k0_pay3
  exact ch_apply p q a x0 2 _ d k hk

theorem rawc_apply : rawc x0 (ix4 p q a (0 : Fin 1)) = x0 (ix5 (0 : Fin 1) p q a (4 : Fin 85)) := by
  unfold rawc k0_pay7 k0_pay3
  exact ch_apply p q a x0 4 _ 0 4 rfl

/-- The anchor table spread over the cells. -/
theorem anc_apply (d : Fin 2) (h : S1x1x3x2.Broadcasts S19x76x3x2) :
    broadcastTo S19x76x3x2 (anc x3) h (ix4 p q a d) = x3 (ix2 a d) :=
  (broadcastTo_apply _ h _ (ix4 (0 : Fin 1) (0 : Fin 1) a d) (fin4 rfl rfl rfl rfl)).trans
    (shapeCast_ab_11ab_apply x3 _ a d)

theorem flag4_apply : flag4 x1 (ix4 p q a (0 : Fin 1)) = x1 (ix5 (0 : Fin 1) p q a (4 : Fin 85)) := by
  unfold flag4 k0_pay19 lbl k0_pay4
  exact ch_apply p q a x1 4 _ 0 4 rfl

theorem flag3_apply : flag3 x1 (ix3 p q a) = x1 (ix5 (0 : Fin 1) p q a (4 : Fin 85)) := by
  unfold flag3 k0_pay18 lbl k0_pay4
  exact (shapeCast_abc1_abc_apply _ _ p q a).trans (ch_apply p q a x1 4 _ 0 4 rfl)

/-- Channel `d` of the label's four box channels, as a [19, 76, 3] array. -/
theorem lch_apply (o : Nat) (h : S19x76x3x4.Slices ![0, 0, 0, o] S19x76x3x1) (d : Fin 4) (hd : d.val = o + 0)
    (k : Fin 85) (hk : k.val = 0 + d.val) :
    shapeCast S19x76x3 (extractStridedSlice S19x76x3x1 ![0, 0, 0, o] (k0_pay17 (lbl x1)) h)
        shapeCasts_S19x76x3x1_S19x76x3 (ix3 p q a) = x1 (ix5 (0 : Fin 1) p q a k) := by
  unfold k0_pay17 lbl k0_pay4
  exact (chan_apply o _ h _ p q a d hd).trans (ch_apply p q a x1 0 _ d k hk)

theorem lw_apply : lw x1 (ix3 p q a) = x1 (ix5 (0 : Fin 1) p q a (2 : Fin 85)) := by
  unfold lw k0_pay23
  exact lch_apply x1 p q a 2 _ 2 rfl 2 rfl

theorem lh_apply : lh x1 (ix3 p q a) = x1 (ix5 (0 : Fin 1) p q a (3 : Fin 85)) := by
  unfold lh k0_pay24
  exact lch_apply x1 p q a 3 _ 3 rfl 3 rfl

theorem lx1_apply :
    lx1 x1 (ix3 p q a) = lo (x1 (ix5 (0 : Fin 1) p q a (0 : Fin 85))) (x1 (ix5 (0 : Fin 1) p q a (2 : Fin 85))) :=
  congrArg₂ lo (lch_apply x1 p q a 0 _ 0 rfl 0 rfl) (lw_apply x1 p q a)

theorem lx2_apply :
    lx2 x1 (ix3 p q a) = hi (x1 (ix5 (0 : Fin 1) p q a (0 : Fin 85))) (x1 (ix5 (0 : Fin 1) p q a (2 : Fin 85))) :=
  congrArg₂ hi (lch_apply x1 p q a 0 _ 0 rfl 0 rfl) (lw_apply x1 p q a)

theorem ly1_apply :
    ly1 x1 (ix3 p q a) = lo (x1 (ix5 (0 : Fin 1) p q a (1 : Fin 85))) (x1 (ix5 (0 : Fin 1) p q a (3 : Fin 85))) :=
  congrArg₂ lo (lch_apply x1 p q a 1 _ 1 rfl 1 rfl) (lh_apply x1 p q a)

theorem ly2_apply :
    ly2 x1 (ix3 p q a) = hi (x1 (ix5 (0 : Fin 1) p q a (1 : Fin 85))) (x1 (ix5 (0 : Fin 1) p q a (3 : Fin 85))) :=
  congrArg₂ hi (lch_apply x1 p q a 1 _ 1 rfl 1 rfl) (lh_apply x1 p q a)

/-- The converted column counter reads `q` at column `q`. -/
theorem colOff_apply (h : S1x76x1x1.Iotas .tc 32 [1]) :
    (sitofp .f32 (iota .tc S1x76x1x1 32 [1] h) : FVec Ideal S1x76x1x1 .f32)
        (ix4 (0 : Fin 1) q (0 : Fin 1) (0 : Fin 1)) = gridR q.val := by
  rw [sitofp_apply, iota_single_apply]
  exact sitofp_ofNat q.val (by have := q.isLt; omega)

/-- The converted row counter of band `r` reads `19 r + p` at row `p`. -/
theorem rowOff_apply (r : Nat) (hr : r < 4) (h : S19x1x1x1.Iotas .tc 32 [0]) :
    (sitofp .f32 (addi (iota .tc S19x1x1x1 32 [0] h) (broadcast S19x1x1x1 (Scalar.muli (BitVec.ofNat 32 r) 19#32)))
        : FVec Ideal S19x1x1x1 .f32) (ix4 p (0 : Fin 1) (0 : Fin 1) (0 : Fin 1)) = gridR (19 * r + p.val) := by
  rw [sitofp_apply]
  show FloatOps.sitofp (F := Ideal) .f32 (IntOp.addi (iota .tc S19x1x1x1 32 [0] h _) _) = _
  rw [iota_single_apply]
  exact (congrArg _ (row_word p.val r p.isLt hr)).trans (sitofp_ofNat _ (by have := p.isLt; omega))

/-- The offset pair spread over cells and anchors: entry 0 is `u` at the column, entry 1 is `w` at the row. -/
theorem gridPair_apply (u : FVec Ideal S1x76x1x1 .f32) (w : FVec Ideal S19x1x1x1 .f32)
    (h1 : S1x76x1x1.ShapeCasts S1x76x1x1) (h2 : S1x76x1x1.Broadcasts S19x76x1x1)
    (h3 : S19x1x1x1.ShapeCasts S19x1x1x1) (h4 : S19x1x1x1.Broadcasts S19x76x1x1)
    (h5 : Shape.Concatenates [S19x76x1x1, S19x76x1x1] S19x76x1x2 3) (h6 : S19x76x1x2.Broadcasts S19x76x3x2) :
    let g := broadcastTo S19x76x3x2 (concatenate S19x76x1x2 3
        [⟨S19x76x1x1, broadcastTo S19x76x1x1 (shapeCast S1x76x1x1 u h1) h2⟩,
         ⟨S19x76x1x1, broadcastTo S19x76x1x1 (shapeCast S19x1x1x1 w h3) h4⟩] h5) h6
    g (ix4 p q a (0 : Fin 2)) = u (ix4 (0 : Fin 1) q (0 : Fin 1) (0 : Fin 1))
      ∧ g (ix4 p q a (1 : Fin 2)) = w (ix4 p (0 : Fin 1) (0 : Fin 1) (0 : Fin 1)) := by
  refine ⟨?_, ?_⟩
  · refine (broadcastTo_apply _ h6 _ (ix4 p q (0 : Fin 1) (0 : Fin 2)) (fin4 rfl rfl rfl rfl)).trans ?_
    refine (concatenate_pair_apply_left (t := S19x76x1x2) (s₁ := S19x76x1x1) (s₂ := S19x76x1x1) 3 _ _ h5
      (ix4 p q (0 : Fin 1) (0 : Fin 2)) rfl (ix4 p q (0 : Fin 1) (0 : Fin 1)) (fin4 rfl rfl rfl rfl)).trans ?_
    exact (broadcastTo_apply _ h2 _ (ix4 (0 : Fin 1) q (0 : Fin 1) (0 : Fin 1)) (fin4 rfl rfl rfl rfl)).trans
      (congrFun (shapeCast_self u h1) _)
  · refine (broadcastTo_apply _ h6 _ (ix4 p q (0 : Fin 1) (1 : Fin 2)) (fin4 rfl rfl rfl rfl)).trans ?_
    refine (concatenate_pair_apply_right (t := S19x76x1x2) (s₁ := S19x76x1x1) (s₂ := S19x76x1x1) 3 _ _ h5
      (ix4 p q (0 : Fin 1) (1 : Fin 2)) rfl rfl (ix4 p q (0 : Fin 1) (0 : Fin 1))
      (fin4 (fun _ => rfl) (fun _ => rfl) (fun _ => rfl) fun hne => absurd rfl hne) rfl).trans ?_
    exact (broadcastTo_apply _ h4 _ (ix4 p (0 : Fin 1) (0 : Fin 1) (0 : Fin 1)) (fin4 rfl rfl rfl rfl)).trans
      (congrFun (shapeCast_self w h3) _)

theorem pxy0_apply : pxy i x0 (ix4 p q a (0 : Fin 2)) = pX (fun k => x0 (ix5 (0 : Fin 1) p q a k)) q.val := by
  unfold pxy k0_pay9 k0_pay3
  dsimp only
  show decodeC _ _ = _
  rw [ch_apply p q a x0 0 _ (0 : Fin 2) (0 : Fin 85) rfl, (gridPair_apply p q a _ _ _ _ _ _ _ _).1, colOff_apply]
  rfl

theorem pxy1_apply :
    pxy i x0 (ix4 p q a (1 : Fin 2)) = pY (fun k => x0 (ix5 (0 : Fin 1) p q a k)) (19 * (i 1).val + p.val) := by
  unfold pxy k0_pay9 k0_pay3
  dsimp only
  show decodeC _ _ = _
  rw [ch_apply p q a x0 0 _ (1 : Fin 2) (1 : Fin 85) rfl, (gridPair_apply p q a _ _ _ _ _ _ _ _).2,
    rowOff_apply p (i 1).val (i 1).isLt]
  rfl

theorem pay13_apply : k0_pay13 (pxy i x0) (ix3 p q a) = pX (fun k => x0 (ix5 (0 : Fin 1) p q a k)) q.val := by
  unfold k0_pay13
  exact (chan_apply 0 _ _ _ p q a (0 : Fin 2) rfl).trans (pxy0_apply i x0 p q a)

theorem pay14_apply :
    k0_pay14 (pxy i x0) (ix3 p q a) = pY (fun k => x0 (ix5 (0 : Fin 1) p q a k)) (19 * (i 1).val + p.val) := by
  unfold k0_pay14
  exact (chan_apply 1 _ _ _ p q a (1 : Fin 2) rfl).trans (pxy1_apply i x0 p q a)

section Anchor
include hx3

/-- A decoded size is the exponential of its channel times the anchor's extent. -/
theorem pay11_apply (d : Fin 2) (k : Fin 85) (hk : k.val = 2 + d.val) :
    k0_pay11 (dwh x0) (anc x3) (ix4 p q a d) = decodeS (x0 (ix5 (0 : Fin 1) p q a k)) (anchor a d) := by
  unfold k0_pay11
  rw [mulf_apply, anc_apply, hx3, ← dwh_apply x0 p q a d k hk]
  rfl

theorem pw_apply : pw x0 x3 (ix3 p q a) = pW (fun k => x0 (ix5 (0 : Fin 1) p q a k)) a := by
  unfold pw k0_pay15
  exact (chan_apply 0 _ _ _ p q a (0 : Fin 2) rfl).trans (pay11_apply x0 x3 hx3 p q a 0 2 rfl)

theorem ph_apply : ph x0 x3 (ix3 p q a) = pH (fun k => x0 (ix5 (0 : Fin 1) p q a k)) a := by
  unfold ph k0_pay16
  exact (chan_apply 1 _ _ _ p q a (1 : Fin 2) rfl).trans (pay11_apply x0 x3 hx3 p q a 1 3 rfl)

theorem px1_apply :
    px1 i x0 x3 (ix3 p q a)
      = lo (pX (fun k => x0 (ix5 (0 : Fin 1) p q a k)) q.val)
          (pW (fun k => x0 (ix5 (0 : Fin 1) p q a k)) a) :=
  congrArg₂ lo (pay13_apply i x0 p q a) (pw_apply x0 x3 hx3 p q a)

theorem px2_apply :
    px2 i x0 x3 (ix3 p q a)
      = hi (pX (fun k => x0 (ix5 (0 : Fin 1) p q a k)) q.val)
          (pW (fun k => x0 (ix5 (0 : Fin 1) p q a k)) a) :=
  congrArg₂ hi (pay13_apply i x0 p q a) (pw_apply x0 x3 hx3 p q a)

theorem py1_apply :
    py1 i x0 x3 (ix3 p q a)
      = lo (pY (fun k => x0 (ix5 (0 : Fin 1) p q a k)) (19 * (i 1).val + p.val))
          (pH (fun k => x0 (ix5 (0 : Fin 1) p q a k)) a) :=
  congrArg₂ lo (pay14_apply i x0 p q a) (ph_apply x0 x3 hx3 p q a)

theorem py2_apply :
    py2 i x0 x3 (ix3 p q a)
      = hi (pY (fun k => x0 (ix5 (0 : Fin 1) p q a k)) (19 * (i 1).val + p.val))
          (pH (fun k => x0 (ix5 (0 : Fin 1) p q a k)) a) :=
  congrArg₂ hi (pay14_apply i x0 p q a) (ph_apply x0 x3 hx3 p q a)

end Anchor

end Cert.KernelIdeal.HV

end
-- ==== Proof.KI.ValGiou.lean ====
import proofs.«103457_j67783173865496_1_alg».proof.Proof.KI.ValDecode
import proofs.«103457_j67783173865496_1_alg».proof.Proof.KI.ValSum

noncomputable section

namespace Cert.KernelIdeal.HV

open Cert.KernelIdeal Cert.KernelIdeal.Gen Idealize.ShloMosaic Idealize.ShloMosaic.ValueIdx Cert.Yolo
open scoped BigOperators

/-- A cell's GIoU term from two boxes' sizes and edges, the flag `fl` and the x overlap `ox` before its cut at zero. -/
def giouEdges (w h fl lw lh x1 x2 y1 y2 u1 u2 v1 v2 ox : EReal) : EReal :=
  let z := Ideal.ofBits .f32 0x00000000#32
  let n := max ox z * max (min y2 v2 - max y1 v1) z
  let u := w * h + lw * lh - n
  let e := max (max x2 u2 - min x1 u1) z * max (max y2 v2 - min y1 v1) z
  fl * (lit 0x40000000#32 - Ideal.div (lw * lh) (lit 0x48B48000#32))
    * (lit 0x3F800000#32 - (Ideal.div n u - Ideal.div (e - u) e))

theorem ovx_apply (i : grid0.Coords) (x0 x1 : Vec Ideal S1x19x76x3x85 .f32) (x3 : Vec Ideal S3x2 .f32) (j : S19x76x3.Idx) :
    ovx i x0 x1 x3 j = min (px2 i x0 x3 j) (lx2 x1 j) - max (px1 i x0 x3 j) (lx1 x1 j) := rfl

/-- At edges centre ∓ size · ½ this is the specification's GIoU term. -/
theorem giouEdges_eq (cvc lbc : Fin 85 → EReal) (gi gj : ℕ) (a : Fin 3) :
    giouEdges (pW cvc a) (pH cvc a) (lbc 4) (lbc 2) (lbc 3)
        (lo (pX cvc gj) (pW cvc a)) (hi (pX cvc gj) (pW cvc a)) (lo (pY cvc gi) (pH cvc a)) (hi (pY cvc gi) (pH cvc a))
        (lo (lbc 0) (lbc 2)) (hi (lbc 0) (lbc 2)) (lo (lbc 1) (lbc 3)) (hi (lbc 1) (lbc 3))
        (min (hi (pX cvc gj) (pW cvc a)) (hi (lbc 0) (lbc 2)) - max (lo (pX cvc gj) (pW cvc a)) (lo (lbc 0) (lbc 2)))
      = giouCell cvc lbc gi gj a := by
  unfold giouEdges giouCell giou iou encl union inter ovl hull
  rw [Ideal.ofBits_zero_f32]

/-- The GIoU total is the sum of the cells' GIoU terms. -/
theorem giouSum_eq (i : grid0.Coords) (x0 x1 : Vec Ideal S1x19x76x3x85 .f32) (x3 : Vec Ideal S3x2 .f32)
    (hx3 : ∀ (a : Fin 3) (d : Fin 2), x3 (ix2 a d) = anchor a d) :
    giouSum (F := Ideal) i x0 x1 x3
      = ∑ p : Fin 19, ∑ q : Fin 76, ∑ a : Fin 3,
          giouCell (fun k => x0 (ix5 (0 : Fin 1) p q a k)) (fun k => x1 (ix5 (0 : Fin 1) p q a k))
            (19 * (i 1).val + p.val) q.val a := by
  unfold giouSum k0_pay35
  refine (sum3_chain _).trans ?_
  refine Finset.sum_congr rfl fun p _ => Finset.sum_congr rfl fun q _ => Finset.sum_congr rfl fun a _ => ?_
  show giouEdges _ _ _ _ _ _ _ _ _ _ _ _ _ _ = _
  rw [ovx_apply, pw_apply x0 x3 hx3, ph_apply x0 x3 hx3, flag3_apply, lw_apply, lh_apply,
    px1_apply i x0 x3 hx3, px2_apply i x0 x3 hx3, py1_apply i x0 x3 hx3, py2_apply i x0 x3 hx3,
    lx1_apply, lx2_apply, ly1_apply, ly2_apply]
  exact giouEdges_eq (fun k => x0 (ix5 (0 : Fin 1) p q a k)) (fun k => x1 (ix5 (0 : Fin 1) p q a k)) _ _ a

end Cert.KernelIdeal.HV

end
-- ==== Proof.KI.ValConfLay.lean ====
import proofs.«103457_j67783173865496_1_alg».proof.Proof.KI.Body
import Idealize.ShloMosaic.Lib.ValueLayout
import Idealize.ShloMosaic.PureOps.Ideal.Laws

noncomputable section

namespace Cert.KernelIdeal.HV

open Cert.KernelIdeal Cert.KernelIdeal.Gen Idealize.ShloMosaic Idealize.ShloMosaic.ValueIdx

variable {α : Type}

theorem vcf_cast_pqa1 (v : S19x76x3.Idx → α) (h : S19x76x3.ShapeCasts S19x76x3x1) (p : Fin 19) (q : Fin 76) (a : Fin 3)
    (u : Fin 1) : shapeCast S19x76x3x1 v h (ix4 p q a u) = v (ix3 p q a) :=
  shapeCast_apply v h _ _ (by
    rw [Shape.rowMajor_val_three, Shape.rowMajor_val_four]
    show (p.val * 76 + q.val) * 3 + a.val = ((p.val * 76 + q.val) * 3 + a.val) * 1 + u.val
    omega)

theorem vcf_cast_111n (x : S150.Idx → α) (h : S150.ShapeCasts S1x1x1x150) (u v w : Fin 1) (n : Fin 150) :
    shapeCast S1x1x1x150 x h (ix4 u v w n) = x (ix1 n) :=
  shapeCast_apply x h _ _ (by
    rw [Shape.rowMajor_val_one, Shape.rowMajor_val_four]
    show n.val = ((u.val * 1 + v.val) * 1 + w.val) * 150 + n.val
    omega)

theorem vcf_bcast_pqa (x : S19x76x3x1.Idx → α) (h : S19x76x3x1.Broadcasts S19x76x3x150) (p : Fin 19) (q : Fin 76)
    (a : Fin 3) (n : Fin 150) : broadcastTo S19x76x3x150 x h (ix4 p q a n) = x (ix4 p q a (0 : Fin 1)) := by
  refine broadcastTo_apply x h (ix4 p q a n) (ix4 p q a (0 : Fin 1)) fun ax => ?_
  match ax with
  | ⟨0, _⟩ => rfl
  | ⟨1, _⟩ => rfl
  | ⟨2, _⟩ => rfl
  | ⟨3, _⟩ => rfl

theorem vcf_bcast_n (x : S1x1x1x150.Idx → α) (h : S1x1x1x150.Broadcasts S19x76x3x150) (p : Fin 19) (q : Fin 76)
    (a : Fin 3) (n : Fin 150) :
    broadcastTo S19x76x3x150 x h (ix4 p q a n) = x (ix4 (0 : Fin 1) (0 : Fin 1) (0 : Fin 1) n) := by
  refine broadcastTo_apply x h (ix4 p q a n) (ix4 (0 : Fin 1) (0 : Fin 1) (0 : Fin 1) n) fun ax => ?_
  match ax with
  | ⟨0, _⟩ => rfl
  | ⟨1, _⟩ => rfl
  | ⟨2, _⟩ => rfl
  | ⟨3, _⟩ => rfl

theorem vcf_cast_n1_n (x : S150x1.Idx → α) (h : S150x1.ShapeCasts S150) (n : Fin 150) :
    shapeCast S150 x h (ix1 n) = x (ix2 n (0 : Fin 1)) :=
  shapeCast_apply x h _ _ (by
    rw [Shape.rowMajor_val_one, Shape.rowMajor_val_two]
    show n.val * 1 + 0 = n.val
    omega)

end Cert.KernelIdeal.HV

end
-- ==== Proof.KI.ValConfIou.lean ====
import proofs.«103457_j67783173865496_1_alg».proof.Proof.KI.ValConfLay
import proofs.«103457_j67783173865496_1_alg».proof.Proof.Spec

noncomputable section

namespace Cert.KernelIdeal.HV

open Cert.KernelIdeal Cert.KernelIdeal.Gen Idealize.ShloMosaic Idealize.ShloMosaic.ValueIdx

variable {α : Type}

-- The maximum over the last axis is a fold of max over its 150 coordinates.
theorem vcf_max_last (v : FVec Ideal S19x76x3x150 .f32) (h : S19x76x3x150.Reduces [3] S19x76x3) (hφ : FKind.Formats .f32)
    (hacc : (0xFF800000#32 : BitVec 32) = FKind.maximumf.neutral .f32 hφ) (p : Fin 19) (q : Fin 76) (a : Fin 3) :
    multiReduction .maximumf [3] S19x76x3 v 0xFF800000#32 h hφ hacc (ix3 p q a)
      = (Finset.univ : Finset (Fin 150)).fold max (Ideal.ofBits .f32 0xFF800000#32) fun n => v (ix4 p q a n) := by
  refine (Ideal.multiReduction_maximumf_single v _ h hφ hacc (ix3 p q a)).trans
    (congrArg (Finset.univ.fold max _) (funext fun n => congrArg v (funext fun ax => Fin.ext ?_)))
  match ax with
  | ⟨0, _⟩ => rfl
  | ⟨1, _⟩ => rfl
  | ⟨2, _⟩ => rfl
  | ⟨3, _⟩ => rfl

theorem vcf_scalar_ofBits (w : BitVec 32) : Scalar.ofBits (F := Ideal) .f32 w = Ideal.ofBits .f32 w := rfl

-- Each cell's overlap ratio with the 150 boxes, intersection / (area + area − intersection), maximised over the boxes.
theorem vcf_pay40_apply (v63 v66 v69 v72 v96 : FVec Ideal S19x76x3 .f32) (v131 v133 v135 v137 : FVec Ideal S150 .f32)
    (p : Fin 19) (q : Fin 76) (a : Fin 3) :
    k0_pay40 v63 v66 v69 v72 v96 v131 v133 v135 v137 (ix4 p q a (0 : Fin 1))
      = (Finset.univ : Finset (Fin 150)).fold max (Cert.Yolo.lit 0xFF800000#32) fun n =>
          Ideal.div
            (Cert.Yolo.ovl (v63 (ix3 p q a)) (v66 (ix3 p q a)) (Cert.Yolo.lo (v131 (ix1 n)) (v135 (ix1 n))) (Cert.Yolo.hi (v131 (ix1 n)) (v135 (ix1 n)))
              * Cert.Yolo.ovl (v69 (ix3 p q a)) (v72 (ix3 p q a)) (Cert.Yolo.lo (v133 (ix1 n)) (v137 (ix1 n))) (Cert.Yolo.hi (v133 (ix1 n)) (v137 (ix1 n))))
            (v96 (ix3 p q a) + v135 (ix1 n) * v137 (ix1 n)
              - Cert.Yolo.ovl (v63 (ix3 p q a)) (v66 (ix3 p q a)) (Cert.Yolo.lo (v131 (ix1 n)) (v135 (ix1 n))) (Cert.Yolo.hi (v131 (ix1 n)) (v135 (ix1 n)))
                * Cert.Yolo.ovl (v69 (ix3 p q a)) (v72 (ix3 p q a)) (Cert.Yolo.lo (v133 (ix1 n)) (v137 (ix1 n))) (Cert.Yolo.hi (v133 (ix1 n)) (v137 (ix1 n)))) := by
  unfold k0_pay40
  dsimp only
  refine (vcf_cast_pqa1 _ _ p q a 0).trans ?_
  refine (vcf_max_last _ _ _ _ p q a).trans ?_
  refine congrArg (fun f => (Finset.univ : Finset (Fin 150)).fold max (Ideal.ofBits .f32 0xFF800000#32) f) ?_
  funext n
  simp only [divf_apply, mulf_apply, subf_apply, addf_apply, maximumf_apply, minimumf_apply, broadcast_apply,
    vcf_bcast_pqa, vcf_bcast_n, vcf_cast_pqa1, vcf_cast_111n, vcf_scalar_ofBits, Ideal.ofBits_zero_f32]
  rfl

theorem vcf_col (d : Fin 4) (v8 : S150x4.Idx → α) (h : S150x4.Slices ![0, d.val] S150x1) (h' : S150x1.ShapeCasts S150)
    (n : Fin 150) : shapeCast S150 (extractStridedSlice S150x1 ![0, d.val] v8 h) h' (ix1 n) = v8 (ix2 n d) :=
  (vcf_cast_n1_n _ h' n).trans (slice2_axis1_apply d.val v8 h n 0 d rfl)

theorem vcf_gtb_apply (x2 : Vec Ideal S1x150x4 .f32) (n : Fin 150) (d : Fin 4) :
    gtb (F := Ideal) x2 (ix2 n d) = x2 (ix3 (0 : Fin 1) n d) :=
  shapeCast_1ab_ab_apply x2 _ n d

theorem vcf_pay36_apply (v8 : FVec Ideal S150x4 .f32) (n : Fin 150) : k0_pay36 v8 (ix1 n) = v8 (ix2 n (0 : Fin 4)) :=
  vcf_col (0 : Fin 4) v8 _ _ n
theorem vcf_pay37_apply (v8 : FVec Ideal S150x4 .f32) (n : Fin 150) : k0_pay37 v8 (ix1 n) = v8 (ix2 n (1 : Fin 4)) :=
  vcf_col (1 : Fin 4) v8 _ _ n
theorem vcf_pay38_apply (v8 : FVec Ideal S150x4 .f32) (n : Fin 150) : k0_pay38 v8 (ix1 n) = v8 (ix2 n (2 : Fin 4)) :=
  vcf_col (2 : Fin 4) v8 _ _ n
theorem vcf_pay39_apply (v8 : FVec Ideal S150x4 .f32) (n : Fin 150) : k0_pay39 v8 (ix1 n) = v8 (ix2 n (3 : Fin 4)) :=
  vcf_col (3 : Fin 4) v8 _ _ n

theorem vcf_pay34_apply (v45 v47 : FVec Ideal S19x76x3 .f32) (j : S19x76x3.Idx) : k0_pay34 v45 v47 j = v45 j * v47 j :=
  mulf_apply _ _ _

end Cert.KernelIdeal.HV

end
-- ==== Proof.KI.ValConfCell.lean ====
import proofs.«103457_j67783173865496_1_alg».proof.Proof.KI.Body
import proofs.«103457_j67783173865496_1_alg».proof.Proof.KI.ValSum
import proofs.«103457_j67783173865496_1_alg».proof.Proof.Spec
import Idealize.ShloMosaic.Lib.ValueIdx
import Idealize.ShloMosaic.PureOps.Ideal.Laws

noncomputable section

namespace Cert.KernelIdeal.HV

open Cert.KernelIdeal Cert.KernelIdeal.Gen Idealize.ShloMosaic Idealize.ShloMosaic.ValueIdx
open scoped BigOperators

variable {s : Shape}

theorem vcf_absf_apply (x : FVec Ideal s .f32) (j : s.Idx) : absf x j = max (x j) (-(x j)) := rfl
theorem vcf_exp_apply (x : FVec Ideal s .f32) (j : s.Idx) : exp x j = Ideal.exp (x j) := rfl
theorem vcf_log1p_apply (x : FVec Ideal s .f32) (j : s.Idx) : log1p x j = Ideal.log1p (x j) := rfl

-- The bit of m < c, widened and converted, is the 0/1 indicator.
theorem vcf_ind (m c : EReal) :
    FloatOps.sitofp (F := Ideal) .f32 ((FloatOps.cmpf (F := Ideal) (φ := .f32) .olt m c).setWidth 32) = Cert.Yolo.ind (m < c) := by
  unfold Cert.Yolo.ind
  show ((((Ideal.cmp .olt m c).setWidth 32).toInt : ℝ) : EReal) = _
  by_cases h : m < c <;> simp [Ideal.cmp, h]

-- One cell's objectness term from the logit x, its logistic s, the flag f, the best overlap m, g = 1 − f and the threshold c.
def vcfCell (x s f m g c : EReal) : EReal :=
  (f - s) * (f - s) * (max x 0 - x * f + Ideal.log1p (Ideal.exp (-(max x (-x))))) * (f + g * Cert.Yolo.ind (m < c))

theorem vcf_pay44_apply (v12 v39 v51 v186 v188 : FVec Ideal S19x76x3x1 .f32) (c : Ideal .f32) :
    k0_pay44 v12 v39 v51 v186 v188 c (ix1 (0 : Fin 1))
      = ∑ p : Fin 19, ∑ q : Fin 76, ∑ a : Fin 3,
          vcfCell (v12 (ix4 p q a (0 : Fin 1))) (v39 (ix4 p q a (0 : Fin 1))) (v51 (ix4 p q a (0 : Fin 1)))
            (v186 (ix4 p q a (0 : Fin 1))) (v188 (ix4 p q a (0 : Fin 1))) c := by
  unfold k0_pay44
  dsimp only
  refine (broadcast_apply _ _).trans ?_
  refine (sum3_chain _).trans ?_
  refine Finset.sum_congr rfl fun p _ => Finset.sum_congr rfl fun q _ => Finset.sum_congr rfl fun a _ => ?_
  refine (sum_last1 _ p q a).trans ?_
  simp only [mulf_apply, addf_apply, subf_apply, maximumf_apply, broadcast_apply, vcf_absf_apply, vcf_exp_apply,
    vcf_log1p_apply, cmpf_apply, extui_apply, sitofp_apply, vcf_ind, Ideal.ofBits_def, Ideal.ofBits_zero_f32, zero_sub]
  rfl

theorem vcf_pay12_apply (v12 : FVec Ideal S19x76x3x1 .f32) (j : S19x76x3x1.Idx) : k0_pay12 v12 j = Ideal.logistic (v12 j) := rfl

theorem vcf_pay41_apply (v51 : FVec Ideal S19x76x3x1 .f32) (j : S19x76x3x1.Idx) :
    k0_pay41 v51 j = Cert.Yolo.lit 0x3F800000#32 - v51 j := rfl

end Cert.KernelIdeal.HV

end
-- ==== Proof.KI.ValConf.lean ====
import proofs.«103457_j67783173865496_1_alg».proof.Proof.KI.ValDecode
import proofs.«103457_j67783173865496_1_alg».proof.Proof.KI.ValConfIou
import proofs.«103457_j67783173865496_1_alg».proof.Proof.KI.ValConfCell

noncomputable section

namespace Cert.KernelIdeal.HV

open Cert.KernelIdeal Cert.KernelIdeal.Gen Idealize.ShloMosaic Idealize.ShloMosaic.ValueIdx
open scoped BigOperators

-- Each cell's best overlap ratio against the image's 150 boxes.
theorem maxIouV_apply (i : grid0.Coords) (x0 : Vec Ideal S1x19x76x3x85 .f32) (x2 : Vec Ideal S1x150x4 .f32)
    (x3 : Vec Ideal S3x2 .f32) (hx3 : ∀ (a : Fin 3) (d : Fin 2), x3 (ix2 a d) = Cert.Yolo.anchor a d)
    (p : Fin 19) (q : Fin 76) (a : Fin 3) :
    maxIouV (F := Ideal) i x0 x2 x3 (ix4 p q a (0 : Fin 1))
      = Cert.Yolo.maxIouCell (fun k => x0 (ix5 (0 : Fin 1) p q a k)) (fun n d => x2 (ix3 (0 : Fin 1) n d))
          (19 * (i 1).val + p.val) q.val a := by
  unfold maxIouV
  refine (vcf_pay40_apply _ _ _ _ _ _ _ _ _ p q a).trans ?_
  unfold Cert.Yolo.maxIouCell
  refine congrArg (fun f => (Finset.univ : Finset (Fin 150)).fold max (Cert.Yolo.lit 0xFF800000#32) f) (funext fun n => ?_)
  rw [px1_apply i x0 x3 hx3 p q a, px2_apply i x0 x3 hx3 p q a, py1_apply i x0 x3 hx3 p q a, py2_apply i x0 x3 hx3 p q a,
    vcf_pay34_apply, pw_apply x0 x3 hx3 p q a, ph_apply x0 x3 hx3 p q a,
    vcf_pay36_apply, vcf_pay37_apply, vcf_pay38_apply, vcf_pay39_apply,
    vcf_gtb_apply, vcf_gtb_apply, vcf_gtb_apply, vcf_gtb_apply]
  rfl

-- The band's objectness sum is the sum over its cells of the cell term.
theorem confSum_eq (i : grid0.Coords) (x0 x1 : Vec Ideal S1x19x76x3x85 .f32) (x2 : Vec Ideal S1x150x4 .f32)
    (x3 : Vec Ideal S3x2 .f32) (hx3 : ∀ (a : Fin 3) (d : Fin 2), x3 (ix2 a d) = Cert.Yolo.anchor a d) :
    confSum (F := Ideal) i x0 x1 x2 x3 (ix1 (0 : Fin 1))
      = ∑ p : Fin 19, ∑ q : Fin 76, ∑ a : Fin 3,
          Cert.Yolo.confKCell (fun k => x0 (ix5 (0 : Fin 1) p q a k)) (fun k => x1 (ix5 (0 : Fin 1) p q a k))
            (fun n d => x2 (ix3 (0 : Fin 1) n d)) (19 * (i 1).val + p.val) q.val a := by
  unfold confSum
  refine (vcf_pay44_apply _ _ _ _ _ _).trans ?_
  refine Finset.sum_congr rfl fun p _ => Finset.sum_congr rfl fun q _ => Finset.sum_congr rfl fun a _ => ?_
  rw [vcf_pay12_apply, vcf_pay41_apply, rawc_apply x0 p q a, flag4_apply x1 p q a, maxIouV_apply i x0 x2 x3 hx3 p q a]
  rfl

end Cert.KernelIdeal.HV

end
-- ==== Proof.KI.ValAcc.lean ====
import proofs.«103457_j67783173865496_1_alg».proof.Proof.KI.ValPiece
import proofs.«103457_j67783173865496_1_alg».proof.Proof.KI.ValBlocks
import proofs.«103457_j67783173865496_1_alg».proof.Proof.KI.ValOut
import proofs.«103457_j67783173865496_1_alg».proof.Proof.KI.ValProb
import proofs.«103457_j67783173865496_1_alg».proof.Proof.KI.ValGiou
import proofs.«103457_j67783173865496_1_alg».proof.Proof.KI.ValConf

noncomputable section

namespace Cert.KernelIdeal.HV

open Idealize.ShloMosaic Idealize.ShloMosaic.TcCoe Idealize.SL.Sem Idealize.ShloMosaic.ValueIdx
open Cert.KernelIdeal Cert.KernelIdeal.Gen
open scoped BigOperators

variable (m : (ℓ : Loc nD τ sig) → Buf (Elt Ideal) ℓ)

abbrev B0 (c : Dev nD) (t : Fin cfg0.N) : Vec Ideal S1x19x76x3x85 .f32 := HF.iblk m c 0 t
abbrev B1 (c : Dev nD) (t : Fin cfg0.N) : Vec Ideal S1x19x76x3x85 .f32 := HF.iblk m c 1 t
abbrev B2 (c : Dev nD) (t : Fin cfg0.N) : Vec Ideal S1x150x4 .f32 := HF.iblk m c 2 t
abbrev B3 (c : Dev nD) (t : Fin cfg0.N) : Vec Ideal S3x2 .f32 := HF.iblk m c 3 t

abbrev A0 (c : Dev nD) : (⟨4, ![16, 76, 76, 255]⟩ : Shape).Idx → EReal := m ((c.tc : Thread nD τ).loc main_arg0)
abbrev A1 (c : Dev nD) : (⟨5, ![16, 76, 76, 3, 85]⟩ : Shape).Idx → EReal := m ((c.tc : Thread nD τ).loc main_arg1)
abbrev A2 (c : Dev nD) : (⟨3, ![16, 150, 4]⟩ : Shape).Idx → EReal := m ((c.tc : Thread nD τ).loc main_arg2)

theorem outsAt_congr (c : Dev nD) {n n' : ℕ} (e : n = n') (h : n < cfg0.N) (h' : n' < cfg0.N) :
    HF.outsAt0 m c n h = HF.outsAt0 m c n' h' := by
  subst e; rfl

section Band

variable (a0 : (⟨4, ![16, 76, 76, 255]⟩ : Shape).Idx → EReal) (a1 : (⟨5, ![16, 76, 76, 3, 85]⟩ : Shape).Idx → EReal)
  (a2 : (⟨3, ![16, 150, 4]⟩ : Shape).Idx → EReal)

-- What band r of image b adds to lane l: its three sums at lanes 0, 1, 2 and zero elsewhere.
def bandLane (b : Fin 16) (r : Fin 4) (l : Fin 128) : EReal :=
  if l.val = 0 then ∑ p : Fin 19, ∑ q : Fin 76, ∑ a : Fin 3,
      Cert.Yolo.giouT (Cert.Yolo.conv5 a0) (Cert.Yolo.arr5 a1) b (Cert.Yolo.rowOf r p) q a
  else if l.val = 1 then ∑ p : Fin 19, ∑ q : Fin 76, ∑ a : Fin 3,
      Cert.Yolo.confK (Cert.Yolo.conv5 a0) (Cert.Yolo.arr5 a1) (Cert.Yolo.arr3 a2) b (Cert.Yolo.rowOf r p) q a
  else if l.val = 2 then ∑ p : Fin 19, ∑ q : Fin 76, ∑ a : Fin 3, ∑ c : Fin 80,
      Cert.Yolo.probT (Cert.Yolo.conv5 a0) (Cert.Yolo.arr5 a1) b (Cert.Yolo.rowOf r p) q a c
  else 0

theorem laneTotal_eq_bands (b : Fin 16) (l : Fin 128) :
    Cert.Yolo.laneTotal a0 a1 a2 b l = ∑ r : Fin 4, bandLane a0 a1 a2 b r l := by
  unfold Cert.Yolo.laneTotal bandLane
  simp only [Finset.sum_ite_irrel, Finset.sum_const_zero]

end Band

section AtPoint

variable (c : Dev nD) (t : Fin cfg0.N) (b : Fin 16) (r : Fin 4) (ht : t.val = 4 * b.val + r.val)

include ht

theorem band_coord : ((grid0.coords t) 1).val = r.val := by
  have hr := r.isLt
  rw [coord1_of t, ht]; omega

theorem giou_band : giouSum (F := Ideal) (grid0.coords t) (B0 m c t) (B1 m c t) (B3 m c t)
    = ∑ p : Fin 19, ∑ q : Fin 76, ∑ a : Fin 3,
        Cert.Yolo.giouT (Cert.Yolo.conv5 (A0 m c)) (Cert.Yolo.arr5 (A1 m c)) b (Cert.Yolo.rowOf r p) q a := by
  refine (giouSum_eq _ _ _ _ (iblk3_apply m c t)).trans ?_
  simp only [iblk0_apply m c t b r ht, iblk1_apply m c t b r ht, band_coord t b r ht]
  rfl

theorem conf_band : confSum (F := Ideal) (grid0.coords t) (B0 m c t) (B1 m c t) (B2 m c t) (B3 m c t) (ix1 (0 : Fin 1))
    = ∑ p : Fin 19, ∑ q : Fin 76, ∑ a : Fin 3,
        Cert.Yolo.confK (Cert.Yolo.conv5 (A0 m c)) (Cert.Yolo.arr5 (A1 m c)) (Cert.Yolo.arr3 (A2 m c)) b (Cert.Yolo.rowOf r p) q a := by
  refine (confSum_eq _ _ _ _ _ (iblk3_apply m c t)).trans ?_
  simp only [iblk0_apply m c t b r ht, iblk1_apply m c t b r ht, iblk2_apply m c t b r ht, band_coord t b r ht]
  rfl

theorem prob_band : probSum (F := Ideal) (B0 m c t) (B1 m c t)
    = ∑ p : Fin 19, ∑ q : Fin 76, ∑ a : Fin 3, ∑ cl : Fin 80,
        Cert.Yolo.probT (Cert.Yolo.conv5 (A0 m c)) (Cert.Yolo.arr5 (A1 m c)) b (Cert.Yolo.rowOf r p) q a cl := by
  refine (probSum_eq _ _).trans ?_
  simp only [iblk0_apply m c t b r ht, iblk1_apply m c t b r ht]
  rfl

theorem bodyOut_band (acc : Vec Ideal S1x1x128 .f32) (l : Fin 128) :
    bodyOut (F := Ideal) (grid0.coords t) (B0 m c t) (B1 m c t) (B2 m c t) (B3 m c t) acc (ix3 (0 : Fin 1) (0 : Fin 1) l)
      = acc (ix3 (0 : Fin 1) (0 : Fin 1) l) + bandLane (A0 m c) (A1 m c) (A2 m c) b r l := by
  rw [bodyOut_lane, giou_band m c t b r ht, conf_band m c t b r ht, prob_band m c t b r ht]
  rfl

theorem lane_first (hr : r.val = 0) (l : Fin 128) :
    HF.outsAt0 m c t.val t.isLt (ix3 (0 : Fin 1) (0 : Fin 1) l) = bandLane (A0 m c) (A1 m c) (A2 m c) b r l := by
  rw [(HF.outsAt0_A m c t (by rw [ht, hr]; omega)).trans (out_A ..), bodyOut_band m c t b r ht, zeros_lane, zero_add]

theorem lane_next (hr : r.val ≠ 0) (l : Fin 128) {n : ℕ} (hn : t.val = n + 1) (h' : n < cfg0.N) :
    HF.outsAt0 m c t.val t.isLt (ix3 (0 : Fin 1) (0 : Fin 1) l)
      = HF.outsAt0 m c n h' (ix3 (0 : Fin 1) (0 : Fin 1) l) + bandLane (A0 m c) (A1 m c) (A2 m c) b r l := by
  have hr4 := r.isLt
  rw [(HF.outsAt0_B m c t (by rw [ht]; omega)).trans (out_B ..), bodyOut_band m c t b r ht, outsAt_congr m c (by omega : t.val - 1 = n) _ h']

end AtPoint

-- Four bands accumulate 0 + s₀ + s₁ + s₂ + s₃, the image's lane total.
theorem outsAt_last (c : Dev nD) (b : Fin 16) (l : Fin 128) (h : 4 * b.val + 3 < cfg0.N) :
    HF.outsAt0 m c (4 * b.val + 3) h (ix3 (0 : Fin 1) (0 : Fin 1) l)
      = Cert.Yolo.laneTotal (m ((c.tc : Thread nD τ).loc main_arg0)) (m ((c.tc : Thread nD τ).loc main_arg1))
          (m ((c.tc : Thread nD τ).loc main_arg2)) b l := by
  have h2 : 4 * b.val + 2 < cfg0.N := by omega
  have h1 : 4 * b.val + 1 < cfg0.N := by omega
  have h0 : 4 * b.val < cfg0.N := by omega
  have e3 := lane_next m c ⟨4 * b.val + 3, h⟩ b 3 rfl (by decide) l rfl h2
  have e2 := lane_next m c ⟨4 * b.val + 2, h2⟩ b 2 rfl (by decide) l rfl h1
  have e1 := lane_next m c ⟨4 * b.val + 1, h1⟩ b 1 rfl (by decide) l rfl h0
  have e0 := lane_first m c ⟨4 * b.val, h0⟩ b 0 rfl rfl l
  dsimp only at e3 e2 e1 e0
  rw [e3, e2, e1, e0, laneTotal_eq_bands, Fin.sum_univ_four]

end Cert.KernelIdeal.HV

end
-- ==== Proof.KI.ValRun.lean ====
import proofs.«103457_j67783173865496_1_alg».proof.Proof.KI.ValArr
import proofs.«103457_j67783173865496_1_alg».proof.Proof.KI.ValAcc

noncomputable section

namespace Cert.KernelIdeal.HV

open Cert.KernelIdeal Cert.KernelIdeal.Gen
open Idealize.ShloMosaic Idealize.ShloMosaic.TcCoe Idealize.ShloMosaic.ValueIdx
open Idealize.SL.Sem

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v17)
        = Cert.Yolo.kOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v17 (Pipeline.mem_restRefs_of main_v17 (by decide) (by decide))).trans
        ((tail_result m c).trans ((congrArg tail (arr_last m c fun b l h => outsAt_last m c b l h)).trans (tail_outArr m c))),
      ((h c).2 main_arg0 (Pipeline.mem_restRefs_of main_arg0 (by decide) (by decide))).trans (HF.W_main_arg0 m (HF.dats m) c),
      ((h c).1 1).trans (((HF.dats m 0 c).arrAt_in 1 rfl _).trans ((HF.A_eq m c 1).trans (HF.V_main_arg1 m c))),
      ((h c).1 2).trans (((HF.dats m 0 c).arrAt_in 2 rfl _).trans ((HF.A_eq m c 2).trans (HF.V_main_arg2 m c)))⟩)
    (HF.run_main m ρ)

end Cert.KernelIdeal.HV

end
-- ==== Proof.Ref.Stages.lean ====
import proofs.«103457_j67783173865496_1_alg».proof.Proof.Gen.ReferenceIdeal

noncomputable section

namespace Cert.ReferenceIdeal.HR

open Idealize.ShloMosaic Idealize.SL.Sem Cert.ReferenceIdeal Cert.ReferenceIdeal.Gen

variable {F : FTy → Type} [FloatOps F]

abbrev Ten (F : FTy → Type) (S : Shape) (e : EltTy) : Type := (⟨S, e⟩ : BufTy).Contents (Elt F)

abbrev A0 (F : FTy → Type) : Type := Ten F S16x76x76x255 .f32

abbrev A1 (F : FTy → Type) : Type := Ten F S16x76x76x3x85 .f32

abbrev A2 (F : FTy → Type) : Type := Ten F S16x150x4 .f32

def res_cst (a0 : A0 F) (a1 : A1 F) (a2 : A2 F) : Ten F S3x2 .f32 :=
  fun i => FloatOps.ofBits .f32 (lit0 (S3x2.rowMajor i))

def res_v0 (a0 : A0 F) (a1 : A1 F) (a2 : A2 F) : Ten F S16x76x76x3x85 .f32 :=
  shapeCast S16x76x76x3x85 a0 shapeCasts_S16x76x76x255_S16x76x76x3x85

def res_v1 (a0 : A0 F) (a1 : A1 F) (a2 : A2 F) : Ten F S16x76x76x3x2 .f32 :=
  (extractStridedSlice S16x76x76x3x2 ![0, 0, 0, 0, 0] · slices_S16x76x76x3x85_S16x76x76x3x2_0_0_0_0_0) (res_v0 a0 a1 a2)

def res_v2 (a0 : A0 F) (a1 : A1 F) (a2 : A2 F) : Ten F S16x76x76x3x2 .f32 :=
  (extractStridedSlice S16x76x76x3x2 ![0, 0, 0, 0, 2] · slices_S16x76x76x3x85_S16x76x76x3x2_0_0_0_0_2) (res_v0 a0 a1 a2)

def res_v3 (a0 : A0 F) (a1 : A1 F) (a2 : A2 F) : Ten F S16x76x76x3x1 .f32 :=
  (extractStridedSlice S16x76x76x3x1 ![0, 0, 0, 0, 4] · slices_S16x76x76x3x85_S16x76x76x3x1_0_0_0_0_4) (res_v0 a0 a1 a2)

def res_v4 (a0 : A0 F) (a1 : A1 F) (a2 : A2 F) : Ten F S16x76x76x3x80 .f32 :=
  (extractStridedSlice S16x76x76x3x80 ![0, 0, 0, 0, 5] · slices_S16x76x76x3x85_S16x76x76x3x80_0_0_0_0_5) (res_v0 a0 a1 a2)

def res_v5 (a0 : A0 F) (a1 : A1 F) (a2 : A2 F) : Ten F S76 .i32 :=
  iotaInDim S76 32 0

def res_v6 (a0 : A0 F) (a1 : A1 F) (a2 : A2 F) : Ten F S76 .i32 :=
  iotaInDim S76 32 0

def res_v7 (a0 : A0 F) (a1 : A1 F) (a2 : A2 F) : Ten F S76x76 .i32 :=
  (broadcastInDim S76x76 ![0] bcast_S76_S76x76_0) (res_v6 a0 a1 a2)

def res_v8 (a0 : A0 F) (a1 : A1 F) (a2 : A2 F) : Ten F S76x76 .i32 :=
  (broadcastInDim S76x76 ![1] bcast_S76_S76x76_1) (res_v5 a0 a1 a2)

def res_v9 (a0 : A0 F) (a1 : A1 F) (a2 : A2 F) : Ten F S76x76x1 .i32 :=
  (broadcastInDim S76x76x1 ![0, 1] bcast_S76x76_S76x76x1_0_1) (res_v8 a0 a1 a2)

def res_v10 (a0 : A0 F) (a1 : A1 F) (a2 : A2 F) : Ten F S76x76x1 .i32 :=
  (broadcastInDim S76x76x1 ![0, 1] bcast_S76x76_S76x76x1_0_1) (res_v7 a0 a1 a2)

def res_v11 (a0 : A0 F) (a1 : A1 F) (a2 : A2 F) : Ten F S76x76x2 .i32 :=
  (fun a b => concatenate S76x76x2 2 [⟨S76x76x1, a⟩, ⟨S76x76x1, b⟩] concatenates_S76x76x1_S76x76x1_S76x76x2_d2) (res_v9 a0 a1 a2) (res_v10 a0 a1 a2)

def res_v12 (a0 : A0 F) (a1 : A1 F) (a2 : A2 F) : Ten F S1x76x76x1x2 .i32 :=
  (broadcastInDim S1x76x76x1x2 ![1, 2, 4] bcast_S76x76x2_S1x76x76x1x2_1_2_4) (res_v11 a0 a1 a2)

def res_v13 (a0 : A0 F) (a1 : A1 F) (a2 : A2 F) : Ten F S1x76x76x1x2 .f32 :=
  (sitofp (F := F) .f32) (res_v12 a0 a1 a2)

def res_v14 (a0 : A0 F) (a1 : A1 F) (a2 : A2 F) : Ten F S16x76x76x3x2 .f32 :=
  Host.negf (res_v1 a0 a1 a2)

def res_v15 (a0 : A0 F) (a1 : A1 F) (a2 : A2 F) : Ten F S16x76x76x3x2 .f32 :=
  Host.exp (res_v14 a0 a1 a2)

def res_cst_0 (a0 : A0 F) (a1 : A1 F) (a2 : A2 F) : Ten F S_ .f32 :=
  constant (F := F) S_ .f32 0x3F800000#32

def res_v16 (a0 : A0 F) (a1 : A1 F) (a2 : A2 F) : Ten F S16x76x76x3x2 .f32 :=
  (broadcastInDim S16x76x76x3x2 ![] bcast_S_S16x76x76x3x2) (res_cst_0 a0 a1 a2)

def res_v17 (a0 : A0 F) (a1 : A1 F) (a2 : A2 F) : Ten F S16x76x76x3x2 .f32 :=
  addf (res_v16 a0 a1 a2) (res_v15 a0 a1 a2)

def res_cst_1 (a0 : A0 F) (a1 : A1 F) (a2 : A2 F) : Ten F S_ .f32 :=
  constant (F := F) S_ .f32 0x3F800000#32

def res_v18 (a0 : A0 F) (a1 : A1 F) (a2 : A2 F) : Ten F S16x76x76x3x2 .f32 :=
  (broadcastInDim S16x76x76x3x2 ![] bcast_S_S16x76x76x3x2) (res_cst_1 a0 a1 a2)

def res_v19 (a0 : A0 F) (a1 : A1 F) (a2 : A2 F) : Ten F S16x76x76x3x2 .f32 :=
  Host.divf (res_v18 a0 a1 a2) (res_v17 a0 a1 a2)

def res_cst_2 (a0 : A0 F) (a1 : A1 F) (a2 : A2 F) : Ten F S_ .f32 :=
  constant (F := F) S_ .f32 0x3F99999A#32

def res_v20 (a0 : A0 F) (a1 : A1 F) (a2 : A2 F) : Ten F S16x76x76x3x2 .f32 :=
  (broadcastInDim S16x76x76x3x2 ![] bcast_S_S16x76x76x3x2) (res_cst_2 a0 a1 a2)

def res_v21 (a0 : A0 F) (a1 : A1 F) (a2 : A2 F) : Ten F S16x76x76x3x2 .f32 :=
  mulf (res_v19 a0 a1 a2) (res_v20 a0 a1 a2)

def res_cst_3 (a0 : A0 F) (a1 : A1 F) (a2 : A2 F) : Ten F S_ .f32 :=
  constant (F := F) S_ .f32 0x3DCCCCCD#32

def res_v22 (a0 : A0 F) (a1 : A1 F) (a2 : A2 F) : Ten F S16x76x76x3x2 .f32 :=
  (broadcastInDim S16x76x76x3x2 ![] bcast_S_S16x76x76x3x2) (res_cst_3 a0 a1 a2)

def res_v23 (a0 : A0 F) (a1 : A1 F) (a2 : A2 F) : Ten F S16x76x76x3x2 .f32 :=
  subf (res_v21 a0 a1 a2) (res_v22 a0 a1 a2)

def res_v24 (a0 : A0 F) (a1 : A1 F) (a2 : A2 F) : Ten F S16x76x76x3x2 .f32 :=
  (broadcastInDim S16x76x76x3x2 ![0, 1, 2, 3, 4] bcast_S1x76x76x1x2_S16x76x76x3x2_0_1_2_3_4) (res_v13 a0 a1 a2)

def res_v25 (a0 : A0 F) (a1 : A1 F) (a2 : A2 F) : Ten F S16x76x76x3x2 .f32 :=
  addf (res_v23 a0 a1 a2) (res_v24 a0 a1 a2)

def res_cst_4 (a0 : A0 F) (a1 : A1 F) (a2 : A2 F) : Ten F S_ .f32 :=
  constant (F := F) S_ .f32 0x41000000#32

def res_v26 (a0 : A0 F) (a1 : A1 F) (a2 : A2 F) : Ten F S16x76x76x3x2 .f32 :=
  (broadcastInDim S16x76x76x3x2 ![] bcast_S_S16x76x76x3x2) (res_cst_4 a0 a1 a2)

def res_v27 (a0 : A0 F) (a1 : A1 F) (a2 : A2 F) : Ten F S16x76x76x3x2 .f32 :=
  mulf (res_v25 a0 a1 a2) (res_v26 a0 a1 a2)

def res_v28 (a0 : A0 F) (a1 : A1 F) (a2 : A2 F) : Ten F S16x76x76x3x2 .f32 :=
  Host.exp (res_v2 a0 a1 a2)

def res_v29 (a0 : A0 F) (a1 : A1 F) (a2 : A2 F) : Ten F S1x1x1x3x2 .f32 :=
  (broadcastInDim S1x1x1x3x2 ![3, 4] bcast_S3x2_S1x1x1x3x2_3_4) (res_cst a0 a1 a2)

def res_v30 (a0 : A0 F) (a1 : A1 F) (a2 : A2 F) : Ten F S16x76x76x3x2 .f32 :=
  (broadcastInDim S16x76x76x3x2 ![0, 1, 2, 3, 4] bcast_S1x1x1x3x2_S16x76x76x3x2_0_1_2_3_4) (res_v29 a0 a1 a2)

def res_v31 (a0 : A0 F) (a1 : A1 F) (a2 : A2 F) : Ten F S16x76x76x3x2 .f32 :=
  mulf (res_v28 a0 a1 a2) (res_v30 a0 a1 a2)

def res_v32 (a0 : A0 F) (a1 : A1 F) (a2 : A2 F) : Ten F S16x76x76x3x1 .f32 :=
  Host.negf (res_v3 a0 a1 a2)

def res_v33 (a0 : A0 F) (a1 : A1 F) (a2 : A2 F) : Ten F S16x76x76x3x1 .f32 :=
  Host.exp (res_v32 a0 a1 a2)

def res_cst_5 (a0 : A0 F) (a1 : A1 F) (a2 : A2 F) : Ten F S_ .f32 :=
  constant (F := F) S_ .f32 0x3F800000#32

def res_v34 (a0 : A0 F) (a1 : A1 F) (a2 : A2 F) : Ten F S16x76x76x3x1 .f32 :=
  (broadcastInDim S16x76x76x3x1 ![] bcast_S_S16x76x76x3x1) (res_cst_5 a0 a1 a2)

def res_v35 (a0 : A0 F) (a1 : A1 F) (a2 : A2 F) : Ten F S16x76x76x3x1 .f32 :=
  addf (res_v34 a0 a1 a2) (res_v33 a0 a1 a2)

def res_cst_6 (a0 : A0 F) (a1 : A1 F) (a2 : A2 F) : Ten F S_ .f32 :=
  constant (F := F) S_ .f32 0x3F800000#32

def res_v36 (a0 : A0 F) (a1 : A1 F) (a2 : A2 F) : Ten F S16x76x76x3x1 .f32 :=
  (broadcastInDim S16x76x76x3x1 ![] bcast_S_S16x76x76x3x1) (res_cst_6 a0 a1 a2)

def res_v37 (a0 : A0 F) (a1 : A1 F) (a2 : A2 F) : Ten F S16x76x76x3x1 .f32 :=
  Host.divf (res_v36 a0 a1 a2) (res_v35 a0 a1 a2)

def res_v38 (a0 : A0 F) (a1 : A1 F) (a2 : A2 F) : Ten F S16x76x76x3x80 .f32 :=
  Host.negf (res_v4 a0 a1 a2)

def res_v39 (a0 : A0 F) (a1 : A1 F) (a2 : A2 F) : Ten F S16x76x76x3x80 .f32 :=
  Host.exp (res_v38 a0 a1 a2)

def res_cst_7 (a0 : A0 F) (a1 : A1 F) (a2 : A2 F) : Ten F S_ .f32 :=
  constant (F := F) S_ .f32 0x3F800000#32

def res_v40 (a0 : A0 F) (a1 : A1 F) (a2 : A2 F) : Ten F S16x76x76x3x80 .f32 :=
  (broadcastInDim S16x76x76x3x80 ![] bcast_S_S16x76x76x3x80) (res_cst_7 a0 a1 a2)

def res_v41 (a0 : A0 F) (a1 : A1 F) (a2 : A2 F) : Ten F S16x76x76x3x80 .f32 :=
  addf (res_v40 a0 a1 a2) (res_v39 a0 a1 a2)

def res_cst_8 (a0 : A0 F) (a1 : A1 F) (a2 : A2 F) : Ten F S_ .f32 :=
  constant (F := F) S_ .f32 0x3F800000#32

def res_v42 (a0 : A0 F) (a1 : A1 F) (a2 : A2 F) : Ten F S16x76x76x3x80 .f32 :=
  (broadcastInDim S16x76x76x3x80 ![] bcast_S_S16x76x76x3x80) (res_cst_8 a0 a1 a2)

def res_v43 (a0 : A0 F) (a1 : A1 F) (a2 : A2 F) : Ten F S16x76x76x3x80 .f32 :=
  Host.divf (res_v42 a0 a1 a2) (res_v41 a0 a1 a2)

def res_v44 (a0 : A0 F) (a1 : A1 F) (a2 : A2 F) : Ten F S16x76x76x3x85 .f32 :=
  concatenate S16x76x76x3x85 4 [⟨S16x76x76x3x2, res_v27 a0 a1 a2⟩, ⟨S16x76x76x3x2, res_v31 a0 a1 a2⟩, ⟨S16x76x76x3x1, res_v37 a0 a1 a2⟩, ⟨S16x76x76x3x80, res_v43 a0 a1 a2⟩] concatenates_S16x76x76x3x2_S16x76x76x3x2_S16x76x76x3x1_S16x76x76x3x80_S16x76x76x3x85_d4

def res_v45 (a0 : A0 F) (a1 : A1 F) (a2 : A2 F) : Ten F S16x76x76x3x85 .f32 :=
  shapeCast S16x76x76x3x85 a0 shapeCasts_S16x76x76x255_S16x76x76x3x85

def res_v46 (a0 : A0 F) (a1 : A1 F) (a2 : A2 F) : Ten F S16x76x76x3x1 .f32 :=
  (extractStridedSlice S16x76x76x3x1 ![0, 0, 0, 0, 4] · slices_S16x76x76x3x85_S16x76x76x3x1_0_0_0_0_4) (res_v45 a0 a1 a2)

def res_v47 (a0 : A0 F) (a1 : A1 F) (a2 : A2 F) : Ten F S16x76x76x3x80 .f32 :=
  (extractStridedSlice S16x76x76x3x80 ![0, 0, 0, 0, 5] · slices_S16x76x76x3x85_S16x76x76x3x80_0_0_0_0_5) (res_v45 a0 a1 a2)

def res_v48 (a0 : A0 F) (a1 : A1 F) (a2 : A2 F) : Ten F S16x76x76x3x4 .f32 :=
  (extractStridedSlice S16x76x76x3x4 ![0, 0, 0, 0, 0] · slices_S16x76x76x3x85_S16x76x76x3x4_0_0_0_0_0) (res_v44 a0 a1 a2)

def res_v49 (a0 : A0 F) (a1 : A1 F) (a2 : A2 F) : Ten F S16x76x76x3x1 .f32 :=
  (extractStridedSlice S16x76x76x3x1 ![0, 0, 0, 0, 4] · slices_S16x76x76x3x85_S16x76x76x3x1_0_0_0_0_4) (res_v44 a0 a1 a2)

def res_v50 (a0 : A0 F) (a1 : A1 F) (a2 : A2 F) : Ten F S16x76x76x3x4 .f32 :=
  (extractStridedSlice S16x76x76x3x4 ![0, 0, 0, 0, 0] · slices_S16x76x76x3x85_S16x76x76x3x4_0_0_0_0_0) a1

def res_v51 (a0 : A0 F) (a1 : A1 F) (a2 : A2 F) : Ten F S16x76x76x3x1 .f32 :=
  (extractStridedSlice S16x76x76x3x1 ![0, 0, 0, 0, 4] · slices_S16x76x76x3x85_S16x76x76x3x1_0_0_0_0_4) a1

def res_v52 (a0 : A0 F) (a1 : A1 F) (a2 : A2 F) : Ten F S16x76x76x3x80 .f32 :=
  (extractStridedSlice S16x76x76x3x80 ![0, 0, 0, 0, 5] · slices_S16x76x76x3x85_S16x76x76x3x80_0_0_0_0_5) a1

def res_v53 (a0 : A0 F) (a1 : A1 F) (a2 : A2 F) : Ten F S16x76x76x3x1 .f32 :=
  (extractStridedSlice S16x76x76x3x1 ![0, 0, 0, 0, 2] · slices_S16x76x76x3x4_S16x76x76x3x1_0_0_0_0_2) (res_v48 a0 a1 a2)

def res_v54 (a0 : A0 F) (a1 : A1 F) (a2 : A2 F) : Ten F S16x76x76x3 .f32 :=
  shapeCast S16x76x76x3 (res_v53 a0 a1 a2) shapeCasts_S16x76x76x3x1_S16x76x76x3

def res_v55 (a0 : A0 F) (a1 : A1 F) (a2 : A2 F) : Ten F S16x76x76x3x1 .f32 :=
  (extractStridedSlice S16x76x76x3x1 ![0, 0, 0, 0, 3] · slices_S16x76x76x3x4_S16x76x76x3x1_0_0_0_0_3) (res_v48 a0 a1 a2)

def res_v56 (a0 : A0 F) (a1 : A1 F) (a2 : A2 F) : Ten F S16x76x76x3 .f32 :=
  shapeCast S16x76x76x3 (res_v55 a0 a1 a2) shapeCasts_S16x76x76x3x1_S16x76x76x3

def res_v57 (a0 : A0 F) (a1 : A1 F) (a2 : A2 F) : Ten F S16x76x76x3 .f32 :=
  mulf (res_v54 a0 a1 a2) (res_v56 a0 a1 a2)

def res_v58 (a0 : A0 F) (a1 : A1 F) (a2 : A2 F) : Ten F S16x76x76x3x1 .f32 :=
  (extractStridedSlice S16x76x76x3x1 ![0, 0, 0, 0, 2] · slices_S16x76x76x3x4_S16x76x76x3x1_0_0_0_0_2) (res_v50 a0 a1 a2)

def res_v59 (a0 : A0 F) (a1 : A1 F) (a2 : A2 F) : Ten F S16x76x76x3 .f32 :=
  shapeCast S16x76x76x3 (res_v58 a0 a1 a2) shapeCasts_S16x76x76x3x1_S16x76x76x3

def res_v60 (a0 : A0 F) (a1 : A1 F) (a2 : A2 F) : Ten F S16x76x76x3x1 .f32 :=
  (extractStridedSlice S16x76x76x3x1 ![0, 0, 0, 0, 3] · slices_S16x76x76x3x4_S16x76x76x3x1_0_0_0_0_3) (res_v50 a0 a1 a2)

def res_v61 (a0 : A0 F) (a1 : A1 F) (a2 : A2 F) : Ten F S16x76x76x3 .f32 :=
  shapeCast S16x76x76x3 (res_v60 a0 a1 a2) shapeCasts_S16x76x76x3x1_S16x76x76x3

def res_v62 (a0 : A0 F) (a1 : A1 F) (a2 : A2 F) : Ten F S16x76x76x3 .f32 :=
  mulf (res_v59 a0 a1 a2) (res_v61 a0 a1 a2)

def res_v63 (a0 : A0 F) (a1 : A1 F) (a2 : A2 F) : Ten F S16x76x76x3x2 .f32 :=
  (extractStridedSlice S16x76x76x3x2 ![0, 0, 0, 0, 0] · slices_S16x76x76x3x4_S16x76x76x3x2_0_0_0_0_0) (res_v48 a0 a1 a2)

def res_v64 (a0 : A0 F) (a1 : A1 F) (a2 : A2 F) : Ten F S16x76x76x3x2 .f32 :=
  (extractStridedSlice S16x76x76x3x2 ![0, 0, 0, 0, 2] · slices_S16x76x76x3x4_S16x76x76x3x2_0_0_0_0_2) (res_v48 a0 a1 a2)

def res_cst_9 (a0 : A0 F) (a1 : A1 F) (a2 : A2 F) : Ten F S_ .f32 :=
  constant (F := F) S_ .f32 0x3F000000#32

def res_v65 (a0 : A0 F) (a1 : A1 F) (a2 : A2 F) : Ten F S16x76x76x3x2 .f32 :=
  (broadcastInDim S16x76x76x3x2 ![] bcast_S_S16x76x76x3x2) (res_cst_9 a0 a1 a2)

def res_v66 (a0 : A0 F) (a1 : A1 F) (a2 : A2 F) : Ten F S16x76x76x3x2 .f32 :=
  mulf (res_v64 a0 a1 a2) (res_v65 a0 a1 a2)

def res_v67 (a0 : A0 F) (a1 : A1 F) (a2 : A2 F) : Ten F S16x76x76x3x2 .f32 :=
  subf (res_v63 a0 a1 a2) (res_v66 a0 a1 a2)

def res_v68 (a0 : A0 F) (a1 : A1 F) (a2 : A2 F) : Ten F S16x76x76x3x2 .f32 :=
  (extractStridedSlice S16x76x76x3x2 ![0, 0, 0, 0, 0] · slices_S16x76x76x3x4_S16x76x76x3x2_0_0_0_0_0) (res_v48 a0 a1 a2)

def res_v69 (a0 : A0 F) (a1 : A1 F) (a2 : A2 F) : Ten F S16x76x76x3x2 .f32 :=
  (extractStridedSlice S16x76x76x3x2 ![0, 0, 0, 0, 2] · slices_S16x76x76x3x4_S16x76x76x3x2_0_0_0_0_2) (res_v48 a0 a1 a2)

def res_cst_10 (a0 : A0 F) (a1 : A1 F) (a2 : A2 F) : Ten F S_ .f32 :=
  constant (F := F) S_ .f32 0x3F000000#32

def res_v70 (a0 : A0 F) (a1 : A1 F) (a2 : A2 F) : Ten F S16x76x76x3x2 .f32 :=
  (broadcastInDim S16x76x76x3x2 ![] bcast_S_S16x76x76x3x2) (res_cst_10 a0 a1 a2)

def res_v71 (a0 : A0 F) (a1 : A1 F) (a2 : A2 F) : Ten F S16x76x76x3x2 .f32 :=
  mulf (res_v69 a0 a1 a2) (res_v70 a0 a1 a2)

def res_v72 (a0 : A0 F) (a1 : A1 F) (a2 : A2 F) : Ten F S16x76x76x3x2 .f32 :=
  addf (res_v68 a0 a1 a2) (res_v71 a0 a1 a2)

def res_v73 (a0 : A0 F) (a1 : A1 F) (a2 : A2 F) : Ten F S16x76x76x3x4 .f32 :=
  (fun a b => concatenate S16x76x76x3x4 4 [⟨S16x76x76x3x2, a⟩, ⟨S16x76x76x3x2, b⟩] concatenates_S16x76x76x3x2_S16x76x76x3x2_S16x76x76x3x4_d4) (res_v67 a0 a1 a2) (res_v72 a0 a1 a2)

def res_v74 (a0 : A0 F) (a1 : A1 F) (a2 : A2 F) : Ten F S16x76x76x3x2 .f32 :=
  (extractStridedSlice S16x76x76x3x2 ![0, 0, 0, 0, 0] · slices_S16x76x76x3x4_S16x76x76x3x2_0_0_0_0_0) (res_v50 a0 a1 a2)

def res_v75 (a0 : A0 F) (a1 : A1 F) (a2 : A2 F) : Ten F S16x76x76x3x2 .f32 :=
  (extractStridedSlice S16x76x76x3x2 ![0, 0, 0, 0, 2] · slices_S16x76x76x3x4_S16x76x76x3x2_0_0_0_0_2) (res_v50 a0 a1 a2)

def res_cst_11 (a0 : A0 F) (a1 : A1 F) (a2 : A2 F) : Ten F S_ .f32 :=
  constant (F := F) S_ .f32 0x3F000000#32

def res_v76 (a0 : A0 F) (a1 : A1 F) (a2 : A2 F) : Ten F S16x76x76x3x2 .f32 :=
  (broadcastInDim S16x76x76x3x2 ![] bcast_S_S16x76x76x3x2) (res_cst_11 a0 a1 a2)

def res_v77 (a0 : A0 F) (a1 : A1 F) (a2 : A2 F) : Ten F S16x76x76x3x2 .f32 :=
  mulf (res_v75 a0 a1 a2) (res_v76 a0 a1 a2)

def res_v78 (a0 : A0 F) (a1 : A1 F) (a2 : A2 F) : Ten F S16x76x76x3x2 .f32 :=
  subf (res_v74 a0 a1 a2) (res_v77 a0 a1 a2)

def res_v79 (a0 : A0 F) (a1 : A1 F) (a2 : A2 F) : Ten F S16x76x76x3x2 .f32 :=
  (extractStridedSlice S16x76x76x3x2 ![0, 0, 0, 0, 0] · slices_S16x76x76x3x4_S16x76x76x3x2_0_0_0_0_0) (res_v50 a0 a1 a2)

def res_v80 (a0 : A0 F) (a1 : A1 F) (a2 : A2 F) : Ten F S16x76x76x3x2 .f32 :=
  (extractStridedSlice S16x76x76x3x2 ![0, 0, 0, 0, 2] · slices_S16x76x76x3x4_S16x76x76x3x2_0_0_0_0_2) (res_v50 a0 a1 a2)

def res_cst_12 (a0 : A0 F) (a1 : A1 F) (a2 : A2 F) : Ten F S_ .f32 :=
  constant (F := F) S_ .f32 0x3F000000#32

def res_v81 (a0 : A0 F) (a1 : A1 F) (a2 : A2 F) : Ten F S16x76x76x3x2 .f32 :=
  (broadcastInDim S16x76x76x3x2 ![] bcast_S_S16x76x76x3x2) (res_cst_12 a0 a1 a2)

def res_v82 (a0 : A0 F) (a1 : A1 F) (a2 : A2 F) : Ten F S16x76x76x3x2 .f32 :=
  mulf (res_v80 a0 a1 a2) (res_v81 a0 a1 a2)

def res_v83 (a0 : A0 F) (a1 : A1 F) (a2 : A2 F) : Ten F S16x76x76x3x2 .f32 :=
  addf (res_v79 a0 a1 a2) (res_v82 a0 a1 a2)

def res_v84 (a0 : A0 F) (a1 : A1 F) (a2 : A2 F) : Ten F S16x76x76x3x4 .f32 :=
  (fun a b => concatenate S16x76x76x3x4 4 [⟨S16x76x76x3x2, a⟩, ⟨S16x76x76x3x2, b⟩] concatenates_S16x76x76x3x2_S16x76x76x3x2_S16x76x76x3x4_d4) (res_v78 a0 a1 a2) (res_v83 a0 a1 a2)

def res_v85 (a0 : A0 F) (a1 : A1 F) (a2 : A2 F) : Ten F S16x76x76x3x2 .f32 :=
  (extractStridedSlice S16x76x76x3x2 ![0, 0, 0, 0, 0] · slices_S16x76x76x3x4_S16x76x76x3x2_0_0_0_0_0) (res_v73 a0 a1 a2)

def res_v86 (a0 : A0 F) (a1 : A1 F) (a2 : A2 F) : Ten F S16x76x76x3x2 .f32 :=
  (extractStridedSlice S16x76x76x3x2 ![0, 0, 0, 0, 0] · slices_S16x76x76x3x4_S16x76x76x3x2_0_0_0_0_0) (res_v84 a0 a1 a2)

def res_v87 (a0 : A0 F) (a1 : A1 F) (a2 : A2 F) : Ten F S16x76x76x3x2 .f32 :=
  maximumf (res_v85 a0 a1 a2) (res_v86 a0 a1 a2)

def res_v88 (a0 : A0 F) (a1 : A1 F) (a2 : A2 F) : Ten F S16x76x76x3x2 .f32 :=
  (extractStridedSlice S16x76x76x3x2 ![0, 0, 0, 0, 2] · slices_S16x76x76x3x4_S16x76x76x3x2_0_0_0_0_2) (res_v73 a0 a1 a2)

def res_v89 (a0 : A0 F) (a1 : A1 F) (a2 : A2 F) : Ten F S16x76x76x3x2 .f32 :=
  (extractStridedSlice S16x76x76x3x2 ![0, 0, 0, 0, 2] · slices_S16x76x76x3x4_S16x76x76x3x2_0_0_0_0_2) (res_v84 a0 a1 a2)

def res_v90 (a0 : A0 F) (a1 : A1 F) (a2 : A2 F) : Ten F S16x76x76x3x2 .f32 :=
  minimumf (res_v88 a0 a1 a2) (res_v89 a0 a1 a2)

def res_v91 (a0 : A0 F) (a1 : A1 F) (a2 : A2 F) : Ten F S16x76x76x3x2 .f32 :=
  subf (res_v90 a0 a1 a2) (res_v87 a0 a1 a2)

def res_cst_13 (a0 : A0 F) (a1 : A1 F) (a2 : A2 F) : Ten F S_ .f32 :=
  constant (F := F) S_ .f32 0x00000000#32

def res_v92 (a0 : A0 F) (a1 : A1 F) (a2 : A2 F) : Ten F S16x76x76x3x2 .f32 :=
  (broadcastInDim S16x76x76x3x2 ![] bcast_S_S16x76x76x3x2) (res_cst_13 a0 a1 a2)

def res_v93 (a0 : A0 F) (a1 : A1 F) (a2 : A2 F) : Ten F S16x76x76x3x2 .f32 :=
  maximumf (res_v91 a0 a1 a2) (res_v92 a0 a1 a2)

def res_v94 (a0 : A0 F) (a1 : A1 F) (a2 : A2 F) : Ten F S16x76x76x3x1 .f32 :=
  (extractStridedSlice S16x76x76x3x1 ![0, 0, 0, 0, 0] · slices_S16x76x76x3x2_S16x76x76x3x1_0_0_0_0_0) (res_v93 a0 a1 a2)

def res_v95 (a0 : A0 F) (a1 : A1 F) (a2 : A2 F) : Ten F S16x76x76x3 .f32 :=
  shapeCast S16x76x76x3 (res_v94 a0 a1 a2) shapeCasts_S16x76x76x3x1_S16x76x76x3

def res_v96 (a0 : A0 F) (a1 : A1 F) (a2 : A2 F) : Ten F S16x76x76x3x1 .f32 :=
  (extractStridedSlice S16x76x76x3x1 ![0, 0, 0, 0, 1] · slices_S16x76x76x3x2_S16x76x76x3x1_0_0_0_0_1) (res_v93 a0 a1 a2)

def res_v97 (a0 : A0 F) (a1 : A1 F) (a2 : A2 F) : Ten F S16x76x76x3 .f32 :=
  shapeCast S16x76x76x3 (res_v96 a0 a1 a2) shapeCasts_S16x76x76x3x1_S16x76x76x3

def res_v98 (a0 : A0 F) (a1 : A1 F) (a2 : A2 F) : Ten F S16x76x76x3 .f32 :=
  mulf (res_v95 a0 a1 a2) (res_v97 a0 a1 a2)

def res_v99 (a0 : A0 F) (a1 : A1 F) (a2 : A2 F) : Ten F S16x76x76x3 .f32 :=
  addf (res_v57 a0 a1 a2) (res_v62 a0 a1 a2)

def res_v100 (a0 : A0 F) (a1 : A1 F) (a2 : A2 F) : Ten F S16x76x76x3 .f32 :=
  subf (res_v99 a0 a1 a2) (res_v98 a0 a1 a2)

def res_v101 (a0 : A0 F) (a1 : A1 F) (a2 : A2 F) : Ten F S16x76x76x3 .f32 :=
  Host.divf (res_v98 a0 a1 a2) (res_v100 a0 a1 a2)

def res_v102 (a0 : A0 F) (a1 : A1 F) (a2 : A2 F) : Ten F S16x76x76x3x2 .f32 :=
  (extractStridedSlice S16x76x76x3x2 ![0, 0, 0, 0, 0] · slices_S16x76x76x3x4_S16x76x76x3x2_0_0_0_0_0) (res_v73 a0 a1 a2)

def res_v103 (a0 : A0 F) (a1 : A1 F) (a2 : A2 F) : Ten F S16x76x76x3x2 .f32 :=
  (extractStridedSlice S16x76x76x3x2 ![0, 0, 0, 0, 0] · slices_S16x76x76x3x4_S16x76x76x3x2_0_0_0_0_0) (res_v84 a0 a1 a2)

def res_v104 (a0 : A0 F) (a1 : A1 F) (a2 : A2 F) : Ten F S16x76x76x3x2 .f32 :=
  minimumf (res_v102 a0 a1 a2) (res_v103 a0 a1 a2)

def res_v105 (a0 : A0 F) (a1 : A1 F) (a2 : A2 F) : Ten F S16x76x76x3x2 .f32 :=
  (extractStridedSlice S16x76x76x3x2 ![0, 0, 0, 0, 2] · slices_S16x76x76x3x4_S16x76x76x3x2_0_0_0_0_2) (res_v73 a0 a1 a2)

def res_v106 (a0 : A0 F) (a1 : A1 F) (a2 : A2 F) : Ten F S16x76x76x3x2 .f32 :=
  (extractStridedSlice S16x76x76x3x2 ![0, 0, 0, 0, 2] · slices_S16x76x76x3x4_S16x76x76x3x2_0_0_0_0_2) (res_v84 a0 a1 a2)

def res_v107 (a0 : A0 F) (a1 : A1 F) (a2 : A2 F) : Ten F S16x76x76x3x2 .f32 :=
  maximumf (res_v105 a0 a1 a2) (res_v106 a0 a1 a2)

def res_v108 (a0 : A0 F) (a1 : A1 F) (a2 : A2 F) : Ten F S16x76x76x3x2 .f32 :=
  subf (res_v107 a0 a1 a2) (res_v104 a0 a1 a2)

def res_cst_14 (a0 : A0 F) (a1 : A1 F) (a2 : A2 F) : Ten F S_ .f32 :=
  constant (F := F) S_ .f32 0x00000000#32

def res_v109 (a0 : A0 F) (a1 : A1 F) (a2 : A2 F) : Ten F S16x76x76x3x2 .f32 :=
  (broadcastInDim S16x76x76x3x2 ![] bcast_S_S16x76x76x3x2) (res_cst_14 a0 a1 a2)

def res_v110 (a0 : A0 F) (a1 : A1 F) (a2 : A2 F) : Ten F S16x76x76x3x2 .f32 :=
  maximumf (res_v108 a0 a1 a2) (res_v109 a0 a1 a2)

def res_v111 (a0 : A0 F) (a1 : A1 F) (a2 : A2 F) : Ten F S16x76x76x3x1 .f32 :=
  (extractStridedSlice S16x76x76x3x1 ![0, 0, 0, 0, 0] · slices_S16x76x76x3x2_S16x76x76x3x1_0_0_0_0_0) (res_v110 a0 a1 a2)

def res_v112 (a0 : A0 F) (a1 : A1 F) (a2 : A2 F) : Ten F S16x76x76x3 .f32 :=
  shapeCast S16x76x76x3 (res_v111 a0 a1 a2) shapeCasts_S16x76x76x3x1_S16x76x76x3

def res_v113 (a0 : A0 F) (a1 : A1 F) (a2 : A2 F) : Ten F S16x76x76x3x1 .f32 :=
  (extractStridedSlice S16x76x76x3x1 ![0, 0, 0, 0, 1] · slices_S16x76x76x3x2_S16x76x76x3x1_0_0_0_0_1) (res_v110 a0 a1 a2)

def res_v114 (a0 : A0 F) (a1 : A1 F) (a2 : A2 F) : Ten F S16x76x76x3 .f32 :=
  shapeCast S16x76x76x3 (res_v113 a0 a1 a2) shapeCasts_S16x76x76x3x1_S16x76x76x3

def res_v115 (a0 : A0 F) (a1 : A1 F) (a2 : A2 F) : Ten F S16x76x76x3 .f32 :=
  mulf (res_v112 a0 a1 a2) (res_v114 a0 a1 a2)

def res_v116 (a0 : A0 F) (a1 : A1 F) (a2 : A2 F) : Ten F S16x76x76x3 .f32 :=
  subf (res_v115 a0 a1 a2) (res_v100 a0 a1 a2)

def res_v117 (a0 : A0 F) (a1 : A1 F) (a2 : A2 F) : Ten F S16x76x76x3 .f32 :=
  Host.divf (res_v116 a0 a1 a2) (res_v115 a0 a1 a2)

def res_v118 (a0 : A0 F) (a1 : A1 F) (a2 : A2 F) : Ten F S16x76x76x3 .f32 :=
  subf (res_v101 a0 a1 a2) (res_v117 a0 a1 a2)

def res_v119 (a0 : A0 F) (a1 : A1 F) (a2 : A2 F) : Ten F S16x76x76x3x1 .f32 :=
  (broadcastInDim S16x76x76x3x1 ![0, 1, 2, 3] bcast_S16x76x76x3_S16x76x76x3x1_0_1_2_3) (res_v118 a0 a1 a2)

def res_v120 (a0 : A0 F) (a1 : A1 F) (a2 : A2 F) : Ten F S16x76x76x3x1 .f32 :=
  (extractStridedSlice S16x76x76x3x1 ![0, 0, 0, 0, 2] · slices_S16x76x76x3x4_S16x76x76x3x1_0_0_0_0_2) (res_v50 a0 a1 a2)

def res_v121 (a0 : A0 F) (a1 : A1 F) (a2 : A2 F) : Ten F S16x76x76x3x1 .f32 :=
  (extractStridedSlice S16x76x76x3x1 ![0, 0, 0, 0, 3] · slices_S16x76x76x3x4_S16x76x76x3x1_0_0_0_0_3) (res_v50 a0 a1 a2)

def res_v122 (a0 : A0 F) (a1 : A1 F) (a2 : A2 F) : Ten F S16x76x76x3x1 .f32 :=
  mulf (res_v120 a0 a1 a2) (res_v121 a0 a1 a2)

def res_cst_15 (a0 : A0 F) (a1 : A1 F) (a2 : A2 F) : Ten F S_ .f32 :=
  constant (F := F) S_ .f32 0x48B48000#32

def res_v123 (a0 : A0 F) (a1 : A1 F) (a2 : A2 F) : Ten F S16x76x76x3x1 .f32 :=
  (broadcastInDim S16x76x76x3x1 ![] bcast_S_S16x76x76x3x1) (res_cst_15 a0 a1 a2)

def res_v124 (a0 : A0 F) (a1 : A1 F) (a2 : A2 F) : Ten F S16x76x76x3x1 .f32 :=
  Host.divf (res_v122 a0 a1 a2) (res_v123 a0 a1 a2)

def res_cst_16 (a0 : A0 F) (a1 : A1 F) (a2 : A2 F) : Ten F S_ .f32 :=
  constant (F := F) S_ .f32 0x40000000#32

def res_v125 (a0 : A0 F) (a1 : A1 F) (a2 : A2 F) : Ten F S16x76x76x3x1 .f32 :=
  (broadcastInDim S16x76x76x3x1 ![] bcast_S_S16x76x76x3x1) (res_cst_16 a0 a1 a2)

def res_v126 (a0 : A0 F) (a1 : A1 F) (a2 : A2 F) : Ten F S16x76x76x3x1 .f32 :=
  subf (res_v125 a0 a1 a2) (res_v124 a0 a1 a2)

def res_v127 (a0 : A0 F) (a1 : A1 F) (a2 : A2 F) : Ten F S16x76x76x3x1 .f32 :=
  mulf (res_v51 a0 a1 a2) (res_v126 a0 a1 a2)

def res_cst_17 (a0 : A0 F) (a1 : A1 F) (a2 : A2 F) : Ten F S_ .f32 :=
  constant (F := F) S_ .f32 0x3F800000#32

def res_v128 (a0 : A0 F) (a1 : A1 F) (a2 : A2 F) : Ten F S16x76x76x3x1 .f32 :=
  (broadcastInDim S16x76x76x3x1 ![] bcast_S_S16x76x76x3x1) (res_cst_17 a0 a1 a2)

def res_v129 (a0 : A0 F) (a1 : A1 F) (a2 : A2 F) : Ten F S16x76x76x3x1 .f32 :=
  subf (res_v128 a0 a1 a2) (res_v119 a0 a1 a2)

def res_v130 (a0 : A0 F) (a1 : A1 F) (a2 : A2 F) : Ten F S16x76x76x3x1 .f32 :=
  mulf (res_v127 a0 a1 a2) (res_v129 a0 a1 a2)

def res_v131 (a0 : A0 F) (a1 : A1 F) (a2 : A2 F) : Ten F S16x76x76x3x1x4 .f32 :=
  (broadcastInDim S16x76x76x3x1x4 ![0, 1, 2, 3, 5] bcast_S16x76x76x3x4_S16x76x76x3x1x4_0_1_2_3_5) (res_v48 a0 a1 a2)

def res_v132 (a0 : A0 F) (a1 : A1 F) (a2 : A2 F) : Ten F S16x1x1x1x150x4 .f32 :=
  (broadcastInDim S16x1x1x1x150x4 ![0, 4, 5] bcast_S16x150x4_S16x1x1x1x150x4_0_4_5) a2

def res_v133 (a0 : A0 F) (a1 : A1 F) (a2 : A2 F) : Ten F S16x76x76x3x1x1 .f32 :=
  (extractStridedSlice S16x76x76x3x1x1 ![0, 0, 0, 0, 0, 2] · slices_S16x76x76x3x1x4_S16x76x76x3x1x1_0_0_0_0_0_2) (res_v131 a0 a1 a2)

def res_v134 (a0 : A0 F) (a1 : A1 F) (a2 : A2 F) : Ten F S16x76x76x3x1 .f32 :=
  shapeCast S16x76x76x3x1 (res_v133 a0 a1 a2) shapeCasts_S16x76x76x3x1x1_S16x76x76x3x1

def res_v135 (a0 : A0 F) (a1 : A1 F) (a2 : A2 F) : Ten F S16x76x76x3x1x1 .f32 :=
  (extractStridedSlice S16x76x76x3x1x1 ![0, 0, 0, 0, 0, 3] · slices_S16x76x76x3x1x4_S16x76x76x3x1x1_0_0_0_0_0_3) (res_v131 a0 a1 a2)

def res_v136 (a0 : A0 F) (a1 : A1 F) (a2 : A2 F) : Ten F S16x76x76x3x1 .f32 :=
  shapeCast S16x76x76x3x1 (res_v135 a0 a1 a2) shapeCasts_S16x76x76x3x1x1_S16x76x76x3x1

def res_v137 (a0 : A0 F) (a1 : A1 F) (a2 : A2 F) : Ten F S16x76x76x3x1 .f32 :=
  mulf (res_v134 a0 a1 a2) (res_v136 a0 a1 a2)

def res_v138 (a0 : A0 F) (a1 : A1 F) (a2 : A2 F) : Ten F S16x1x1x1x150x1 .f32 :=
  (extractStridedSlice S16x1x1x1x150x1 ![0, 0, 0, 0, 0, 2] · slices_S16x1x1x1x150x4_S16x1x1x1x150x1_0_0_0_0_0_2) (res_v132 a0 a1 a2)

def res_v139 (a0 : A0 F) (a1 : A1 F) (a2 : A2 F) : Ten F S16x1x1x1x150 .f32 :=
  shapeCast S16x1x1x1x150 (res_v138 a0 a1 a2) shapeCasts_S16x1x1x1x150x1_S16x1x1x1x150

def res_v140 (a0 : A0 F) (a1 : A1 F) (a2 : A2 F) : Ten F S16x1x1x1x150x1 .f32 :=
  (extractStridedSlice S16x1x1x1x150x1 ![0, 0, 0, 0, 0, 3] · slices_S16x1x1x1x150x4_S16x1x1x1x150x1_0_0_0_0_0_3) (res_v132 a0 a1 a2)

def res_v141 (a0 : A0 F) (a1 : A1 F) (a2 : A2 F) : Ten F S16x1x1x1x150 .f32 :=
  shapeCast S16x1x1x1x150 (res_v140 a0 a1 a2) shapeCasts_S16x1x1x1x150x1_S16x1x1x1x150

def res_v142 (a0 : A0 F) (a1 : A1 F) (a2 : A2 F) : Ten F S16x1x1x1x150 .f32 :=
  mulf (res_v139 a0 a1 a2) (res_v141 a0 a1 a2)

def res_v143 (a0 : A0 F) (a1 : A1 F) (a2 : A2 F) : Ten F S16x76x76x3x1x2 .f32 :=
  (extractStridedSlice S16x76x76x3x1x2 ![0, 0, 0, 0, 0, 0] · slices_S16x76x76x3x1x4_S16x76x76x3x1x2_0_0_0_0_0_0) (res_v131 a0 a1 a2)

def res_v144 (a0 : A0 F) (a1 : A1 F) (a2 : A2 F) : Ten F S16x76x76x3x1x2 .f32 :=
  (extractStridedSlice S16x76x76x3x1x2 ![0, 0, 0, 0, 0, 2] · slices_S16x76x76x3x1x4_S16x76x76x3x1x2_0_0_0_0_0_2) (res_v131 a0 a1 a2)

def res_cst_18 (a0 : A0 F) (a1 : A1 F) (a2 : A2 F) : Ten F S_ .f32 :=
  constant (F := F) S_ .f32 0x3F000000#32

def res_v145 (a0 : A0 F) (a1 : A1 F) (a2 : A2 F) : Ten F S16x76x76x3x1x2 .f32 :=
  (broadcastInDim S16x76x76x3x1x2 ![] bcast_S_S16x76x76x3x1x2) (res_cst_18 a0 a1 a2)

def res_v146 (a0 : A0 F) (a1 : A1 F) (a2 : A2 F) : Ten F S16x76x76x3x1x2 .f32 :=
  mulf (res_v144 a0 a1 a2) (res_v145 a0 a1 a2)

def res_v147 (a0 : A0 F) (a1 : A1 F) (a2 : A2 F) : Ten F S16x76x76x3x1x2 .f32 :=
  subf (res_v143 a0 a1 a2) (res_v146 a0 a1 a2)

def res_v148 (a0 : A0 F) (a1 : A1 F) (a2 : A2 F) : Ten F S16x76x76x3x1x2 .f32 :=
  (extractStridedSlice S16x76x76x3x1x2 ![0, 0, 0, 0, 0, 0] · slices_S16x76x76x3x1x4_S16x76x76x3x1x2_0_0_0_0_0_0) (res_v131 a0 a1 a2)

def res_v149 (a0 : A0 F) (a1 : A1 F) (a2 : A2 F) : Ten F S16x76x76x3x1x2 .f32 :=
  (extractStridedSlice S16x76x76x3x1x2 ![0, 0, 0, 0, 0, 2] · slices_S16x76x76x3x1x4_S16x76x76x3x1x2_0_0_0_0_0_2) (res_v131 a0 a1 a2)

def res_cst_19 (a0 : A0 F) (a1 : A1 F) (a2 : A2 F) : Ten F S_ .f32 :=
  constant (F := F) S_ .f32 0x3F000000#32

def res_v150 (a0 : A0 F) (a1 : A1 F) (a2 : A2 F) : Ten F S16x76x76x3x1x2 .f32 :=
  (broadcastInDim S16x76x76x3x1x2 ![] bcast_S_S16x76x76x3x1x2) (res_cst_19 a0 a1 a2)

def res_v151 (a0 : A0 F) (a1 : A1 F) (a2 : A2 F) : Ten F S16x76x76x3x1x2 .f32 :=
  mulf (res_v149 a0 a1 a2) (res_v150 a0 a1 a2)

def res_v152 (a0 : A0 F) (a1 : A1 F) (a2 : A2 F) : Ten F S16x76x76x3x1x2 .f32 :=
  addf (res_v148 a0 a1 a2) (res_v151 a0 a1 a2)

def res_v153 (a0 : A0 F) (a1 : A1 F) (a2 : A2 F) : Ten F S16x76x76x3x1x4 .f32 :=
  (fun a b => concatenate S16x76x76x3x1x4 5 [⟨S16x76x76x3x1x2, a⟩, ⟨S16x76x76x3x1x2, b⟩] concatenates_S16x76x76x3x1x2_S16x76x76x3x1x2_S16x76x76x3x1x4_d5) (res_v147 a0 a1 a2) (res_v152 a0 a1 a2)

def res_v154 (a0 : A0 F) (a1 : A1 F) (a2 : A2 F) : Ten F S16x1x1x1x150x2 .f32 :=
  (extractStridedSlice S16x1x1x1x150x2 ![0, 0, 0, 0, 0, 0] · slices_S16x1x1x1x150x4_S16x1x1x1x150x2_0_0_0_0_0_0) (res_v132 a0 a1 a2)

def res_v155 (a0 : A0 F) (a1 : A1 F) (a2 : A2 F) : Ten F S16x1x1x1x150x2 .f32 :=
  (extractStridedSlice S16x1x1x1x150x2 ![0, 0, 0, 0, 0, 2] · slices_S16x1x1x1x150x4_S16x1x1x1x150x2_0_0_0_0_0_2) (res_v132 a0 a1 a2)

def res_cst_20 (a0 : A0 F) (a1 : A1 F) (a2 : A2 F) : Ten F S_ .f32 :=
  constant (F := F) S_ .f32 0x3F000000#32

def res_v156 (a0 : A0 F) (a1 : A1 F) (a2 : A2 F) : Ten F S16x1x1x1x150x2 .f32 :=
  (broadcastInDim S16x1x1x1x150x2 ![] bcast_S_S16x1x1x1x150x2) (res_cst_20 a0 a1 a2)

def res_v157 (a0 : A0 F) (a1 : A1 F) (a2 : A2 F) : Ten F S16x1x1x1x150x2 .f32 :=
  mulf (res_v155 a0 a1 a2) (res_v156 a0 a1 a2)

def res_v158 (a0 : A0 F) (a1 : A1 F) (a2 : A2 F) : Ten F S16x1x1x1x150x2 .f32 :=
  subf (res_v154 a0 a1 a2) (res_v157 a0 a1 a2)

def res_v159 (a0 : A0 F) (a1 : A1 F) (a2 : A2 F) : Ten F S16x1x1x1x150x2 .f32 :=
  (extractStridedSlice S16x1x1x1x150x2 ![0, 0, 0, 0, 0, 0] · slices_S16x1x1x1x150x4_S16x1x1x1x150x2_0_0_0_0_0_0) (res_v132 a0 a1 a2)

def res_v160 (a0 : A0 F) (a1 : A1 F) (a2 : A2 F) : Ten F S16x1x1x1x150x2 .f32 :=
  (extractStridedSlice S16x1x1x1x150x2 ![0, 0, 0, 0, 0, 2] · slices_S16x1x1x1x150x4_S16x1x1x1x150x2_0_0_0_0_0_2) (res_v132 a0 a1 a2)

def res_cst_21 (a0 : A0 F) (a1 : A1 F) (a2 : A2 F) : Ten F S_ .f32 :=
  constant (F := F) S_ .f32 0x3F000000#32

def res_v161 (a0 : A0 F) (a1 : A1 F) (a2 : A2 F) : Ten F S16x1x1x1x150x2 .f32 :=
  (broadcastInDim S16x1x1x1x150x2 ![] bcast_S_S16x1x1x1x150x2) (res_cst_21 a0 a1 a2)

def res_v162 (a0 : A0 F) (a1 : A1 F) (a2 : A2 F) : Ten F S16x1x1x1x150x2 .f32 :=
  mulf (res_v160 a0 a1 a2) (res_v161 a0 a1 a2)

def res_v163 (a0 : A0 F) (a1 : A1 F) (a2 : A2 F) : Ten F S16x1x1x1x150x2 .f32 :=
  addf (res_v159 a0 a1 a2) (res_v162 a0 a1 a2)

def res_v164 (a0 : A0 F) (a1 : A1 F) (a2 : A2 F) : Ten F S16x1x1x1x150x4 .f32 :=
  (fun a b => concatenate S16x1x1x1x150x4 5 [⟨S16x1x1x1x150x2, a⟩, ⟨S16x1x1x1x150x2, b⟩] concatenates_S16x1x1x1x150x2_S16x1x1x1x150x2_S16x1x1x1x150x4_d5) (res_v158 a0 a1 a2) (res_v163 a0 a1 a2)

def res_v165 (a0 : A0 F) (a1 : A1 F) (a2 : A2 F) : Ten F S16x76x76x3x1x2 .f32 :=
  (extractStridedSlice S16x76x76x3x1x2 ![0, 0, 0, 0, 0, 0] · slices_S16x76x76x3x1x4_S16x76x76x3x1x2_0_0_0_0_0_0) (res_v153 a0 a1 a2)

def res_v166 (a0 : A0 F) (a1 : A1 F) (a2 : A2 F) : Ten F S16x1x1x1x150x2 .f32 :=
  (extractStridedSlice S16x1x1x1x150x2 ![0, 0, 0, 0, 0, 0] · slices_S16x1x1x1x150x4_S16x1x1x1x150x2_0_0_0_0_0_0) (res_v164 a0 a1 a2)

def res_v167 (a0 : A0 F) (a1 : A1 F) (a2 : A2 F) : Ten F S16x76x76x3x150x2 .f32 :=
  (broadcastInDim S16x76x76x3x150x2 ![0, 1, 2, 3, 4, 5] bcast_S16x76x76x3x1x2_S16x76x76x3x150x2_0_1_2_3_4_5) (res_v165 a0 a1 a2)

def res_v168 (a0 : A0 F) (a1 : A1 F) (a2 : A2 F) : Ten F S16x76x76x3x150x2 .f32 :=
  (broadcastInDim S16x76x76x3x150x2 ![0, 1, 2, 3, 4, 5] bcast_S16x1x1x1x150x2_S16x76x76x3x150x2_0_1_2_3_4_5) (res_v166 a0 a1 a2)

def res_v169 (a0 : A0 F) (a1 : A1 F) (a2 : A2 F) : Ten F S16x76x76x3x150x2 .f32 :=
  maximumf (res_v167 a0 a1 a2) (res_v168 a0 a1 a2)

def res_v170 (a0 : A0 F) (a1 : A1 F) (a2 : A2 F) : Ten F S16x76x76x3x1x2 .f32 :=
  (extractStridedSlice S16x76x76x3x1x2 ![0, 0, 0, 0, 0, 2] · slices_S16x76x76x3x1x4_S16x76x76x3x1x2_0_0_0_0_0_2) (res_v153 a0 a1 a2)

def res_v171 (a0 : A0 F) (a1 : A1 F) (a2 : A2 F) : Ten F S16x1x1x1x150x2 .f32 :=
  (extractStridedSlice S16x1x1x1x150x2 ![0, 0, 0, 0, 0, 2] · slices_S16x1x1x1x150x4_S16x1x1x1x150x2_0_0_0_0_0_2) (res_v164 a0 a1 a2)

def res_v172 (a0 : A0 F) (a1 : A1 F) (a2 : A2 F) : Ten F S16x76x76x3x150x2 .f32 :=
  (broadcastInDim S16x76x76x3x150x2 ![0, 1, 2, 3, 4, 5] bcast_S16x76x76x3x1x2_S16x76x76x3x150x2_0_1_2_3_4_5) (res_v170 a0 a1 a2)

def res_v173 (a0 : A0 F) (a1 : A1 F) (a2 : A2 F) : Ten F S16x76x76x3x150x2 .f32 :=
  (broadcastInDim S16x76x76x3x150x2 ![0, 1, 2, 3, 4, 5] bcast_S16x1x1x1x150x2_S16x76x76x3x150x2_0_1_2_3_4_5) (res_v171 a0 a1 a2)

def res_v174 (a0 : A0 F) (a1 : A1 F) (a2 : A2 F) : Ten F S16x76x76x3x150x2 .f32 :=
  minimumf (res_v172 a0 a1 a2) (res_v173 a0 a1 a2)

def res_v175 (a0 : A0 F) (a1 : A1 F) (a2 : A2 F) : Ten F S16x76x76x3x150x2 .f32 :=
  subf (res_v174 a0 a1 a2) (res_v169 a0 a1 a2)

def res_cst_22 (a0 : A0 F) (a1 : A1 F) (a2 : A2 F) : Ten F S_ .f32 :=
  constant (F := F) S_ .f32 0x00000000#32

def res_v176 (a0 : A0 F) (a1 : A1 F) (a2 : A2 F) : Ten F S16x76x76x3x150x2 .f32 :=
  (broadcastInDim S16x76x76x3x150x2 ![] bcast_S_S16x76x76x3x150x2) (res_cst_22 a0 a1 a2)

def res_v177 (a0 : A0 F) (a1 : A1 F) (a2 : A2 F) : Ten F S16x76x76x3x150x2 .f32 :=
  maximumf (res_v175 a0 a1 a2) (res_v176 a0 a1 a2)

def res_v178 (a0 : A0 F) (a1 : A1 F) (a2 : A2 F) : Ten F S16x76x76x3x150x1 .f32 :=
  (extractStridedSlice S16x76x76x3x150x1 ![0, 0, 0, 0, 0, 0] · slices_S16x76x76x3x150x2_S16x76x76x3x150x1_0_0_0_0_0_0) (res_v177 a0 a1 a2)

def res_v179 (a0 : A0 F) (a1 : A1 F) (a2 : A2 F) : Ten F S16x76x76x3x150 .f32 :=
  shapeCast S16x76x76x3x150 (res_v178 a0 a1 a2) shapeCasts_S16x76x76x3x150x1_S16x76x76x3x150

def res_v180 (a0 : A0 F) (a1 : A1 F) (a2 : A2 F) : Ten F S16x76x76x3x150x1 .f32 :=
  (extractStridedSlice S16x76x76x3x150x1 ![0, 0, 0, 0, 0, 1] · slices_S16x76x76x3x150x2_S16x76x76x3x150x1_0_0_0_0_0_1) (res_v177 a0 a1 a2)

def res_v181 (a0 : A0 F) (a1 : A1 F) (a2 : A2 F) : Ten F S16x76x76x3x150 .f32 :=
  shapeCast S16x76x76x3x150 (res_v180 a0 a1 a2) shapeCasts_S16x76x76x3x150x1_S16x76x76x3x150

def res_v182 (a0 : A0 F) (a1 : A1 F) (a2 : A2 F) : Ten F S16x76x76x3x150 .f32 :=
  mulf (res_v179 a0 a1 a2) (res_v181 a0 a1 a2)

def res_v183 (a0 : A0 F) (a1 : A1 F) (a2 : A2 F) : Ten F S16x76x76x3x150 .f32 :=
  (broadcastInDim S16x76x76x3x150 ![0, 1, 2, 3, 4] bcast_S16x76x76x3x1_S16x76x76x3x150_0_1_2_3_4) (res_v137 a0 a1 a2)

def res_v184 (a0 : A0 F) (a1 : A1 F) (a2 : A2 F) : Ten F S16x76x76x3x150 .f32 :=
  (broadcastInDim S16x76x76x3x150 ![0, 1, 2, 3, 4] bcast_S16x1x1x1x150_S16x76x76x3x150_0_1_2_3_4) (res_v142 a0 a1 a2)

def res_v185 (a0 : A0 F) (a1 : A1 F) (a2 : A2 F) : Ten F S16x76x76x3x150 .f32 :=
  addf (res_v183 a0 a1 a2) (res_v184 a0 a1 a2)

def res_v186 (a0 : A0 F) (a1 : A1 F) (a2 : A2 F) : Ten F S16x76x76x3x150 .f32 :=
  subf (res_v185 a0 a1 a2) (res_v182 a0 a1 a2)

def res_v187 (a0 : A0 F) (a1 : A1 F) (a2 : A2 F) : Ten F S16x76x76x3x150 .f32 :=
  Host.divf (res_v182 a0 a1 a2) (res_v186 a0 a1 a2)

def res_cst_23 (a0 : A0 F) (a1 : A1 F) (a2 : A2 F) : Ten F S_ .f32 :=
  constant (F := F) S_ .f32 0xFF800000#32

def res_v188 (a0 : A0 F) (a1 : A1 F) (a2 : A2 F) : Ten F S16x76x76x3 .f32 :=
  (fun x v => Host.reduce FloatOps.maximumf x v reducesTo_S16x76x76x3x150_S16x76x76x3_d4 h_S_) (res_v187 a0 a1 a2) (res_cst_23 a0 a1 a2)

def res_v189 (a0 : A0 F) (a1 : A1 F) (a2 : A2 F) : Ten F S16x76x76x3x1 .f32 :=
  (broadcastInDim S16x76x76x3x1 ![0, 1, 2, 3] bcast_S16x76x76x3_S16x76x76x3x1_0_1_2_3) (res_v188 a0 a1 a2)

def res_cst_24 (a0 : A0 F) (a1 : A1 F) (a2 : A2 F) : Ten F S_ .f32 :=
  constant (F := F) S_ .f32 0x3F800000#32

def res_v190 (a0 : A0 F) (a1 : A1 F) (a2 : A2 F) : Ten F S16x76x76x3x1 .f32 :=
  (broadcastInDim S16x76x76x3x1 ![] bcast_S_S16x76x76x3x1) (res_cst_24 a0 a1 a2)

def res_v191 (a0 : A0 F) (a1 : A1 F) (a2 : A2 F) : Ten F S16x76x76x3x1 .f32 :=
  subf (res_v190 a0 a1 a2) (res_v51 a0 a1 a2)

def res_cst_25 (a0 : A0 F) (a1 : A1 F) (a2 : A2 F) : Ten F S_ .f32 :=
  constant (F := F) S_ .f32 0x3F000000#32

def res_v192 (a0 : A0 F) (a1 : A1 F) (a2 : A2 F) : Ten F S16x76x76x3x1 .f32 :=
  (broadcastInDim S16x76x76x3x1 ![] bcast_S_S16x76x76x3x1) (res_cst_25 a0 a1 a2)

def res_v193 (a0 : A0 F) (a1 : A1 F) (a2 : A2 F) : Ten F S16x76x76x3x1 .i1 :=
  (cmpf (F := F) .olt) (res_v189 a0 a1 a2) (res_v192 a0 a1 a2)

def res_v194 (a0 : A0 F) (a1 : A1 F) (a2 : A2 F) : Ten F S16x76x76x3x1 .f32 :=
  (uitofp (F := F) .f32) (res_v193 a0 a1 a2)

def res_v195 (a0 : A0 F) (a1 : A1 F) (a2 : A2 F) : Ten F S16x76x76x3x1 .f32 :=
  mulf (res_v191 a0 a1 a2) (res_v194 a0 a1 a2)

def res_v196 (a0 : A0 F) (a1 : A1 F) (a2 : A2 F) : Ten F S16x76x76x3x1 .f32 :=
  subf (res_v51 a0 a1 a2) (res_v49 a0 a1 a2)

def res_v197 (a0 : A0 F) (a1 : A1 F) (a2 : A2 F) : Ten F S16x76x76x3x1 .f32 :=
  mulf (res_v196 a0 a1 a2) (res_v196 a0 a1 a2)

def res_cst_26 (a0 : A0 F) (a1 : A1 F) (a2 : A2 F) : Ten F S_ .f32 :=
  constant (F := F) S_ .f32 0x00000000#32

def res_v198 (a0 : A0 F) (a1 : A1 F) (a2 : A2 F) : Ten F S16x76x76x3x1 .f32 :=
  (broadcastInDim S16x76x76x3x1 ![] bcast_S_S16x76x76x3x1) (res_cst_26 a0 a1 a2)

def res_v199 (a0 : A0 F) (a1 : A1 F) (a2 : A2 F) : Ten F S16x76x76x3x1 .f32 :=
  maximumf (res_v46 a0 a1 a2) (res_v198 a0 a1 a2)

def res_v200 (a0 : A0 F) (a1 : A1 F) (a2 : A2 F) : Ten F S16x76x76x3x1 .f32 :=
  mulf (res_v46 a0 a1 a2) (res_v51 a0 a1 a2)

def res_v201 (a0 : A0 F) (a1 : A1 F) (a2 : A2 F) : Ten F S16x76x76x3x1 .f32 :=
  subf (res_v199 a0 a1 a2) (res_v200 a0 a1 a2)

def res_v202 (a0 : A0 F) (a1 : A1 F) (a2 : A2 F) : Ten F S16x76x76x3x1 .f32 :=
  Host.absf (res_v46 a0 a1 a2)

def res_v203 (a0 : A0 F) (a1 : A1 F) (a2 : A2 F) : Ten F S16x76x76x3x1 .f32 :=
  Host.negf (res_v202 a0 a1 a2)

def res_v204 (a0 : A0 F) (a1 : A1 F) (a2 : A2 F) : Ten F S16x76x76x3x1 .f32 :=
  Host.exp (res_v203 a0 a1 a2)

def res_v205 (a0 : A0 F) (a1 : A1 F) (a2 : A2 F) : Ten F S16x76x76x3x1 .f32 :=
  Host.log1p (res_v204 a0 a1 a2)

def res_v206 (a0 : A0 F) (a1 : A1 F) (a2 : A2 F) : Ten F S16x76x76x3x1 .f32 :=
  addf (res_v201 a0 a1 a2) (res_v205 a0 a1 a2)

def res_v207 (a0 : A0 F) (a1 : A1 F) (a2 : A2 F) : Ten F S16x76x76x3x1 .f32 :=
  mulf (res_v51 a0 a1 a2) (res_v206 a0 a1 a2)

def res_v208 (a0 : A0 F) (a1 : A1 F) (a2 : A2 F) : Ten F S16x76x76x3x1 .f32 :=
  mulf (res_v195 a0 a1 a2) (res_v206 a0 a1 a2)

def res_v209 (a0 : A0 F) (a1 : A1 F) (a2 : A2 F) : Ten F S16x76x76x3x1 .f32 :=
  addf (res_v207 a0 a1 a2) (res_v208 a0 a1 a2)

def res_v210 (a0 : A0 F) (a1 : A1 F) (a2 : A2 F) : Ten F S16x76x76x3x1 .f32 :=
  mulf (res_v197 a0 a1 a2) (res_v209 a0 a1 a2)

def res_cst_27 (a0 : A0 F) (a1 : A1 F) (a2 : A2 F) : Ten F S_ .f32 :=
  constant (F := F) S_ .f32 0x00000000#32

def res_v211 (a0 : A0 F) (a1 : A1 F) (a2 : A2 F) : Ten F S16x76x76x3x80 .f32 :=
  (broadcastInDim S16x76x76x3x80 ![] bcast_S_S16x76x76x3x80) (res_cst_27 a0 a1 a2)

def res_v212 (a0 : A0 F) (a1 : A1 F) (a2 : A2 F) : Ten F S16x76x76x3x80 .f32 :=
  maximumf (res_v47 a0 a1 a2) (res_v211 a0 a1 a2)

def res_v213 (a0 : A0 F) (a1 : A1 F) (a2 : A2 F) : Ten F S16x76x76x3x80 .f32 :=
  mulf (res_v47 a0 a1 a2) (res_v52 a0 a1 a2)

def res_v214 (a0 : A0 F) (a1 : A1 F) (a2 : A2 F) : Ten F S16x76x76x3x80 .f32 :=
  subf (res_v212 a0 a1 a2) (res_v213 a0 a1 a2)

def res_v215 (a0 : A0 F) (a1 : A1 F) (a2 : A2 F) : Ten F S16x76x76x3x80 .f32 :=
  Host.absf (res_v47 a0 a1 a2)

def res_v216 (a0 : A0 F) (a1 : A1 F) (a2 : A2 F) : Ten F S16x76x76x3x80 .f32 :=
  Host.negf (res_v215 a0 a1 a2)

def res_v217 (a0 : A0 F) (a1 : A1 F) (a2 : A2 F) : Ten F S16x76x76x3x80 .f32 :=
  Host.exp (res_v216 a0 a1 a2)

def res_v218 (a0 : A0 F) (a1 : A1 F) (a2 : A2 F) : Ten F S16x76x76x3x80 .f32 :=
  Host.log1p (res_v217 a0 a1 a2)

def res_v219 (a0 : A0 F) (a1 : A1 F) (a2 : A2 F) : Ten F S16x76x76x3x80 .f32 :=
  addf (res_v214 a0 a1 a2) (res_v218 a0 a1 a2)

def res_v220 (a0 : A0 F) (a1 : A1 F) (a2 : A2 F) : Ten F S16x76x76x3x80 .f32 :=
  (broadcastInDim S16x76x76x3x80 ![0, 1, 2, 3, 4] bcast_S16x76x76x3x1_S16x76x76x3x80_0_1_2_3_4) (res_v51 a0 a1 a2)

def res_v221 (a0 : A0 F) (a1 : A1 F) (a2 : A2 F) : Ten F S16x76x76x3x80 .f32 :=
  mulf (res_v220 a0 a1 a2) (res_v219 a0 a1 a2)

def res_cst_28 (a0 : A0 F) (a1 : A1 F) (a2 : A2 F) : Ten F S_ .f32 :=
  constant (F := F) S_ .f32 0x00000000#32

def res_v222 (a0 : A0 F) (a1 : A1 F) (a2 : A2 F) : Ten F S16 .f32 :=
  (fun x v => Host.reduceAdd x v reducesTo_S16x76x76x3x1_S16_d1_2_3_4 h_S_) (res_v130 a0 a1 a2) (res_cst_28 a0 a1 a2)

def res_cst_29 (a0 : A0 F) (a1 : A1 F) (a2 : A2 F) : Ten F S_ .f32 :=
  constant (F := F) S_ .f32 0x00000000#32

def res_v223 (a0 : A0 F) (a1 : A1 F) (a2 : A2 F) : Ten F S_ .f32 :=
  (fun x v => Host.reduceAdd x v reducesTo_S16_S_d0 h_S_) (res_v222 a0 a1 a2) (res_cst_29 a0 a1 a2)

def res_cst_30 (a0 : A0 F) (a1 : A1 F) (a2 : A2 F) : Ten F S_ .f32 :=
  constant (F := F) S_ .f32 0x41800000#32

def res_v224 (a0 : A0 F) (a1 : A1 F) (a2 : A2 F) : Ten F S_ .f32 :=
  Host.divf (res_v223 a0 a1 a2) (res_cst_30 a0 a1 a2)

def res_cst_31 (a0 : A0 F) (a1 : A1 F) (a2 : A2 F) : Ten F S_ .f32 :=
  constant (F := F) S_ .f32 0x00000000#32

def res_v225 (a0 : A0 F) (a1 : A1 F) (a2 : A2 F) : Ten F S16 .f32 :=
  (fun x v => Host.reduceAdd x v reducesTo_S16x76x76x3x1_S16_d1_2_3_4 h_S_) (res_v210 a0 a1 a2) (res_cst_31 a0 a1 a2)

def res_cst_32 (a0 : A0 F) (a1 : A1 F) (a2 : A2 F) : Ten F S_ .f32 :=
  constant (F := F) S_ .f32 0x00000000#32

def res_v226 (a0 : A0 F) (a1 : A1 F) (a2 : A2 F) : Ten F S_ .f32 :=
  (fun x v => Host.reduceAdd x v reducesTo_S16_S_d0 h_S_) (res_v225 a0 a1 a2) (res_cst_32 a0 a1 a2)

def res_cst_33 (a0 : A0 F) (a1 : A1 F) (a2 : A2 F) : Ten F S_ .f32 :=
  constant (F := F) S_ .f32 0x41800000#32

def res_v227 (a0 : A0 F) (a1 : A1 F) (a2 : A2 F) : Ten F S_ .f32 :=
  Host.divf (res_v226 a0 a1 a2) (res_cst_33 a0 a1 a2)

def res_cst_34 (a0 : A0 F) (a1 : A1 F) (a2 : A2 F) : Ten F S_ .f32 :=
  constant (F := F) S_ .f32 0x00000000#32

def res_v228 (a0 : A0 F) (a1 : A1 F) (a2 : A2 F) : Ten F S16 .f32 :=
  (fun x v => Host.reduceAdd x v reducesTo_S16x76x76x3x80_S16_d1_2_3_4 h_S_) (res_v221 a0 a1 a2) (res_cst_34 a0 a1 a2)

def res_cst_35 (a0 : A0 F) (a1 : A1 F) (a2 : A2 F) : Ten F S_ .f32 :=
  constant (F := F) S_ .f32 0x00000000#32

def res_v229 (a0 : A0 F) (a1 : A1 F) (a2 : A2 F) : Ten F S_ .f32 :=
  (fun x v => Host.reduceAdd x v reducesTo_S16_S_d0 h_S_) (res_v228 a0 a1 a2) (res_cst_35 a0 a1 a2)

def res_cst_36 (a0 : A0 F) (a1 : A1 F) (a2 : A2 F) : Ten F S_ .f32 :=
  constant (F := F) S_ .f32 0x41800000#32

def res_v230 (a0 : A0 F) (a1 : A1 F) (a2 : A2 F) : Ten F S_ .f32 :=
  Host.divf (res_v229 a0 a1 a2) (res_cst_36 a0 a1 a2)

def res_v231 (a0 : A0 F) (a1 : A1 F) (a2 : A2 F) : Ten F S1 .f32 :=
  (broadcastInDim S1 ![] bcast_S_S1) (res_v224 a0 a1 a2)

def res_v232 (a0 : A0 F) (a1 : A1 F) (a2 : A2 F) : Ten F S1 .f32 :=
  (broadcastInDim S1 ![] bcast_S_S1) (res_v227 a0 a1 a2)

def res_v233 (a0 : A0 F) (a1 : A1 F) (a2 : A2 F) : Ten F S1 .f32 :=
  (broadcastInDim S1 ![] bcast_S_S1) (res_v230 a0 a1 a2)

def res_v234 (a0 : A0 F) (a1 : A1 F) (a2 : A2 F) : Ten F S3 .f32 :=
  concatenate S3 0 [⟨S1, res_v231 a0 a1 a2⟩, ⟨S1, res_v232 a0 a1 a2⟩, ⟨S1, res_v233 a0 a1 a2⟩] concatenates_S1_S1_S1_S3_d0

end Cert.ReferenceIdeal.HR

end
-- ==== Proof.Ref.Ops.lean ====
import proofs.«103457_j67783173865496_1_alg».proof.Proof.Gen.ReferenceIdeal
import proofs.«103457_j67783173865496_1_alg».proof.Proof.Ref.Stages
import Idealize.ShloMosaic.Lib.StableHlo.Run

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

abbrev ops_0 : List (HloOp τ sig (Elt F)) :=
  [ StableHlo.nullary main_cst (fun i => FloatOps.ofBits .f32 (lit0 (S3x2.rowMajor i))),
    StableHlo.reshape main_arg0 main_v0 rfl shapeCasts_S16x76x76x255_S16x76x76x3x85,
    StableHlo.unary main_v0 main_v1 ((extractStridedSlice S16x76x76x3x2 ![0, 0, 0, 0, 0] · slices_S16x76x76x3x85_S16x76x76x3x2_0_0_0_0_0) : Ten F S16x76x76x3x85 .f32 → Ten F S16x76x76x3x2 .f32),
    StableHlo.unary main_v0 main_v2 ((extractStridedSlice S16x76x76x3x2 ![0, 0, 0, 0, 2] · slices_S16x76x76x3x85_S16x76x76x3x2_0_0_0_0_2) : Ten F S16x76x76x3x85 .f32 → Ten F S16x76x76x3x2 .f32),
    StableHlo.unary main_v0 main_v3 ((extractStridedSlice S16x76x76x3x1 ![0, 0, 0, 0, 4] · slices_S16x76x76x3x85_S16x76x76x3x1_0_0_0_0_4) : Ten F S16x76x76x3x85 .f32 → Ten F S16x76x76x3x1 .f32),
    StableHlo.unary main_v0 main_v4 ((extractStridedSlice S16x76x76x3x80 ![0, 0, 0, 0, 5] · slices_S16x76x76x3x85_S16x76x76x3x80_0_0_0_0_5) : Ten F S16x76x76x3x85 .f32 → Ten F S16x76x76x3x80 .f32),
    StableHlo.nullary main_v5 (iotaInDim S76 32 0),
    StableHlo.nullary main_v6 (iotaInDim S76 32 0),
    StableHlo.unary main_v6 main_v7 (broadcastInDim S76x76 ![0] bcast_S76_S76x76_0 : Ten F S76 .i32 → Ten F S76x76 .i32),
    StableHlo.unary main_v5 main_v8 (broadcastInDim S76x76 ![1] bcast_S76_S76x76_1 : Ten F S76 .i32 → Ten F S76x76 .i32),
    StableHlo.unary main_v8 main_v9 (broadcastInDim S76x76x1 ![0, 1] bcast_S76x76_S76x76x1_0_1 : Ten F S76x76 .i32 → Ten F S76x76x1 .i32),
    StableHlo.unary main_v7 main_v10 (broadcastInDim S76x76x1 ![0, 1] bcast_S76x76_S76x76x1_0_1 : Ten F S76x76 .i32 → Ten F S76x76x1 .i32) ]

set_option maxRecDepth 8192 in
theorem ops_0_sub : (ops_0 : List (HloOp τ sig (Elt F))).Forall fun op => op.bufs ⊆ tcRefs τ sig :=
  ⟨nullary_bufs_sub .., reshape_bufs_sub .., unary_bufs_sub .., unary_bufs_sub .., unary_bufs_sub .., unary_bufs_sub .., nullary_bufs_sub .., nullary_bufs_sub .., unary_bufs_sub .., unary_bufs_sub .., unary_bufs_sub .., unary_bufs_sub ..⟩

set_option maxRecDepth 8192 in
theorem ops_0_fresh : (ops_0 : List (HloOp τ sig (Elt F))).Forall fun op => op.fresh = ∅ :=
  ⟨rfl, rfl, rfl, rfl, rfl, rfl, rfl, rfl, rfl, rfl, rfl, rfl⟩

abbrev ops_1 : List (HloOp τ sig (Elt F)) :=
  [ StableHlo.binary main_v9 main_v10 main_v11 ((fun a b => concatenate S76x76x2 2 [⟨S76x76x1, a⟩, ⟨S76x76x1, b⟩] concatenates_S76x76x1_S76x76x1_S76x76x2_d2) : Ten F S76x76x1 .i32 → Ten F S76x76x1 .i32 → Ten F S76x76x2 .i32),
    StableHlo.unary main_v11 main_v12 (broadcastInDim S1x76x76x1x2 ![1, 2, 4] bcast_S76x76x2_S1x76x76x1x2_1_2_4 : Ten F S76x76x2 .i32 → Ten F S1x76x76x1x2 .i32),
    StableHlo.unary main_v12 main_v13 (sitofp (F := F) .f32 : Ten F S1x76x76x1x2 .i32 → Ten F S1x76x76x1x2 .f32),
    StableHlo.unary main_v1 main_v14 (Host.negf : Ten F S16x76x76x3x2 .f32 → Ten F S16x76x76x3x2 .f32),
    StableHlo.unary main_v14 main_v15 (Host.exp : Ten F S16x76x76x3x2 .f32 → Ten F S16x76x76x3x2 .f32),
    StableHlo.nullary main_cst_0 (constant (F := F) S_ .f32 0x3F800000#32),
    StableHlo.unary main_cst_0 main_v16 (broadcastInDim S16x76x76x3x2 ![] bcast_S_S16x76x76x3x2 : Ten F S_ .f32 → Ten F S16x76x76x3x2 .f32),
    StableHlo.binary main_v16 main_v15 main_v17 (addf : Ten F S16x76x76x3x2 .f32 → Ten F S16x76x76x3x2 .f32 → Ten F S16x76x76x3x2 .f32),
    StableHlo.nullary main_cst_1 (constant (F := F) S_ .f32 0x3F800000#32),
    StableHlo.unary main_cst_1 main_v18 (broadcastInDim S16x76x76x3x2 ![] bcast_S_S16x76x76x3x2 : Ten F S_ .f32 → Ten F S16x76x76x3x2 .f32),
    StableHlo.binary main_v18 main_v17 main_v19 (Host.divf : Ten F S16x76x76x3x2 .f32 → Ten F S16x76x76x3x2 .f32 → Ten F S16x76x76x3x2 .f32),
    StableHlo.nullary main_cst_2 (constant (F := F) S_ .f32 0x3F99999A#32),
    StableHlo.unary main_cst_2 main_v20 (broadcastInDim S16x76x76x3x2 ![] bcast_S_S16x76x76x3x2 : Ten F S_ .f32 → Ten F S16x76x76x3x2 .f32),
    StableHlo.binary main_v19 main_v20 main_v21 (mulf : Ten F S16x76x76x3x2 .f32 → Ten F S16x76x76x3x2 .f32 → Ten F S16x76x76x3x2 .f32),
    StableHlo.nullary main_cst_3 (constant (F := F) S_ .f32 0x3DCCCCCD#32),
    StableHlo.unary main_cst_3 main_v22 (broadcastInDim S16x76x76x3x2 ![] bcast_S_S16x76x76x3x2 : Ten F S_ .f32 → Ten F S16x76x76x3x2 .f32),
    StableHlo.binary main_v21 main_v22 main_v23 (subf : Ten F S16x76x76x3x2 .f32 → Ten F S16x76x76x3x2 .f32 → Ten F S16x76x76x3x2 .f32),
    StableHlo.unary main_v13 main_v24 (broadcastInDim S16x76x76x3x2 ![0, 1, 2, 3, 4] bcast_S1x76x76x1x2_S16x76x76x3x2_0_1_2_3_4 : Ten F S1x76x76x1x2 .f32 → Ten F S16x76x76x3x2 .f32),
    StableHlo.binary main_v23 main_v24 main_v25 (addf : Ten F S16x76x76x3x2 .f32 → Ten F S16x76x76x3x2 .f32 → Ten F S16x76x76x3x2 .f32),
    StableHlo.nullary main_cst_4 (constant (F := F) S_ .f32 0x41000000#32),
    StableHlo.unary main_cst_4 main_v26 (broadcastInDim S16x76x76x3x2 ![] bcast_S_S16x76x76x3x2 : Ten F S_ .f32 → Ten F S16x76x76x3x2 .f32),
    StableHlo.binary main_v25 main_v26 main_v27 (mulf : Ten F S16x76x76x3x2 .f32 → Ten F S16x76x76x3x2 .f32 → Ten F S16x76x76x3x2 .f32),
    StableHlo.unary main_v2 main_v28 (Host.exp : Ten F S16x76x76x3x2 .f32 → Ten F S16x76x76x3x2 .f32),
    StableHlo.unary main_cst main_v29 (broadcastInDim S1x1x1x3x2 ![3, 4] bcast_S3x2_S1x1x1x3x2_3_4 : Ten F S3x2 .f32 → Ten F S1x1x1x3x2 .f32),
    StableHlo.unary main_v29 main_v30 (broadcastInDim S16x76x76x3x2 ![0, 1, 2, 3, 4] bcast_S1x1x1x3x2_S16x76x76x3x2_0_1_2_3_4 : Ten F S1x1x1x3x2 .f32 → Ten F S16x76x76x3x2 .f32),
    StableHlo.binary main_v28 main_v30 main_v31 (mulf : Ten F S16x76x76x3x2 .f32 → Ten F S16x76x76x3x2 .f32 → Ten F S16x76x76x3x2 .f32),
    StableHlo.unary main_v3 main_v32 (Host.negf : Ten F S16x76x76x3x1 .f32 → Ten F S16x76x76x3x1 .f32),
    StableHlo.unary main_v32 main_v33 (Host.exp : Ten F S16x76x76x3x1 .f32 → Ten F S16x76x76x3x1 .f32),
    StableHlo.nullary main_cst_5 (constant (F := F) S_ .f32 0x3F800000#32),
    StableHlo.unary main_cst_5 main_v34 (broadcastInDim S16x76x76x3x1 ![] bcast_S_S16x76x76x3x1 : Ten F S_ .f32 → Ten F S16x76x76x3x1 .f32),
    StableHlo.binary main_v34 main_v33 main_v35 (addf : Ten F S16x76x76x3x1 .f32 → Ten F S16x76x76x3x1 .f32 → Ten F S16x76x76x3x1 .f32),
    StableHlo.nullary main_cst_6 (constant (F := F) S_ .f32 0x3F800000#32),
    StableHlo.unary main_cst_6 main_v36 (broadcastInDim S16x76x76x3x1 ![] bcast_S_S16x76x76x3x1 : Ten F S_ .f32 → Ten F S16x76x76x3x1 .f32),
    StableHlo.binary main_v36 main_v35 main_v37 (Host.divf : Ten F S16x76x76x3x1 .f32 → Ten F S16x76x76x3x1 .f32 → Ten F S16x76x76x3x1 .f32),
    StableHlo.unary main_v4 main_v38 (Host.negf : Ten F S16x76x76x3x80 .f32 → Ten F S16x76x76x3x80 .f32),
    StableHlo.unary main_v38 main_v39 (Host.exp : Ten F S16x76x76x3x80 .f32 → Ten F S16x76x76x3x80 .f32),
    StableHlo.nullary main_cst_7 (constant (F := F) S_ .f32 0x3F800000#32),
    StableHlo.unary main_cst_7 main_v40 (broadcastInDim S16x76x76x3x80 ![] bcast_S_S16x76x76x3x80 : Ten F S_ .f32 → Ten F S16x76x76x3x80 .f32),
    StableHlo.binary main_v40 main_v39 main_v41 (addf : Ten F S16x76x76x3x80 .f32 → Ten F S16x76x76x3x80 .f32 → Ten F S16x76x76x3x80 .f32),
    StableHlo.nullary main_cst_8 (constant (F := F) S_ .f32 0x3F800000#32),
    StableHlo.unary main_cst_8 main_v42 (broadcastInDim S16x76x76x3x80 ![] bcast_S_S16x76x76x3x80 : Ten F S_ .f32 → Ten F S16x76x76x3x80 .f32),
    StableHlo.binary main_v42 main_v41 main_v43 (Host.divf : Ten F S16x76x76x3x80 .f32 → Ten F S16x76x76x3x80 .f32 → Ten F S16x76x76x3x80 .f32) ]

set_option maxRecDepth 8192 in
theorem ops_1_sub : (ops_1 : List (HloOp τ sig (Elt F))).Forall fun op => op.bufs ⊆ tcRefs τ sig :=
  ⟨binary_bufs_sub .., unary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

set_option maxRecDepth 8192 in
theorem ops_1_fresh : (ops_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops_2 : List (HloOp τ sig (Elt F)) :=
  [ StableHlo.nary ![main_v27, main_v31, main_v37, main_v43] main_v44 (fun u => concatenate S16x76x76x3x85 4 [⟨S16x76x76x3x2, u 0⟩, ⟨S16x76x76x3x2, u 1⟩, ⟨S16x76x76x3x1, u 2⟩, ⟨S16x76x76x3x80, u 3⟩] concatenates_S16x76x76x3x2_S16x76x76x3x2_S16x76x76x3x1_S16x76x76x3x80_S16x76x76x3x85_d4),
    StableHlo.reshape main_arg0 main_v45 rfl shapeCasts_S16x76x76x255_S16x76x76x3x85,
    StableHlo.unary main_v45 main_v46 ((extractStridedSlice S16x76x76x3x1 ![0, 0, 0, 0, 4] · slices_S16x76x76x3x85_S16x76x76x3x1_0_0_0_0_4) : Ten F S16x76x76x3x85 .f32 → Ten F S16x76x76x3x1 .f32),
    StableHlo.unary main_v45 main_v47 ((extractStridedSlice S16x76x76x3x80 ![0, 0, 0, 0, 5] · slices_S16x76x76x3x85_S16x76x76x3x80_0_0_0_0_5) : Ten F S16x76x76x3x85 .f32 → Ten F S16x76x76x3x80 .f32),
    StableHlo.unary main_v44 main_v48 ((extractStridedSlice S16x76x76x3x4 ![0, 0, 0, 0, 0] · slices_S16x76x76x3x85_S16x76x76x3x4_0_0_0_0_0) : Ten F S16x76x76x3x85 .f32 → Ten F S16x76x76x3x4 .f32),
    StableHlo.unary main_v44 main_v49 ((extractStridedSlice S16x76x76x3x1 ![0, 0, 0, 0, 4] · slices_S16x76x76x3x85_S16x76x76x3x1_0_0_0_0_4) : Ten F S16x76x76x3x85 .f32 → Ten F S16x76x76x3x1 .f32) ]

set_option maxRecDepth 8192 in
theorem ops_2_sub : (ops_2 : List (HloOp τ sig (Elt F))).Forall fun op => op.bufs ⊆ tcRefs τ sig :=
  ⟨nary_bufs_sub .., reshape_bufs_sub .., unary_bufs_sub .., unary_bufs_sub .., unary_bufs_sub .., unary_bufs_sub ..⟩

set_option maxRecDepth 8192 in
theorem ops_2_fresh : (ops_2 : List (HloOp τ sig (Elt F))).Forall fun op => op.fresh = ∅ :=
  ⟨rfl, rfl, rfl, rfl, rfl, rfl⟩

abbrev ops_3 : List (HloOp τ sig (Elt F)) :=
  [ StableHlo.unary main_arg1 main_v50 ((extractStridedSlice S16x76x76x3x4 ![0, 0, 0, 0, 0] · slices_S16x76x76x3x85_S16x76x76x3x4_0_0_0_0_0) : Ten F S16x76x76x3x85 .f32 → Ten F S16x76x76x3x4 .f32),
    StableHlo.unary main_arg1 main_v51 ((extractStridedSlice S16x76x76x3x1 ![0, 0, 0, 0, 4] · slices_S16x76x76x3x85_S16x76x76x3x1_0_0_0_0_4) : Ten F S16x76x76x3x85 .f32 → Ten F S16x76x76x3x1 .f32),
    StableHlo.unary main_arg1 main_v52 ((extractStridedSlice S16x76x76x3x80 ![0, 0, 0, 0, 5] · slices_S16x76x76x3x85_S16x76x76x3x80_0_0_0_0_5) : Ten F S16x76x76x3x85 .f32 → Ten F S16x76x76x3x80 .f32),
    StableHlo.unary main_v48 main_v53 ((extractStridedSlice S16x76x76x3x1 ![0, 0, 0, 0, 2] · slices_S16x76x76x3x4_S16x76x76x3x1_0_0_0_0_2) : Ten F S16x76x76x3x4 .f32 → Ten F S16x76x76x3x1 .f32),
    StableHlo.reshape main_v53 main_v54 rfl shapeCasts_S16x76x76x3x1_S16x76x76x3,
    StableHlo.unary main_v48 main_v55 ((extractStridedSlice S16x76x76x3x1 ![0, 0, 0, 0, 3] · slices_S16x76x76x3x4_S16x76x76x3x1_0_0_0_0_3) : Ten F S16x76x76x3x4 .f32 → Ten F S16x76x76x3x1 .f32),
    StableHlo.reshape main_v55 main_v56 rfl shapeCasts_S16x76x76x3x1_S16x76x76x3,
    StableHlo.binary main_v54 main_v56 main_v57 (mulf : Ten F S16x76x76x3 .f32 → Ten F S16x76x76x3 .f32 → Ten F S16x76x76x3 .f32),
    StableHlo.unary main_v50 main_v58 ((extractStridedSlice S16x76x76x3x1 ![0, 0, 0, 0, 2] · slices_S16x76x76x3x4_S16x76x76x3x1_0_0_0_0_2) : Ten F S16x76x76x3x4 .f32 → Ten F S16x76x76x3x1 .f32),
    StableHlo.reshape main_v58 main_v59 rfl shapeCasts_S16x76x76x3x1_S16x76x76x3,
    StableHlo.unary main_v50 main_v60 ((extractStridedSlice S16x76x76x3x1 ![0, 0, 0, 0, 3] · slices_S16x76x76x3x4_S16x76x76x3x1_0_0_0_0_3) : Ten F S16x76x76x3x4 .f32 → Ten F S16x76x76x3x1 .f32),
    StableHlo.reshape main_v60 main_v61 rfl shapeCasts_S16x76x76x3x1_S16x76x76x3,
    StableHlo.binary main_v59 main_v61 main_v62 (mulf : Ten F S16x76x76x3 .f32 → Ten F S16x76x76x3 .f32 → Ten F S16x76x76x3 .f32),
    StableHlo.unary main_v48 main_v63 ((extractStridedSlice S16x76x76x3x2 ![0, 0, 0, 0, 0] · slices_S16x76x76x3x4_S16x76x76x3x2_0_0_0_0_0) : Ten F S16x76x76x3x4 .f32 → Ten F S16x76x76x3x2 .f32),
    StableHlo.unary main_v48 main_v64 ((extractStridedSlice S16x76x76x3x2 ![0, 0, 0, 0, 2] · slices_S16x76x76x3x4_S16x76x76x3x2_0_0_0_0_2) : Ten F S16x76x76x3x4 .f32 → Ten F S16x76x76x3x2 .f32),
    StableHlo.nullary main_cst_9 (constant (F := F) S_ .f32 0x3F000000#32),
    StableHlo.unary main_cst_9 main_v65 (broadcastInDim S16x76x76x3x2 ![] bcast_S_S16x76x76x3x2 : Ten F S_ .f32 → Ten F S16x76x76x3x2 .f32),
    StableHlo.binary main_v64 main_v65 main_v66 (mulf : Ten F S16x76x76x3x2 .f32 → Ten F S16x76x76x3x2 .f32 → Ten F S16x76x76x3x2 .f32),
    StableHlo.binary main_v63 main_v66 main_v67 (subf : Ten F S16x76x76x3x2 .f32 → Ten F S16x76x76x3x2 .f32 → Ten F S16x76x76x3x2 .f32),
    StableHlo.unary main_v48 main_v68 ((extractStridedSlice S16x76x76x3x2 ![0, 0, 0, 0, 0] · slices_S16x76x76x3x4_S16x76x76x3x2_0_0_0_0_0) : Ten F S16x76x76x3x4 .f32 → Ten F S16x76x76x3x2 .f32),
    StableHlo.unary main_v48 main_v69 ((extractStridedSlice S16x76x76x3x2 ![0, 0, 0, 0, 2] · slices_S16x76x76x3x4_S16x76x76x3x2_0_0_0_0_2) : Ten F S16x76x76x3x4 .f32 → Ten F S16x76x76x3x2 .f32),
    StableHlo.nullary main_cst_10 (constant (F := F) S_ .f32 0x3F000000#32),
    StableHlo.unary main_cst_10 main_v70 (broadcastInDim S16x76x76x3x2 ![] bcast_S_S16x76x76x3x2 : Ten F S_ .f32 → Ten F S16x76x76x3x2 .f32),
    StableHlo.binary main_v69 main_v70 main_v71 (mulf : Ten F S16x76x76x3x2 .f32 → Ten F S16x76x76x3x2 .f32 → Ten F S16x76x76x3x2 .f32),
    StableHlo.binary main_v68 main_v71 main_v72 (addf : Ten F S16x76x76x3x2 .f32 → Ten F S16x76x76x3x2 .f32 → Ten F S16x76x76x3x2 .f32) ]

set_option maxRecDepth 8192 in
theorem ops_3_sub : (ops_3 : List (HloOp τ sig (Elt F))).Forall fun op => op.bufs ⊆ tcRefs τ sig :=
  ⟨unary_bufs_sub .., unary_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub ..⟩

set_option maxRecDepth 8192 in
theorem ops_3_fresh : (ops_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

abbrev ops_4 : List (HloOp τ sig (Elt F)) :=
  [ StableHlo.binary main_v67 main_v72 main_v73 ((fun a b => concatenate S16x76x76x3x4 4 [⟨S16x76x76x3x2, a⟩, ⟨S16x76x76x3x2, b⟩] concatenates_S16x76x76x3x2_S16x76x76x3x2_S16x76x76x3x4_d4) : Ten F S16x76x76x3x2 .f32 → Ten F S16x76x76x3x2 .f32 → Ten F S16x76x76x3x4 .f32),
    StableHlo.unary main_v50 main_v74 ((extractStridedSlice S16x76x76x3x2 ![0, 0, 0, 0, 0] · slices_S16x76x76x3x4_S16x76x76x3x2_0_0_0_0_0) : Ten F S16x76x76x3x4 .f32 → Ten F S16x76x76x3x2 .f32),
    StableHlo.unary main_v50 main_v75 ((extractStridedSlice S16x76x76x3x2 ![0, 0, 0, 0, 2] · slices_S16x76x76x3x4_S16x76x76x3x2_0_0_0_0_2) : Ten F S16x76x76x3x4 .f32 → Ten F S16x76x76x3x2 .f32),
    StableHlo.nullary main_cst_11 (constant (F := F) S_ .f32 0x3F000000#32),
    StableHlo.unary main_cst_11 main_v76 (broadcastInDim S16x76x76x3x2 ![] bcast_S_S16x76x76x3x2 : Ten F S_ .f32 → Ten F S16x76x76x3x2 .f32),
    StableHlo.binary main_v75 main_v76 main_v77 (mulf : Ten F S16x76x76x3x2 .f32 → Ten F S16x76x76x3x2 .f32 → Ten F S16x76x76x3x2 .f32),
    StableHlo.binary main_v74 main_v77 main_v78 (subf : Ten F S16x76x76x3x2 .f32 → Ten F S16x76x76x3x2 .f32 → Ten F S16x76x76x3x2 .f32),
    StableHlo.unary main_v50 main_v79 ((extractStridedSlice S16x76x76x3x2 ![0, 0, 0, 0, 0] · slices_S16x76x76x3x4_S16x76x76x3x2_0_0_0_0_0) : Ten F S16x76x76x3x4 .f32 → Ten F S16x76x76x3x2 .f32),
    StableHlo.unary main_v50 main_v80 ((extractStridedSlice S16x76x76x3x2 ![0, 0, 0, 0, 2] · slices_S16x76x76x3x4_S16x76x76x3x2_0_0_0_0_2) : Ten F S16x76x76x3x4 .f32 → Ten F S16x76x76x3x2 .f32),
    StableHlo.nullary main_cst_12 (constant (F := F) S_ .f32 0x3F000000#32),
    StableHlo.unary main_cst_12 main_v81 (broadcastInDim S16x76x76x3x2 ![] bcast_S_S16x76x76x3x2 : Ten F S_ .f32 → Ten F S16x76x76x3x2 .f32),
    StableHlo.binary main_v80 main_v81 main_v82 (mulf : Ten F S16x76x76x3x2 .f32 → Ten F S16x76x76x3x2 .f32 → Ten F S16x76x76x3x2 .f32),
    StableHlo.binary main_v79 main_v82 main_v83 (addf : Ten F S16x76x76x3x2 .f32 → Ten F S16x76x76x3x2 .f32 → Ten F S16x76x76x3x2 .f32) ]

set_option maxRecDepth 8192 in
theorem ops_4_sub : (ops_4 : List (HloOp τ sig (Elt F))).Forall fun op => op.bufs ⊆ tcRefs τ sig :=
  ⟨binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub ..⟩

set_option maxRecDepth 8192 in
theorem ops_4_fresh : (ops_4 : List (HloOp τ sig (Elt F))).Forall fun op => op.fresh = ∅ :=
  ⟨rfl, rfl, rfl, rfl, rfl, rfl, rfl, rfl, rfl, rfl, rfl, rfl, rfl⟩

abbrev ops_5 : List (HloOp τ sig (Elt F)) :=
  [ StableHlo.binary main_v78 main_v83 main_v84 ((fun a b => concatenate S16x76x76x3x4 4 [⟨S16x76x76x3x2, a⟩, ⟨S16x76x76x3x2, b⟩] concatenates_S16x76x76x3x2_S16x76x76x3x2_S16x76x76x3x4_d4) : Ten F S16x76x76x3x2 .f32 → Ten F S16x76x76x3x2 .f32 → Ten F S16x76x76x3x4 .f32),
    StableHlo.unary main_v73 main_v85 ((extractStridedSlice S16x76x76x3x2 ![0, 0, 0, 0, 0] · slices_S16x76x76x3x4_S16x76x76x3x2_0_0_0_0_0) : Ten F S16x76x76x3x4 .f32 → Ten F S16x76x76x3x2 .f32),
    StableHlo.unary main_v84 main_v86 ((extractStridedSlice S16x76x76x3x2 ![0, 0, 0, 0, 0] · slices_S16x76x76x3x4_S16x76x76x3x2_0_0_0_0_0) : Ten F S16x76x76x3x4 .f32 → Ten F S16x76x76x3x2 .f32),
    StableHlo.binary main_v85 main_v86 main_v87 (maximumf : Ten F S16x76x76x3x2 .f32 → Ten F S16x76x76x3x2 .f32 → Ten F S16x76x76x3x2 .f32),
    StableHlo.unary main_v73 main_v88 ((extractStridedSlice S16x76x76x3x2 ![0, 0, 0, 0, 2] · slices_S16x76x76x3x4_S16x76x76x3x2_0_0_0_0_2) : Ten F S16x76x76x3x4 .f32 → Ten F S16x76x76x3x2 .f32),
    StableHlo.unary main_v84 main_v89 ((extractStridedSlice S16x76x76x3x2 ![0, 0, 0, 0, 2] · slices_S16x76x76x3x4_S16x76x76x3x2_0_0_0_0_2) : Ten F S16x76x76x3x4 .f32 → Ten F S16x76x76x3x2 .f32),
    StableHlo.binary main_v88 main_v89 main_v90 (minimumf : Ten F S16x76x76x3x2 .f32 → Ten F S16x76x76x3x2 .f32 → Ten F S16x76x76x3x2 .f32),
    StableHlo.binary main_v90 main_v87 main_v91 (subf : Ten F S16x76x76x3x2 .f32 → Ten F S16x76x76x3x2 .f32 → Ten F S16x76x76x3x2 .f32),
    StableHlo.nullary main_cst_13 (constant (F := F) S_ .f32 0x00000000#32),
    StableHlo.unary main_cst_13 main_v92 (broadcastInDim S16x76x76x3x2 ![] bcast_S_S16x76x76x3x2 : Ten F S_ .f32 → Ten F S16x76x76x3x2 .f32),
    StableHlo.binary main_v91 main_v92 main_v93 (maximumf : Ten F S16x76x76x3x2 .f32 → Ten F S16x76x76x3x2 .f32 → Ten F S16x76x76x3x2 .f32),
    StableHlo.unary main_v93 main_v94 ((extractStridedSlice S16x76x76x3x1 ![0, 0, 0, 0, 0] · slices_S16x76x76x3x2_S16x76x76x3x1_0_0_0_0_0) : Ten F S16x76x76x3x2 .f32 → Ten F S16x76x76x3x1 .f32),
    StableHlo.reshape main_v94 main_v95 rfl shapeCasts_S16x76x76x3x1_S16x76x76x3,
    StableHlo.unary main_v93 main_v96 ((extractStridedSlice S16x76x76x3x1 ![0, 0, 0, 0, 1] · slices_S16x76x76x3x2_S16x76x76x3x1_0_0_0_0_1) : Ten F S16x76x76x3x2 .f32 → Ten F S16x76x76x3x1 .f32),
    StableHlo.reshape main_v96 main_v97 rfl shapeCasts_S16x76x76x3x1_S16x76x76x3,
    StableHlo.binary main_v95 main_v97 main_v98 (mulf : Ten F S16x76x76x3 .f32 → Ten F S16x76x76x3 .f32 → Ten F S16x76x76x3 .f32),
    StableHlo.binary main_v57 main_v62 main_v99 (addf : Ten F S16x76x76x3 .f32 → Ten F S16x76x76x3 .f32 → Ten F S16x76x76x3 .f32),
    StableHlo.binary main_v99 main_v98 main_v100 (subf : Ten F S16x76x76x3 .f32 → Ten F S16x76x76x3 .f32 → Ten F S16x76x76x3 .f32),
    StableHlo.binary main_v98 main_v100 main_v101 (Host.divf : Ten F S16x76x76x3 .f32 → Ten F S16x76x76x3 .f32 → Ten F S16x76x76x3 .f32),
    StableHlo.unary main_v73 main_v102 ((extractStridedSlice S16x76x76x3x2 ![0, 0, 0, 0, 0] · slices_S16x76x76x3x4_S16x76x76x3x2_0_0_0_0_0) : Ten F S16x76x76x3x4 .f32 → Ten F S16x76x76x3x2 .f32),
    StableHlo.unary main_v84 main_v103 ((extractStridedSlice S16x76x76x3x2 ![0, 0, 0, 0, 0] · slices_S16x76x76x3x4_S16x76x76x3x2_0_0_0_0_0) : Ten F S16x76x76x3x4 .f32 → Ten F S16x76x76x3x2 .f32),
    StableHlo.binary main_v102 main_v103 main_v104 (minimumf : Ten F S16x76x76x3x2 .f32 → Ten F S16x76x76x3x2 .f32 → Ten F S16x76x76x3x2 .f32) ]

set_option maxRecDepth 8192 in
theorem ops_5_sub : (ops_5 : List (HloOp τ sig (Elt F))).Forall fun op => op.bufs ⊆ tcRefs τ sig :=
  ⟨binary_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., reshape_bufs_sub .., unary_bufs_sub .., reshape_bufs_sub .., binary_bufs_sub .., binary_bufs_sub .., binary_bufs_sub .., binary_bufs_sub .., unary_bufs_sub .., unary_bufs_sub .., binary_bufs_sub ..⟩

set_option maxRecDepth 8192 in
theorem ops_5_fresh : (ops_5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

abbrev ops_6 : List (HloOp τ sig (Elt F)) :=
  [ StableHlo.unary main_v73 main_v105 ((extractStridedSlice S16x76x76x3x2 ![0, 0, 0, 0, 2] · slices_S16x76x76x3x4_S16x76x76x3x2_0_0_0_0_2) : Ten F S16x76x76x3x4 .f32 → Ten F S16x76x76x3x2 .f32),
    StableHlo.unary main_v84 main_v106 ((extractStridedSlice S16x76x76x3x2 ![0, 0, 0, 0, 2] · slices_S16x76x76x3x4_S16x76x76x3x2_0_0_0_0_2) : Ten F S16x76x76x3x4 .f32 → Ten F S16x76x76x3x2 .f32),
    StableHlo.binary main_v105 main_v106 main_v107 (maximumf : Ten F S16x76x76x3x2 .f32 → Ten F S16x76x76x3x2 .f32 → Ten F S16x76x76x3x2 .f32),
    StableHlo.binary main_v107 main_v104 main_v108 (subf : Ten F S16x76x76x3x2 .f32 → Ten F S16x76x76x3x2 .f32 → Ten F S16x76x76x3x2 .f32),
    StableHlo.nullary main_cst_14 (constant (F := F) S_ .f32 0x00000000#32),
    StableHlo.unary main_cst_14 main_v109 (broadcastInDim S16x76x76x3x2 ![] bcast_S_S16x76x76x3x2 : Ten F S_ .f32 → Ten F S16x76x76x3x2 .f32),
    StableHlo.binary main_v108 main_v109 main_v110 (maximumf : Ten F S16x76x76x3x2 .f32 → Ten F S16x76x76x3x2 .f32 → Ten F S16x76x76x3x2 .f32),
    StableHlo.unary main_v110 main_v111 ((extractStridedSlice S16x76x76x3x1 ![0, 0, 0, 0, 0] · slices_S16x76x76x3x2_S16x76x76x3x1_0_0_0_0_0) : Ten F S16x76x76x3x2 .f32 → Ten F S16x76x76x3x1 .f32),
    StableHlo.reshape main_v111 main_v112 rfl shapeCasts_S16x76x76x3x1_S16x76x76x3,
    StableHlo.unary main_v110 main_v113 ((extractStridedSlice S16x76x76x3x1 ![0, 0, 0, 0, 1] · slices_S16x76x76x3x2_S16x76x76x3x1_0_0_0_0_1) : Ten F S16x76x76x3x2 .f32 → Ten F S16x76x76x3x1 .f32),
    StableHlo.reshape main_v113 main_v114 rfl shapeCasts_S16x76x76x3x1_S16x76x76x3,
    StableHlo.binary main_v112 main_v114 main_v115 (mulf : Ten F S16x76x76x3 .f32 → Ten F S16x76x76x3 .f32 → Ten F S16x76x76x3 .f32),
    StableHlo.binary main_v115 main_v100 main_v116 (subf : Ten F S16x76x76x3 .f32 → Ten F S16x76x76x3 .f32 → Ten F S16x76x76x3 .f32),
    StableHlo.binary main_v116 main_v115 main_v117 (Host.divf : Ten F S16x76x76x3 .f32 → Ten F S16x76x76x3 .f32 → Ten F S16x76x76x3 .f32),
    StableHlo.binary main_v101 main_v117 main_v118 (subf : Ten F S16x76x76x3 .f32 → Ten F S16x76x76x3 .f32 → Ten F S16x76x76x3 .f32),
    StableHlo.unary main_v118 main_v119 (broadcastInDim S16x76x76x3x1 ![0, 1, 2, 3] bcast_S16x76x76x3_S16x76x76x3x1_0_1_2_3 : Ten F S16x76x76x3 .f32 → Ten F S16x76x76x3x1 .f32),
    StableHlo.unary main_v50 main_v120 ((extractStridedSlice S16x76x76x3x1 ![0, 0, 0, 0, 2] · slices_S16x76x76x3x4_S16x76x76x3x1_0_0_0_0_2) : Ten F S16x76x76x3x4 .f32 → Ten F S16x76x76x3x1 .f32),
    StableHlo.unary main_v50 main_v121 ((extractStridedSlice S16x76x76x3x1 ![0, 0, 0, 0, 3] · slices_S16x76x76x3x4_S16x76x76x3x1_0_0_0_0_3) : Ten F S16x76x76x3x4 .f32 → Ten F S16x76x76x3x1 .f32),
    StableHlo.binary main_v120 main_v121 main_v122 (mulf : Ten F S16x76x76x3x1 .f32 → Ten F S16x76x76x3x1 .f32 → Ten F S16x76x76x3x1 .f32),
    StableHlo.nullary main_cst_15 (constant (F := F) S_ .f32 0x48B48000#32),
    StableHlo.unary main_cst_15 main_v123 (broadcastInDim S16x76x76x3x1 ![] bcast_S_S16x76x76x3x1 : Ten F S_ .f32 → Ten F S16x76x76x3x1 .f32),
    StableHlo.binary main_v122 main_v123 main_v124 (Host.divf : Ten F S16x76x76x3x1 .f32 → Ten F S16x76x76x3x1 .f32 → Ten F S16x76x76x3x1 .f32),
    StableHlo.nullary main_cst_16 (constant (F := F) S_ .f32 0x40000000#32),
    StableHlo.unary main_cst_16 main_v125 (broadcastInDim S16x76x76x3x1 ![] bcast_S_S16x76x76x3x1 : Ten F S_ .f32 → Ten F S16x76x76x3x1 .f32),
    StableHlo.binary main_v125 main_v124 main_v126 (subf : Ten F S16x76x76x3x1 .f32 → Ten F S16x76x76x3x1 .f32 → Ten F S16x76x76x3x1 .f32),
    StableHlo.binary main_v51 main_v126 main_v127 (mulf : Ten F S16x76x76x3x1 .f32 → Ten F S16x76x76x3x1 .f32 → Ten F S16x76x76x3x1 .f32),
    StableHlo.nullary main_cst_17 (constant (F := F) S_ .f32 0x3F800000#32),
    StableHlo.unary main_cst_17 main_v128 (broadcastInDim S16x76x76x3x1 ![] bcast_S_S16x76x76x3x1 : Ten F S_ .f32 → Ten F S16x76x76x3x1 .f32),
    StableHlo.binary main_v128 main_v119 main_v129 (subf : Ten F S16x76x76x3x1 .f32 → Ten F S16x76x76x3x1 .f32 → Ten F S16x76x76x3x1 .f32),
    StableHlo.binary main_v127 main_v129 main_v130 (mulf : Ten F S16x76x76x3x1 .f32 → Ten F S16x76x76x3x1 .f32 → Ten F S16x76x76x3x1 .f32),
    StableHlo.unary main_v48 main_v131 (broadcastInDim S16x76x76x3x1x4 ![0, 1, 2, 3, 5] bcast_S16x76x76x3x4_S16x76x76x3x1x4_0_1_2_3_5 : Ten F S16x76x76x3x4 .f32 → Ten F S16x76x76x3x1x4 .f32),
    StableHlo.unary main_arg2 main_v132 (broadcastInDim S16x1x1x1x150x4 ![0, 4, 5] bcast_S16x150x4_S16x1x1x1x150x4_0_4_5 : Ten F S16x150x4 .f32 → Ten F S16x1x1x1x150x4 .f32),
    StableHlo.unary main_v131 main_v133 ((extractStridedSlice S16x76x76x3x1x1 ![0, 0, 0, 0, 0, 2] · slices_S16x76x76x3x1x4_S16x76x76x3x1x1_0_0_0_0_0_2) : Ten F S16x76x76x3x1x4 .f32 → Ten F S16x76x76x3x1x1 .f32),
    StableHlo.reshape main_v133 main_v134 rfl shapeCasts_S16x76x76x3x1x1_S16x76x76x3x1,
    StableHlo.unary main_v131 main_v135 ((extractStridedSlice S16x76x76x3x1x1 ![0, 0, 0, 0, 0, 3] · slices_S16x76x76x3x1x4_S16x76x76x3x1x1_0_0_0_0_0_3) : Ten F S16x76x76x3x1x4 .f32 → Ten F S16x76x76x3x1x1 .f32),
    StableHlo.reshape main_v135 main_v136 rfl shapeCasts_S16x76x76x3x1x1_S16x76x76x3x1,
    StableHlo.binary main_v134 main_v136 main_v137 (mulf : Ten F S16x76x76x3x1 .f32 → Ten F S16x76x76x3x1 .f32 → Ten F S16x76x76x3x1 .f32),
    StableHlo.unary main_v132 main_v138 ((extractStridedSlice S16x1x1x1x150x1 ![0, 0, 0, 0, 0, 2] · slices_S16x1x1x1x150x4_S16x1x1x1x150x1_0_0_0_0_0_2) : Ten F S16x1x1x1x150x4 .f32 → Ten F S16x1x1x1x150x1 .f32),
    StableHlo.reshape main_v138 main_v139 rfl shapeCasts_S16x1x1x1x150x1_S16x1x1x1x150,
    StableHlo.unary main_v132 main_v140 ((extractStridedSlice S16x1x1x1x150x1 ![0, 0, 0, 0, 0, 3] · slices_S16x1x1x1x150x4_S16x1x1x1x150x1_0_0_0_0_0_3) : Ten F S16x1x1x1x150x4 .f32 → Ten F S16x1x1x1x150x1 .f32),
    StableHlo.reshape main_v140 main_v141 rfl shapeCasts_S16x1x1x1x150x1_S16x1x1x1x150,
    StableHlo.binary main_v139 main_v141 main_v142 (mulf : Ten F S16x1x1x1x150 .f32 → Ten F S16x1x1x1x150 .f32 → Ten F S16x1x1x1x150 .f32),
    StableHlo.unary main_v131 main_v143 ((extractStridedSlice S16x76x76x3x1x2 ![0, 0, 0, 0, 0, 0] · slices_S16x76x76x3x1x4_S16x76x76x3x1x2_0_0_0_0_0_0) : Ten F S16x76x76x3x1x4 .f32 → Ten F S16x76x76x3x1x2 .f32),
    StableHlo.unary main_v131 main_v144 ((extractStridedSlice S16x76x76x3x1x2 ![0, 0, 0, 0, 0, 2] · slices_S16x76x76x3x1x4_S16x76x76x3x1x2_0_0_0_0_0_2) : Ten F S16x76x76x3x1x4 .f32 → Ten F S16x76x76x3x1x2 .f32),
    StableHlo.nullary main_cst_18 (constant (F := F) S_ .f32 0x3F000000#32),
    StableHlo.unary main_cst_18 main_v145 (broadcastInDim S16x76x76x3x1x2 ![] bcast_S_S16x76x76x3x1x2 : Ten F S_ .f32 → Ten F S16x76x76x3x1x2 .f32),
    StableHlo.binary main_v144 main_v145 main_v146 (mulf : Ten F S16x76x76x3x1x2 .f32 → Ten F S16x76x76x3x1x2 .f32 → Ten F S16x76x76x3x1x2 .f32),
    StableHlo.binary main_v143 main_v146 main_v147 (subf : Ten F S16x76x76x3x1x2 .f32 → Ten F S16x76x76x3x1x2 .f32 → Ten F S16x76x76x3x1x2 .f32),
    StableHlo.unary main_v131 main_v148 ((extractStridedSlice S16x76x76x3x1x2 ![0, 0, 0, 0, 0, 0] · slices_S16x76x76x3x1x4_S16x76x76x3x1x2_0_0_0_0_0_0) : Ten F S16x76x76x3x1x4 .f32 → Ten F S16x76x76x3x1x2 .f32),
    StableHlo.unary main_v131 main_v149 ((extractStridedSlice S16x76x76x3x1x2 ![0, 0, 0, 0, 0, 2] · slices_S16x76x76x3x1x4_S16x76x76x3x1x2_0_0_0_0_0_2) : Ten F S16x76x76x3x1x4 .f32 → Ten F S16x76x76x3x1x2 .f32),
    StableHlo.nullary main_cst_19 (constant (F := F) S_ .f32 0x3F000000#32),
    StableHlo.unary main_cst_19 main_v150 (broadcastInDim S16x76x76x3x1x2 ![] bcast_S_S16x76x76x3x1x2 : Ten F S_ .f32 → Ten F S16x76x76x3x1x2 .f32),
    StableHlo.binary main_v149 main_v150 main_v151 (mulf : Ten F S16x76x76x3x1x2 .f32 → Ten F S16x76x76x3x1x2 .f32 → Ten F S16x76x76x3x1x2 .f32),
    StableHlo.binary main_v148 main_v151 main_v152 (addf : Ten F S16x76x76x3x1x2 .f32 → Ten F S16x76x76x3x1x2 .f32 → Ten F S16x76x76x3x1x2 .f32) ]

set_option maxRecDepth 8192 in
theorem ops_6_sub : (ops_6 : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub .., unary_bufs_sub .., reshape_bufs_sub .., unary_bufs_sub .., reshape_bufs_sub .., binary_bufs_sub .., binary_bufs_sub .., binary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., unary_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., unary_bufs_sub .., nullary_bufs_sub .., unary_bufs_sub .., binary_bufs_sub .., binary_bufs_sub .., unary_bufs_sub .., unary_bufs_sub .., nullary_bufs_sub .., unary_bufs_sub .., binary_bufs_sub .., binary_bufs_sub ..⟩

set_option maxRecDepth 8192 in
theorem ops_6_fresh : (ops_6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops_7 : List (HloOp τ sig (Elt F)) :=
  [ StableHlo.binary main_v147 main_v152 main_v153 ((fun a b => concatenate S16x76x76x3x1x4 5 [⟨S16x76x76x3x1x2, a⟩, ⟨S16x76x76x3x1x2, b⟩] concatenates_S16x76x76x3x1x2_S16x76x76x3x1x2_S16x76x76x3x1x4_d5) : Ten F S16x76x76x3x1x2 .f32 → Ten F S16x76x76x3x1x2 .f32 → Ten F S16x76x76x3x1x4 .f32),
    StableHlo.unary main_v132 main_v154 ((extractStridedSlice S16x1x1x1x150x2 ![0, 0, 0, 0, 0, 0] · slices_S16x1x1x1x150x4_S16x1x1x1x150x2_0_0_0_0_0_0) : Ten F S16x1x1x1x150x4 .f32 → Ten F S16x1x1x1x150x2 .f32),
    StableHlo.unary main_v132 main_v155 ((extractStridedSlice S16x1x1x1x150x2 ![0, 0, 0, 0, 0, 2] · slices_S16x1x1x1x150x4_S16x1x1x1x150x2_0_0_0_0_0_2) : Ten F S16x1x1x1x150x4 .f32 → Ten F S16x1x1x1x150x2 .f32),
    StableHlo.nullary main_cst_20 (constant (F := F) S_ .f32 0x3F000000#32),
    StableHlo.unary main_cst_20 main_v156 (broadcastInDim S16x1x1x1x150x2 ![] bcast_S_S16x1x1x1x150x2 : Ten F S_ .f32 → Ten F S16x1x1x1x150x2 .f32),
    StableHlo.binary main_v155 main_v156 main_v157 (mulf : Ten F S16x1x1x1x150x2 .f32 → Ten F S16x1x1x1x150x2 .f32 → Ten F S16x1x1x1x150x2 .f32) ]

set_option maxRecDepth 8192 in
theorem ops_7_sub : (ops_7 : List (HloOp τ sig (Elt F))).Forall fun op => op.bufs ⊆ tcRefs τ sig :=
  ⟨binary_bufs_sub .., unary_bufs_sub .., unary_bufs_sub .., nullary_bufs_sub .., unary_bufs_sub .., binary_bufs_sub ..⟩

set_option maxRecDepth 8192 in
theorem ops_7_fresh : (ops_7 : List (HloOp τ sig (Elt F))).Forall fun op => op.fresh = ∅ :=
  ⟨rfl, rfl, rfl, rfl, rfl, rfl⟩

abbrev ops_8 : List (HloOp τ sig (Elt F)) :=
  [ StableHlo.binary main_v154 main_v157 main_v158 (subf : Ten F S16x1x1x1x150x2 .f32 → Ten F S16x1x1x1x150x2 .f32 → Ten F S16x1x1x1x150x2 .f32),
    StableHlo.unary main_v132 main_v159 ((extractStridedSlice S16x1x1x1x150x2 ![0, 0, 0, 0, 0, 0] · slices_S16x1x1x1x150x4_S16x1x1x1x150x2_0_0_0_0_0_0) : Ten F S16x1x1x1x150x4 .f32 → Ten F S16x1x1x1x150x2 .f32),
    StableHlo.unary main_v132 main_v160 ((extractStridedSlice S16x1x1x1x150x2 ![0, 0, 0, 0, 0, 2] · slices_S16x1x1x1x150x4_S16x1x1x1x150x2_0_0_0_0_0_2) : Ten F S16x1x1x1x150x4 .f32 → Ten F S16x1x1x1x150x2 .f32),
    StableHlo.nullary main_cst_21 (constant (F := F) S_ .f32 0x3F000000#32),
    StableHlo.unary main_cst_21 main_v161 (broadcastInDim S16x1x1x1x150x2 ![] bcast_S_S16x1x1x1x150x2 : Ten F S_ .f32 → Ten F S16x1x1x1x150x2 .f32),
    StableHlo.binary main_v160 main_v161 main_v162 (mulf : Ten F S16x1x1x1x150x2 .f32 → Ten F S16x1x1x1x150x2 .f32 → Ten F S16x1x1x1x150x2 .f32),
    StableHlo.binary main_v159 main_v162 main_v163 (addf : Ten F S16x1x1x1x150x2 .f32 → Ten F S16x1x1x1x150x2 .f32 → Ten F S16x1x1x1x150x2 .f32) ]

set_option maxRecDepth 8192 in
theorem ops_8_sub : (ops_8 : List (HloOp τ sig (Elt F))).Forall fun op => op.bufs ⊆ tcRefs τ sig :=
  ⟨binary_bufs_sub .., unary_bufs_sub .., unary_bufs_sub .., nullary_bufs_sub .., unary_bufs_sub .., binary_bufs_sub .., binary_bufs_sub ..⟩

set_option maxRecDepth 8192 in
theorem ops_8_fresh : (ops_8 : List (HloOp τ sig (Elt F))).Forall fun op => op.fresh = ∅ :=
  ⟨rfl, rfl, rfl, rfl, rfl, rfl, rfl⟩

abbrev ops_9 : List (HloOp τ sig (Elt F)) :=
  [ StableHlo.binary main_v158 main_v163 main_v164 ((fun a b => concatenate S16x1x1x1x150x4 5 [⟨S16x1x1x1x150x2, a⟩, ⟨S16x1x1x1x150x2, b⟩] concatenates_S16x1x1x1x150x2_S16x1x1x1x150x2_S16x1x1x1x150x4_d5) : Ten F S16x1x1x1x150x2 .f32 → Ten F S16x1x1x1x150x2 .f32 → Ten F S16x1x1x1x150x4 .f32),
    StableHlo.unary main_v153 main_v165 ((extractStridedSlice S16x76x76x3x1x2 ![0, 0, 0, 0, 0, 0] · slices_S16x76x76x3x1x4_S16x76x76x3x1x2_0_0_0_0_0_0) : Ten F S16x76x76x3x1x4 .f32 → Ten F S16x76x76x3x1x2 .f32),
    StableHlo.unary main_v164 main_v166 ((extractStridedSlice S16x1x1x1x150x2 ![0, 0, 0, 0, 0, 0] · slices_S16x1x1x1x150x4_S16x1x1x1x150x2_0_0_0_0_0_0) : Ten F S16x1x1x1x150x4 .f32 → Ten F S16x1x1x1x150x2 .f32),
    StableHlo.unary main_v165 main_v167 (broadcastInDim S16x76x76x3x150x2 ![0, 1, 2, 3, 4, 5] bcast_S16x76x76x3x1x2_S16x76x76x3x150x2_0_1_2_3_4_5 : Ten F S16x76x76x3x1x2 .f32 → Ten F S16x76x76x3x150x2 .f32),
    StableHlo.unary main_v166 main_v168 (broadcastInDim S16x76x76x3x150x2 ![0, 1, 2, 3, 4, 5] bcast_S16x1x1x1x150x2_S16x76x76x3x150x2_0_1_2_3_4_5 : Ten F S16x1x1x1x150x2 .f32 → Ten F S16x76x76x3x150x2 .f32),
    StableHlo.binary main_v167 main_v168 main_v169 (maximumf : Ten F S16x76x76x3x150x2 .f32 → Ten F S16x76x76x3x150x2 .f32 → Ten F S16x76x76x3x150x2 .f32),
    StableHlo.unary main_v153 main_v170 ((extractStridedSlice S16x76x76x3x1x2 ![0, 0, 0, 0, 0, 2] · slices_S16x76x76x3x1x4_S16x76x76x3x1x2_0_0_0_0_0_2) : Ten F S16x76x76x3x1x4 .f32 → Ten F S16x76x76x3x1x2 .f32),
    StableHlo.unary main_v164 main_v171 ((extractStridedSlice S16x1x1x1x150x2 ![0, 0, 0, 0, 0, 2] · slices_S16x1x1x1x150x4_S16x1x1x1x150x2_0_0_0_0_0_2) : Ten F S16x1x1x1x150x4 .f32 → Ten F S16x1x1x1x150x2 .f32),
    StableHlo.unary main_v170 main_v172 (broadcastInDim S16x76x76x3x150x2 ![0, 1, 2, 3, 4, 5] bcast_S16x76x76x3x1x2_S16x76x76x3x150x2_0_1_2_3_4_5 : Ten F S16x76x76x3x1x2 .f32 → Ten F S16x76x76x3x150x2 .f32),
    StableHlo.unary main_v171 main_v173 (broadcastInDim S16x76x76x3x150x2 ![0, 1, 2, 3, 4, 5] bcast_S16x1x1x1x150x2_S16x76x76x3x150x2_0_1_2_3_4_5 : Ten F S16x1x1x1x150x2 .f32 → Ten F S16x76x76x3x150x2 .f32),
    StableHlo.binary main_v172 main_v173 main_v174 (minimumf : Ten F S16x76x76x3x150x2 .f32 → Ten F S16x76x76x3x150x2 .f32 → Ten F S16x76x76x3x150x2 .f32),
    StableHlo.binary main_v174 main_v169 main_v175 (subf : Ten F S16x76x76x3x150x2 .f32 → Ten F S16x76x76x3x150x2 .f32 → Ten F S16x76x76x3x150x2 .f32),
    StableHlo.nullary main_cst_22 (constant (F := F) S_ .f32 0x00000000#32),
    StableHlo.unary main_cst_22 main_v176 (broadcastInDim S16x76x76x3x150x2 ![] bcast_S_S16x76x76x3x150x2 : Ten F S_ .f32 → Ten F S16x76x76x3x150x2 .f32),
    StableHlo.binary main_v175 main_v176 main_v177 (maximumf : Ten F S16x76x76x3x150x2 .f32 → Ten F S16x76x76x3x150x2 .f32 → Ten F S16x76x76x3x150x2 .f32),
    StableHlo.unary main_v177 main_v178 ((extractStridedSlice S16x76x76x3x150x1 ![0, 0, 0, 0, 0, 0] · slices_S16x76x76x3x150x2_S16x76x76x3x150x1_0_0_0_0_0_0) : Ten F S16x76x76x3x150x2 .f32 → Ten F S16x76x76x3x150x1 .f32),
    StableHlo.reshape main_v178 main_v179 rfl shapeCasts_S16x76x76x3x150x1_S16x76x76x3x150,
    StableHlo.unary main_v177 main_v180 ((extractStridedSlice S16x76x76x3x150x1 ![0, 0, 0, 0, 0, 1] · slices_S16x76x76x3x150x2_S16x76x76x3x150x1_0_0_0_0_0_1) : Ten F S16x76x76x3x150x2 .f32 → Ten F S16x76x76x3x150x1 .f32),
    StableHlo.reshape main_v180 main_v181 rfl shapeCasts_S16x76x76x3x150x1_S16x76x76x3x150,
    StableHlo.binary main_v179 main_v181 main_v182 (mulf : Ten F S16x76x76x3x150 .f32 → Ten F S16x76x76x3x150 .f32 → Ten F S16x76x76x3x150 .f32),
    StableHlo.unary main_v137 main_v183 (broadcastInDim S16x76x76x3x150 ![0, 1, 2, 3, 4] bcast_S16x76x76x3x1_S16x76x76x3x150_0_1_2_3_4 : Ten F S16x76x76x3x1 .f32 → Ten F S16x76x76x3x150 .f32),
    StableHlo.unary main_v142 main_v184 (broadcastInDim S16x76x76x3x150 ![0, 1, 2, 3, 4] bcast_S16x1x1x1x150_S16x76x76x3x150_0_1_2_3_4 : Ten F S16x1x1x1x150 .f32 → Ten F S16x76x76x3x150 .f32),
    StableHlo.binary main_v183 main_v184 main_v185 (addf : Ten F S16x76x76x3x150 .f32 → Ten F S16x76x76x3x150 .f32 → Ten F S16x76x76x3x150 .f32),
    StableHlo.binary main_v185 main_v182 main_v186 (subf : Ten F S16x76x76x3x150 .f32 → Ten F S16x76x76x3x150 .f32 → Ten F S16x76x76x3x150 .f32),
    StableHlo.binary main_v182 main_v186 main_v187 (Host.divf : Ten F S16x76x76x3x150 .f32 → Ten F S16x76x76x3x150 .f32 → Ten F S16x76x76x3x150 .f32),
    StableHlo.nullary main_cst_23 (constant (F := F) S_ .f32 0xFF800000#32),
    StableHlo.binary main_v187 main_cst_23 main_v188 ((fun x v => Host.reduce FloatOps.maximumf x v reducesTo_S16x76x76x3x150_S16x76x76x3_d4 h_S_) : Ten F S16x76x76x3x150 .f32 → Ten F S_ .f32 → Ten F S16x76x76x3 .f32),
    StableHlo.unary main_v188 main_v189 (broadcastInDim S16x76x76x3x1 ![0, 1, 2, 3] bcast_S16x76x76x3_S16x76x76x3x1_0_1_2_3 : Ten F S16x76x76x3 .f32 → Ten F S16x76x76x3x1 .f32),
    StableHlo.nullary main_cst_24 (constant (F := F) S_ .f32 0x3F800000#32),
    StableHlo.unary main_cst_24 main_v190 (broadcastInDim S16x76x76x3x1 ![] bcast_S_S16x76x76x3x1 : Ten F S_ .f32 → Ten F S16x76x76x3x1 .f32),
    StableHlo.binary main_v190 main_v51 main_v191 (subf : Ten F S16x76x76x3x1 .f32 → Ten F S16x76x76x3x1 .f32 → Ten F S16x76x76x3x1 .f32),
    StableHlo.nullary main_cst_25 (constant (F := F) S_ .f32 0x3F000000#32),
    StableHlo.unary main_cst_25 main_v192 (broadcastInDim S16x76x76x3x1 ![] bcast_S_S16x76x76x3x1 : Ten F S_ .f32 → Ten F S16x76x76x3x1 .f32),
    StableHlo.binary main_v189 main_v192 main_v193 (cmpf (F := F) .olt : Ten F S16x76x76x3x1 .f32 → Ten F S16x76x76x3x1 .f32 → Ten F S16x76x76x3x1 .i1),
    StableHlo.unary main_v193 main_v194 (uitofp (F := F) .f32 : Ten F S16x76x76x3x1 .i1 → Ten F S16x76x76x3x1 .f32),
    StableHlo.binary main_v191 main_v194 main_v195 (mulf : Ten F S16x76x76x3x1 .f32 → Ten F S16x76x76x3x1 .f32 → Ten F S16x76x76x3x1 .f32),
    StableHlo.binary main_v51 main_v49 main_v196 (subf : Ten F S16x76x76x3x1 .f32 → Ten F S16x76x76x3x1 .f32 → Ten F S16x76x76x3x1 .f32),
    StableHlo.binary main_v196 main_v196 main_v197 (mulf : Ten F S16x76x76x3x1 .f32 → Ten F S16x76x76x3x1 .f32 → Ten F S16x76x76x3x1 .f32),
    StableHlo.nullary main_cst_26 (constant (F := F) S_ .f32 0x00000000#32),
    StableHlo.unary main_cst_26 main_v198 (broadcastInDim S16x76x76x3x1 ![] bcast_S_S16x76x76x3x1 : Ten F S_ .f32 → Ten F S16x76x76x3x1 .f32),
    StableHlo.binary main_v46 main_v198 main_v199 (maximumf : Ten F S16x76x76x3x1 .f32 → Ten F S16x76x76x3x1 .f32 → Ten F S16x76x76x3x1 .f32),
    StableHlo.binary main_v46 main_v51 main_v200 (mulf : Ten F S16x76x76x3x1 .f32 → Ten F S16x76x76x3x1 .f32 → Ten F S16x76x76x3x1 .f32),
    StableHlo.binary main_v199 main_v200 main_v201 (subf : Ten F S16x76x76x3x1 .f32 → Ten F S16x76x76x3x1 .f32 → Ten F S16x76x76x3x1 .f32),
    StableHlo.unary main_v46 main_v202 (Host.absf : Ten F S16x76x76x3x1 .f32 → Ten F S16x76x76x3x1 .f32),
    StableHlo.unary main_v202 main_v203 (Host.negf : Ten F S16x76x76x3x1 .f32 → Ten F S16x76x76x3x1 .f32),
    StableHlo.unary main_v203 main_v204 (Host.exp : Ten F S16x76x76x3x1 .f32 → Ten F S16x76x76x3x1 .f32),
    StableHlo.unary main_v204 main_v205 (Host.log1p : Ten F S16x76x76x3x1 .f32 → Ten F S16x76x76x3x1 .f32),
    StableHlo.binary main_v201 main_v205 main_v206 (addf : Ten F S16x76x76x3x1 .f32 → Ten F S16x76x76x3x1 .f32 → Ten F S16x76x76x3x1 .f32),
    StableHlo.binary main_v51 main_v206 main_v207 (mulf : Ten F S16x76x76x3x1 .f32 → Ten F S16x76x76x3x1 .f32 → Ten F S16x76x76x3x1 .f32),
    StableHlo.binary main_v195 main_v206 main_v208 (mulf : Ten F S16x76x76x3x1 .f32 → Ten F S16x76x76x3x1 .f32 → Ten F S16x76x76x3x1 .f32),
    StableHlo.binary main_v207 main_v208 main_v209 (addf : Ten F S16x76x76x3x1 .f32 → Ten F S16x76x76x3x1 .f32 → Ten F S16x76x76x3x1 .f32),
    StableHlo.binary main_v197 main_v209 main_v210 (mulf : Ten F S16x76x76x3x1 .f32 → Ten F S16x76x76x3x1 .f32 → Ten F S16x76x76x3x1 .f32),
    StableHlo.nullary main_cst_27 (constant (F := F) S_ .f32 0x00000000#32) ]

set_option maxRecDepth 8192 in
theorem ops_9_sub : (ops_9 : List (HloOp τ sig (Elt F))).Forall fun op => op.bufs ⊆ tcRefs τ sig :=
  ⟨binary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., unary_bufs_sub .., binary_bufs_sub .., unary_bufs_sub .., reshape_bufs_sub .., unary_bufs_sub .., reshape_bufs_sub .., binary_bufs_sub .., unary_bufs_sub .., unary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., binary_bufs_sub .., binary_bufs_sub .., binary_bufs_sub .., binary_bufs_sub .., binary_bufs_sub .., nullary_bufs_sub ..⟩

set_option maxRecDepth 8192 in
theorem ops_9_fresh : (ops_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops_10 : List (HloOp τ sig (Elt F)) :=
  [ StableHlo.unary main_cst_27 main_v211 (broadcastInDim S16x76x76x3x80 ![] bcast_S_S16x76x76x3x80 : Ten F S_ .f32 → Ten F S16x76x76x3x80 .f32),
    StableHlo.binary main_v47 main_v211 main_v212 (maximumf : Ten F S16x76x76x3x80 .f32 → Ten F S16x76x76x3x80 .f32 → Ten F S16x76x76x3x80 .f32),
    StableHlo.binary main_v47 main_v52 main_v213 (mulf : Ten F S16x76x76x3x80 .f32 → Ten F S16x76x76x3x80 .f32 → Ten F S16x76x76x3x80 .f32),
    StableHlo.binary main_v212 main_v213 main_v214 (subf : Ten F S16x76x76x3x80 .f32 → Ten F S16x76x76x3x80 .f32 → Ten F S16x76x76x3x80 .f32),
    StableHlo.unary main_v47 main_v215 (Host.absf : Ten F S16x76x76x3x80 .f32 → Ten F S16x76x76x3x80 .f32),
    StableHlo.unary main_v215 main_v216 (Host.negf : Ten F S16x76x76x3x80 .f32 → Ten F S16x76x76x3x80 .f32),
    StableHlo.unary main_v216 main_v217 (Host.exp : Ten F S16x76x76x3x80 .f32 → Ten F S16x76x76x3x80 .f32),
    StableHlo.unary main_v217 main_v218 (Host.log1p : Ten F S16x76x76x3x80 .f32 → Ten F S16x76x76x3x80 .f32),
    StableHlo.binary main_v214 main_v218 main_v219 (addf : Ten F S16x76x76x3x80 .f32 → Ten F S16x76x76x3x80 .f32 → Ten F S16x76x76x3x80 .f32),
    StableHlo.unary main_v51 main_v220 (broadcastInDim S16x76x76x3x80 ![0, 1, 2, 3, 4] bcast_S16x76x76x3x1_S16x76x76x3x80_0_1_2_3_4 : Ten F S16x76x76x3x1 .f32 → Ten F S16x76x76x3x80 .f32),
    StableHlo.binary main_v220 main_v219 main_v221 (mulf : Ten F S16x76x76x3x80 .f32 → Ten F S16x76x76x3x80 .f32 → Ten F S16x76x76x3x80 .f32),
    StableHlo.nullary main_cst_28 (constant (F := F) S_ .f32 0x00000000#32),
    StableHlo.binary main_v130 main_cst_28 main_v222 ((fun x v => Host.reduceAdd x v reducesTo_S16x76x76x3x1_S16_d1_2_3_4 h_S_) : Ten F S16x76x76x3x1 .f32 → Ten F S_ .f32 → Ten F S16 .f32),
    StableHlo.nullary main_cst_29 (constant (F := F) S_ .f32 0x00000000#32),
    StableHlo.binary main_v222 main_cst_29 main_v223 ((fun x v => Host.reduceAdd x v reducesTo_S16_S_d0 h_S_) : Ten F S16 .f32 → Ten F S_ .f32 → Ten F S_ .f32),
    StableHlo.nullary main_cst_30 (constant (F := F) S_ .f32 0x41800000#32),
    StableHlo.binary main_v223 main_cst_30 main_v224 (Host.divf : Ten F S_ .f32 → Ten F S_ .f32 → Ten F S_ .f32),
    StableHlo.nullary main_cst_31 (constant (F := F) S_ .f32 0x00000000#32),
    StableHlo.binary main_v210 main_cst_31 main_v225 ((fun x v => Host.reduceAdd x v reducesTo_S16x76x76x3x1_S16_d1_2_3_4 h_S_) : Ten F S16x76x76x3x1 .f32 → Ten F S_ .f32 → Ten F S16 .f32),
    StableHlo.nullary main_cst_32 (constant (F := F) S_ .f32 0x00000000#32),
    StableHlo.binary main_v225 main_cst_32 main_v226 ((fun x v => Host.reduceAdd x v reducesTo_S16_S_d0 h_S_) : Ten F S16 .f32 → Ten F S_ .f32 → Ten F S_ .f32),
    StableHlo.nullary main_cst_33 (constant (F := F) S_ .f32 0x41800000#32),
    StableHlo.binary main_v226 main_cst_33 main_v227 (Host.divf : Ten F S_ .f32 → Ten F S_ .f32 → Ten F S_ .f32),
    StableHlo.nullary main_cst_34 (constant (F := F) S_ .f32 0x00000000#32),
    StableHlo.binary main_v221 main_cst_34 main_v228 ((fun x v => Host.reduceAdd x v reducesTo_S16x76x76x3x80_S16_d1_2_3_4 h_S_) : Ten F S16x76x76x3x80 .f32 → Ten F S_ .f32 → Ten F S16 .f32),
    StableHlo.nullary main_cst_35 (constant (F := F) S_ .f32 0x00000000#32),
    StableHlo.binary main_v228 main_cst_35 main_v229 ((fun x v => Host.reduceAdd x v reducesTo_S16_S_d0 h_S_) : Ten F S16 .f32 → Ten F S_ .f32 → Ten F S_ .f32),
    StableHlo.nullary main_cst_36 (constant (F := F) S_ .f32 0x41800000#32),
    StableHlo.binary main_v229 main_cst_36 main_v230 (Host.divf : Ten F S_ .f32 → Ten F S_ .f32 → Ten F S_ .f32),
    StableHlo.unary main_v224 main_v231 (broadcastInDim S1 ![] bcast_S_S1 : Ten F S_ .f32 → Ten F S1 .f32),
    StableHlo.unary main_v227 main_v232 (broadcastInDim S1 ![] bcast_S_S1 : Ten F S_ .f32 → Ten F S1 .f32),
    StableHlo.unary main_v230 main_v233 (broadcastInDim S1 ![] bcast_S_S1 : Ten F S_ .f32 → Ten F S1 .f32) ]

set_option maxRecDepth 8192 in
theorem ops_10_sub : (ops_10 : List (HloOp τ sig (Elt F))).Forall fun op => op.bufs ⊆ tcRefs τ sig :=
  ⟨unary_bufs_sub .., binary_bufs_sub .., binary_bufs_sub .., binary_bufs_sub .., unary_bufs_sub .., unary_bufs_sub .., unary_bufs_sub .., unary_bufs_sub .., binary_bufs_sub .., unary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., binary_bufs_sub .., unary_bufs_sub .., unary_bufs_sub .., unary_bufs_sub ..⟩

set_option maxRecDepth 8192 in
theorem ops_10_fresh : (ops_10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev ops_11 : List (HloOp τ sig (Elt F)) :=
  [ StableHlo.nary ![main_v231, main_v232, main_v233] main_v234 (fun u => concatenate S3 0 [⟨S1, u 0⟩, ⟨S1, u 1⟩, ⟨S1, u 2⟩] concatenates_S1_S1_S1_S3_d0) ]

set_option maxRecDepth 8192 in
theorem ops_11_sub : (ops_11 : List (HloOp τ sig (Elt F))).Forall fun op => op.bufs ⊆ tcRefs τ sig :=
  nary_bufs_sub ..

set_option maxRecDepth 8192 in
theorem ops_11_fresh : (ops_11 : List (HloOp τ sig (Elt F))).Forall fun op => op.fresh = ∅ :=
  rfl

end Cert.ReferenceIdeal.HR

end
-- ==== Proof.Ref.RunEq.lean ====
import proofs.«103457_j67783173865496_1_alg».proof.Proof.Ref.Ops
import Idealize.ShloMosaic.Lib.Pipeline.Regions

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

/-- What holds of every element of two lists holds of every element of their concatenation. -/
theorem forall_append {α : Type _} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

def opsW0 : List (HloOp τ sig (Elt F)) := ops_0 ++ (ops_1 ++ ops_2)

def opsW1 : List (HloOp τ sig (Elt F)) := ops_3 ++ (ops_4 ++ ops_5)

def opsW2 : List (HloOp τ sig (Elt F)) := ops_6 ++ ops_7

def opsW3 : List (HloOp τ sig (Elt F)) := ops_8 ++ ops_9

def opsW4 : List (HloOp τ sig (Elt F)) := ops_10 ++ ops_11

def ops : List (HloOp τ sig (Elt F)) := opsW0 ++ (opsW1 ++ (opsW2 ++ (opsW3 ++ opsW4)))

theorem main_part0_eq (c : Dev nD) : main_part0 (F := F) c = seq opsW0 := by chain_rfl
theorem main_part1_eq (c : Dev nD) : main_part1 (F := F) c = seq opsW1 := by chain_rfl
theorem main_part2_eq (c : Dev nD) : main_part2 (F := F) c = seq opsW2 := by chain_rfl
theorem main_part3_eq (c : Dev nD) : main_part3 (F := F) c = seq opsW3 := by chain_rfl
theorem main_part4_eq (c : Dev nD) : main_part4 (F := F) c = seq opsW4 := by chain_rfl

/-- @main is its 273 operations in sequence: each printed window unfolds to the sequence of its own lists. -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append (forall_append ops_0_sub (forall_append ops_1_sub ops_2_sub))
    (forall_append (forall_append ops_3_sub (forall_append ops_4_sub ops_5_sub))
      (forall_append (forall_append ops_6_sub ops_7_sub)
        (forall_append (forall_append ops_8_sub ops_9_sub) (forall_append ops_10_sub ops_11_sub))))

theorem ops_fresh : (ops : List (HloOp τ sig (Elt F))).Forall fun op => op.fresh = ∅ :=
  forall_append (forall_append ops_0_fresh (forall_append ops_1_fresh ops_2_fresh))
    (forall_append (forall_append ops_3_fresh (forall_append ops_4_fresh ops_5_fresh))
      (forall_append (forall_append ops_6_fresh ops_7_fresh)
        (forall_append (forall_append ops_8_fresh ops_9_fresh) (forall_append ops_10_fresh ops_11_fresh))))

end Cert.ReferenceIdeal.HR

end
-- ==== Proof.Ref.Inv.lean ====
import proofs.«103457_j67783173865496_1_alg».proof.Proof.Ref.Stages
import proofs.«103457_j67783173865496_1_alg».proof.Proof.Ref.Ops

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

def Inv_0 (V : Valuation τ sig (Elt F)) (a0 : A0 F) (a1 : A1 F) (a2 : A2 F) : Prop :=
  V (Proc.devRef .tc main_arg0) = a0
  ∧ V (Proc.devRef .tc main_arg1) = a1
  ∧ V (Proc.devRef .tc main_arg2) = a2

def Inv_1 (V : Valuation τ sig (Elt F)) (a0 : A0 F) (a1 : A1 F) (a2 : A2 F) : Prop :=
  V (Proc.devRef .tc main_arg0) = a0
  ∧ V (Proc.devRef .tc main_arg1) = a1
  ∧ V (Proc.devRef .tc main_arg2) = a2
  ∧ V (Proc.devRef .tc main_cst) = res_cst a0 a1 a2
  ∧ V (Proc.devRef .tc main_v1) = res_v1 a0 a1 a2
  ∧ V (Proc.devRef .tc main_v2) = res_v2 a0 a1 a2
  ∧ V (Proc.devRef .tc main_v3) = res_v3 a0 a1 a2
  ∧ V (Proc.devRef .tc main_v4) = res_v4 a0 a1 a2
  ∧ V (Proc.devRef .tc main_v9) = res_v9 a0 a1 a2
  ∧ V (Proc.devRef .tc main_v10) = res_v10 a0 a1 a2

def Inv_2 (V : Valuation τ sig (Elt F)) (a0 : A0 F) (a1 : A1 F) (a2 : A2 F) : Prop :=
  V (Proc.devRef .tc main_arg0) = a0
  ∧ V (Proc.devRef .tc main_arg1) = a1
  ∧ V (Proc.devRef .tc main_arg2) = a2
  ∧ V (Proc.devRef .tc main_v27) = res_v27 a0 a1 a2
  ∧ V (Proc.devRef .tc main_v31) = res_v31 a0 a1 a2
  ∧ V (Proc.devRef .tc main_v37) = res_v37 a0 a1 a2
  ∧ V (Proc.devRef .tc main_v43) = res_v43 a0 a1 a2

def Inv_3 (V : Valuation τ sig (Elt F)) (a0 : A0 F) (a1 : A1 F) (a2 : A2 F) : Prop :=
  V (Proc.devRef .tc main_arg0) = a0
  ∧ V (Proc.devRef .tc main_arg1) = a1
  ∧ V (Proc.devRef .tc main_arg2) = a2
  ∧ V (Proc.devRef .tc main_v46) = res_v46 a0 a1 a2
  ∧ V (Proc.devRef .tc main_v47) = res_v47 a0 a1 a2
  ∧ V (Proc.devRef .tc main_v48) = res_v48 a0 a1 a2
  ∧ V (Proc.devRef .tc main_v49) = res_v49 a0 a1 a2

def Inv_4 (V : Valuation τ sig (Elt F)) (a0 : A0 F) (a1 : A1 F) (a2 : A2 F) : Prop :=
  V (Proc.devRef .tc main_arg0) = a0
  ∧ V (Proc.devRef .tc main_arg1) = a1
  ∧ V (Proc.devRef .tc main_arg2) = a2
  ∧ V (Proc.devRef .tc main_v46) = res_v46 a0 a1 a2
  ∧ V (Proc.devRef .tc main_v47) = res_v47 a0 a1 a2
  ∧ V (Proc.devRef .tc main_v48) = res_v48 a0 a1 a2
  ∧ V (Proc.devRef .tc main_v49) = res_v49 a0 a1 a2
  ∧ V (Proc.devRef .tc main_v50) = res_v50 a0 a1 a2
  ∧ V (Proc.devRef .tc main_v51) = res_v51 a0 a1 a2
  ∧ V (Proc.devRef .tc main_v52) = res_v52 a0 a1 a2
  ∧ V (Proc.devRef .tc main_v57) = res_v57 a0 a1 a2
  ∧ V (Proc.devRef .tc main_v62) = res_v62 a0 a1 a2
  ∧ V (Proc.devRef .tc main_v67) = res_v67 a0 a1 a2
  ∧ V (Proc.devRef .tc main_v72) = res_v72 a0 a1 a2

def Inv_5 (V : Valuation τ sig (Elt F)) (a0 : A0 F) (a1 : A1 F) (a2 : A2 F) : Prop :=
  V (Proc.devRef .tc main_arg0) = a0
  ∧ V (Proc.devRef .tc main_arg1) = a1
  ∧ V (Proc.devRef .tc main_arg2) = a2
  ∧ V (Proc.devRef .tc main_v46) = res_v46 a0 a1 a2
  ∧ V (Proc.devRef .tc main_v47) = res_v47 a0 a1 a2
  ∧ V (Proc.devRef .tc main_v48) = res_v48 a0 a1 a2
  ∧ V (Proc.devRef .tc main_v49) = res_v49 a0 a1 a2
  ∧ V (Proc.devRef .tc main_v50) = res_v50 a0 a1 a2
  ∧ V (Proc.devRef .tc main_v51) = res_v51 a0 a1 a2
  ∧ V (Proc.devRef .tc main_v52) = res_v52 a0 a1 a2
  ∧ V (Proc.devRef .tc main_v57) = res_v57 a0 a1 a2
  ∧ V (Proc.devRef .tc main_v62) = res_v62 a0 a1 a2
  ∧ V (Proc.devRef .tc main_v73) = res_v73 a0 a1 a2
  ∧ V (Proc.devRef .tc main_v78) = res_v78 a0 a1 a2
  ∧ V (Proc.devRef .tc main_v83) = res_v83 a0 a1 a2

def Inv_6 (V : Valuation τ sig (Elt F)) (a0 : A0 F) (a1 : A1 F) (a2 : A2 F) : Prop :=
  V (Proc.devRef .tc main_arg0) = a0
  ∧ V (Proc.devRef .tc main_arg1) = a1
  ∧ V (Proc.devRef .tc main_arg2) = a2
  ∧ V (Proc.devRef .tc main_v46) = res_v46 a0 a1 a2
  ∧ V (Proc.devRef .tc main_v47) = res_v47 a0 a1 a2
  ∧ V (Proc.devRef .tc main_v48) = res_v48 a0 a1 a2
  ∧ V (Proc.devRef .tc main_v49) = res_v49 a0 a1 a2
  ∧ V (Proc.devRef .tc main_v50) = res_v50 a0 a1 a2
  ∧ V (Proc.devRef .tc main_v51) = res_v51 a0 a1 a2
  ∧ V (Proc.devRef .tc main_v52) = res_v52 a0 a1 a2
  ∧ V (Proc.devRef .tc main_v73) = res_v73 a0 a1 a2
  ∧ V (Proc.devRef .tc main_v84) = res_v84 a0 a1 a2
  ∧ V (Proc.devRef .tc main_v100) = res_v100 a0 a1 a2
  ∧ V (Proc.devRef .tc main_v101) = res_v101 a0 a1 a2
  ∧ V (Proc.devRef .tc main_v104) = res_v104 a0 a1 a2

def Inv_7 (V : Valuation τ sig (Elt F)) (a0 : A0 F) (a1 : A1 F) (a2 : A2 F) : Prop :=
  V (Proc.devRef .tc main_arg0) = a0
  ∧ V (Proc.devRef .tc main_arg1) = a1
  ∧ V (Proc.devRef .tc main_arg2) = a2
  ∧ V (Proc.devRef .tc main_v46) = res_v46 a0 a1 a2
  ∧ V (Proc.devRef .tc main_v47) = res_v47 a0 a1 a2
  ∧ V (Proc.devRef .tc main_v49) = res_v49 a0 a1 a2
  ∧ V (Proc.devRef .tc main_v51) = res_v51 a0 a1 a2
  ∧ V (Proc.devRef .tc main_v52) = res_v52 a0 a1 a2
  ∧ V (Proc.devRef .tc main_v130) = res_v130 a0 a1 a2
  ∧ V (Proc.devRef .tc main_v132) = res_v132 a0 a1 a2
  ∧ V (Proc.devRef .tc main_v137) = res_v137 a0 a1 a2
  ∧ V (Proc.devRef .tc main_v142) = res_v142 a0 a1 a2
  ∧ V (Proc.devRef .tc main_v147) = res_v147 a0 a1 a2
  ∧ V (Proc.devRef .tc main_v152) = res_v152 a0 a1 a2

def Inv_8 (V : Valuation τ sig (Elt F)) (a0 : A0 F) (a1 : A1 F) (a2 : A2 F) : Prop :=
  V (Proc.devRef .tc main_arg0) = a0
  ∧ V (Proc.devRef .tc main_arg1) = a1
  ∧ V (Proc.devRef .tc main_arg2) = a2
  ∧ V (Proc.devRef .tc main_v46) = res_v46 a0 a1 a2
  ∧ V (Proc.devRef .tc main_v47) = res_v47 a0 a1 a2
  ∧ V (Proc.devRef .tc main_v49) = res_v49 a0 a1 a2
  ∧ V (Proc.devRef .tc main_v51) = res_v51 a0 a1 a2
  ∧ V (Proc.devRef .tc main_v52) = res_v52 a0 a1 a2
  ∧ V (Proc.devRef .tc main_v130) = res_v130 a0 a1 a2
  ∧ V (Proc.devRef .tc main_v132) = res_v132 a0 a1 a2
  ∧ V (Proc.devRef .tc main_v137) = res_v137 a0 a1 a2
  ∧ V (Proc.devRef .tc main_v142) = res_v142 a0 a1 a2
  ∧ V (Proc.devRef .tc main_v153) = res_v153 a0 a1 a2
  ∧ V (Proc.devRef .tc main_v154) = res_v154 a0 a1 a2
  ∧ V (Proc.devRef .tc main_v157) = res_v157 a0 a1 a2

def Inv_9 (V : Valuation τ sig (Elt F)) (a0 : A0 F) (a1 : A1 F) (a2 : A2 F) : Prop :=
  V (Proc.devRef .tc main_arg0) = a0
  ∧ V (Proc.devRef .tc main_arg1) = a1
  ∧ V (Proc.devRef .tc main_arg2) = a2
  ∧ V (Proc.devRef .tc main_v46) = res_v46 a0 a1 a2
  ∧ V (Proc.devRef .tc main_v47) = res_v47 a0 a1 a2
  ∧ V (Proc.devRef .tc main_v49) = res_v49 a0 a1 a2
  ∧ V (Proc.devRef .tc main_v51) = res_v51 a0 a1 a2
  ∧ V (Proc.devRef .tc main_v52) = res_v52 a0 a1 a2
  ∧ V (Proc.devRef .tc main_v130) = res_v130 a0 a1 a2
  ∧ V (Proc.devRef .tc main_v137) = res_v137 a0 a1 a2
  ∧ V (Proc.devRef .tc main_v142) = res_v142 a0 a1 a2
  ∧ V (Proc.devRef .tc main_v153) = res_v153 a0 a1 a2
  ∧ V (Proc.devRef .tc main_v158) = res_v158 a0 a1 a2
  ∧ V (Proc.devRef .tc main_v163) = res_v163 a0 a1 a2

def Inv_10 (V : Valuation τ sig (Elt F)) (a0 : A0 F) (a1 : A1 F) (a2 : A2 F) : Prop :=
  V (Proc.devRef .tc main_arg0) = a0
  ∧ V (Proc.devRef .tc main_arg1) = a1
  ∧ V (Proc.devRef .tc main_arg2) = a2
  ∧ V (Proc.devRef .tc main_v47) = res_v47 a0 a1 a2
  ∧ V (Proc.devRef .tc main_v51) = res_v51 a0 a1 a2
  ∧ V (Proc.devRef .tc main_v52) = res_v52 a0 a1 a2
  ∧ V (Proc.devRef .tc main_v130) = res_v130 a0 a1 a2
  ∧ V (Proc.devRef .tc main_v210) = res_v210 a0 a1 a2
  ∧ V (Proc.devRef .tc main_cst_27) = res_cst_27 a0 a1 a2

def Inv_11 (V : Valuation τ sig (Elt F)) (a0 : A0 F) (a1 : A1 F) (a2 : A2 F) : Prop :=
  V (Proc.devRef .tc main_arg0) = a0
  ∧ V (Proc.devRef .tc main_arg1) = a1
  ∧ V (Proc.devRef .tc main_arg2) = a2
  ∧ V (Proc.devRef .tc main_v231) = res_v231 a0 a1 a2
  ∧ V (Proc.devRef .tc main_v232) = res_v232 a0 a1 a2
  ∧ V (Proc.devRef .tc main_v233) = res_v233 a0 a1 a2

def Inv_12 (V : Valuation τ sig (Elt F)) (a0 : A0 F) (a1 : A1 F) (a2 : A2 F) : Prop :=
  V (Proc.devRef .tc main_arg0) = a0
  ∧ V (Proc.devRef .tc main_arg1) = a1
  ∧ V (Proc.devRef .tc main_arg2) = a2
  ∧ V (Proc.devRef .tc main_v234) = res_v234 a0 a1 a2

end Cert.ReferenceIdeal.HR

end
-- ==== Proof.Ref.Run00.lean ====
import proofs.«103457_j67783173865496_1_alg».proof.Proof.Ref.Inv
import proofs.«103457_j67783173865496_1_alg».proof.Proof.LibNary3

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem step_0 {V : Valuation τ sig (Elt F)} {a0 : A0 F} {a1 : A1 F} {a2 : A2 F} (h : Inv_0 V a0 a1 a2) :
    Inv_1 (after ops_0 V) a0 a1 a2 := by
  obtain ⟨h0, h1, h2⟩ := h
  unfold Inv_1
  simp only [ops_0]
  after_results_simp
  rw [h0, h1, h2]
  exact ⟨rfl, rfl, rfl, rfl, rfl, rfl, rfl, rfl, rfl, rfl⟩

end Cert.ReferenceIdeal.HR

end
-- ==== Proof.Ref.Run01.lean ====
import proofs.«103457_j67783173865496_1_alg».proof.Proof.Ref.Inv
import proofs.«103457_j67783173865496_1_alg».proof.Proof.LibNary3

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem step_1 {V : Valuation τ sig (Elt F)} {a0 : A0 F} {a1 : A1 F} {a2 : A2 F} (h : Inv_1 V a0 a1 a2) :
    Inv_2 (after ops_1 V) a0 a1 a2 := by
  obtain ⟨h0, h1, h2, hcst, hv1, hv2, hv3, hv4, hv9, hv10⟩ := h
  unfold Inv_2
  simp only [ops_1]
  after_results_simp
  rw [h0, h1, h2, hcst, hv1, hv2, hv3, hv4, hv9, hv10]
  exact ⟨rfl, rfl, rfl, rfl, rfl, rfl, rfl⟩

end Cert.ReferenceIdeal.HR

end
-- ==== Proof.Ref.Run02.lean ====
import proofs.«103457_j67783173865496_1_alg».proof.Proof.Ref.Inv
import proofs.«103457_j67783173865496_1_alg».proof.Proof.LibNary3

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem step_2 {V : Valuation τ sig (Elt F)} {a0 : A0 F} {a1 : A1 F} {a2 : A2 F} (h : Inv_2 V a0 a1 a2) :
    Inv_3 (after ops_2 V) a0 a1 a2 := by
  obtain ⟨h0, h1, h2, hv27, hv31, hv37, hv43⟩ := h
  unfold Inv_3
  simp only [ops_2]
  after_results_simp

  dsimp only [Matrix.cons_val]
  rw [h0, h1, h2, hv27, hv31, hv37, hv43]
  exact ⟨rfl, rfl, rfl, rfl, rfl, rfl, rfl⟩

end Cert.ReferenceIdeal.HR

end
-- ==== Proof.Ref.Run03.lean ====
import proofs.«103457_j67783173865496_1_alg».proof.Proof.Ref.Inv
import proofs.«103457_j67783173865496_1_alg».proof.Proof.LibNary3

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem step_3 {V : Valuation τ sig (Elt F)} {a0 : A0 F} {a1 : A1 F} {a2 : A2 F} (h : Inv_3 V a0 a1 a2) :
    Inv_4 (after ops_3 V) a0 a1 a2 := by
  obtain ⟨h0, h1, h2, hv46, hv47, hv48, hv49⟩ := h
  unfold Inv_4
  simp only [ops_3]
  after_results_simp
  rw [h0, h1, h2, hv46, hv47, hv48, hv49]
  exact ⟨rfl, rfl, rfl, rfl, rfl, rfl, rfl, rfl, rfl, rfl, rfl, rfl, rfl, rfl⟩

end Cert.ReferenceIdeal.HR

end
-- ==== Proof.Ref.Run04.lean ====
import proofs.«103457_j67783173865496_1_alg».proof.Proof.Ref.Inv
import proofs.«103457_j67783173865496_1_alg».proof.Proof.LibNary3

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem step_4 {V : Valuation τ sig (Elt F)} {a0 : A0 F} {a1 : A1 F} {a2 : A2 F} (h : Inv_4 V a0 a1 a2) :
    Inv_5 (after ops_4 V) a0 a1 a2 := by
  obtain ⟨h0, h1, h2, hv46, hv47, hv48, hv49, hv50, hv51, hv52, hv57, hv62, hv67, hv72⟩ := h
  unfold Inv_5
  simp only [ops_4]
  after_results_simp
  rw [h0, h1, h2, hv46, hv47, hv48, hv49, hv50, hv51, hv52, hv57, hv62, hv67, hv72]
  exact ⟨rfl, rfl, rfl, rfl, rfl, rfl, rfl, rfl, rfl, rfl, rfl, rfl, rfl, rfl, rfl⟩

end Cert.ReferenceIdeal.HR

end
-- ==== Proof.Ref.Run05.lean ====
import proofs.«103457_j67783173865496_1_alg».proof.Proof.Ref.Inv
import proofs.«103457_j67783173865496_1_alg».proof.Proof.LibNary3

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem step_5 {V : Valuation τ sig (Elt F)} {a0 : A0 F} {a1 : A1 F} {a2 : A2 F} (h : Inv_5 V a0 a1 a2) :
    Inv_6 (after ops_5 V) a0 a1 a2 := by
  obtain ⟨h0, h1, h2, hv46, hv47, hv48, hv49, hv50, hv51, hv52, hv57, hv62, hv73, hv78, hv83⟩ := h
  unfold Inv_6
  simp only [ops_5]
  after_results_simp
  rw [h0, h1, h2, hv46, hv47, hv48, hv49, hv50, hv51, hv52, hv57, hv62, hv73, hv78, hv83]
  exact ⟨rfl, rfl, rfl, rfl, rfl, rfl, rfl, rfl, rfl, rfl, rfl, rfl, rfl, rfl, rfl⟩

end Cert.ReferenceIdeal.HR

end
-- ==== Proof.Ref.Run06.lean ====
import proofs.«103457_j67783173865496_1_alg».proof.Proof.Ref.Inv

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem step_6 {V : Valuation τ sig (Elt F)} {a0 : A0 F} {a1 : A1 F} {a2 : A2 F} (h : Inv_6 V a0 a1 a2) :
    Inv_7 (after ops_6 V) a0 a1 a2 := by
  obtain ⟨h0, h1, h2, hv46, hv47, hv48, hv49, hv50, hv51, hv52, hv73, hv84, hv100, hv101, hv104⟩ := h
  unfold Inv_7
  simp only [ops_6]
  after_results_simp
  rw [h0, h1, h2, hv46, hv47, hv48, hv49, hv50, hv51, hv52, hv73, hv84, hv100, hv101, hv104]
  exact ⟨rfl, rfl, rfl, rfl, rfl, rfl, rfl, rfl, rfl, rfl, rfl, rfl, rfl, rfl⟩

end Cert.ReferenceIdeal.HR

end
-- ==== Proof.Ref.Run07.lean ====
import proofs.«103457_j67783173865496_1_alg».proof.Proof.Ref.Inv

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem step_7 {V : Valuation τ sig (Elt F)} {a0 : A0 F} {a1 : A1 F} {a2 : A2 F} (h : Inv_7 V a0 a1 a2) :
    Inv_8 (after ops_7 V) a0 a1 a2 := by
  obtain ⟨h0, h1, h2, hv46, hv47, hv49, hv51, hv52, hv130, hv132, hv137, hv142, hv147, hv152⟩ := h
  unfold Inv_8
  simp only [ops_7]
  after_results_simp
  rw [h0, h1, h2, hv46, hv47, hv49, hv51, hv52, hv130, hv132, hv137, hv142, hv147, hv152]
  exact ⟨rfl, rfl, rfl, rfl, rfl, rfl, rfl, rfl, rfl, rfl, rfl, rfl, rfl, rfl, rfl⟩

end Cert.ReferenceIdeal.HR

end
-- ==== Proof.Ref.Run08.lean ====
import proofs.«103457_j67783173865496_1_alg».proof.Proof.Ref.Inv

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem step_8 {V : Valuation τ sig (Elt F)} {a0 : A0 F} {a1 : A1 F} {a2 : A2 F} (h : Inv_8 V a0 a1 a2) :
    Inv_9 (after ops_8 V) a0 a1 a2 := by
  obtain ⟨h0, h1, h2, hv46, hv47, hv49, hv51, hv52, hv130, hv132, hv137, hv142, hv153, hv154, hv157⟩ := h
  unfold Inv_9
  simp only [ops_8]
  after_results_simp
  rw [h0, h1, h2, hv46, hv47, hv49, hv51, hv52, hv130, hv132, hv137, hv142, hv153, hv154, hv157]
  exact ⟨rfl, rfl, rfl, rfl, rfl, rfl, rfl, rfl, rfl, rfl, rfl, rfl, rfl, rfl⟩

end Cert.ReferenceIdeal.HR

end
-- ==== Proof.Ref.Run09.lean ====
import proofs.«103457_j67783173865496_1_alg».proof.Proof.Ref.Inv

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem step_9 {V : Valuation τ sig (Elt F)} {a0 : A0 F} {a1 : A1 F} {a2 : A2 F} (h : Inv_9 V a0 a1 a2) :
    Inv_10 (after ops_9 V) a0 a1 a2 := by
  obtain ⟨h0, h1, h2, hv46, hv47, hv49, hv51, hv52, hv130, hv137, hv142, hv153, hv158, hv163⟩ := h
  unfold Inv_10
  simp only [ops_9]
  after_results_simp
  rw [h0, h1, h2, hv46, hv47, hv49, hv51, hv52, hv130, hv137, hv142, hv153, hv158, hv163]
  exact ⟨rfl, rfl, rfl, rfl, rfl, rfl, rfl, rfl, rfl⟩

end Cert.ReferenceIdeal.HR

end
-- ==== Proof.Ref.Run10.lean ====
import proofs.«103457_j67783173865496_1_alg».proof.Proof.Ref.Inv

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem step_10 {V : Valuation τ sig (Elt F)} {a0 : A0 F} {a1 : A1 F} {a2 : A2 F} (h : Inv_10 V a0 a1 a2) :
    Inv_11 (after ops_10 V) a0 a1 a2 := by
  obtain ⟨h0, h1, h2, hv47, hv51, hv52, hv130, hv210, hcst27⟩ := h
  unfold Inv_11
  simp only [ops_10]
  after_results_simp
  rw [h0, h1, h2, hv47, hv51, hv52, hv130, hv210, hcst27]
  exact ⟨rfl, rfl, rfl, rfl, rfl, rfl⟩

end Cert.ReferenceIdeal.HR

end
-- ==== Proof.Ref.Run11.lean ====
import proofs.«103457_j67783173865496_1_alg».proof.Proof.Ref.Inv
import proofs.«103457_j67783173865496_1_alg».proof.Proof.LibNary3

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
theorem step_11 {V : Valuation τ sig (Elt F)} {a0 : A0 F} {a1 : A1 F} {a2 : A2 F} (h : Inv_11 V a0 a1 a2) :
    Inv_12 (after ops_11 V) a0 a1 a2 := by
  obtain ⟨h0, h1, h2, hv231, hv232, hv233⟩ := h
  unfold Inv_12
  simp (disch := decide) only [ops_11, after_cons, after_nil, Cert.LibNary3.nary3_result', nary_result_ne']
  rw [h0, h1, h2, hv231, hv232, hv233]
  exact ⟨rfl, rfl, rfl, rfl⟩

end Cert.ReferenceIdeal.HR

end
-- ==== Proof.Ref.Run.lean ====
import proofs.«103457_j67783173865496_1_alg».proof.Proof.Ref.RunEq
import proofs.«103457_j67783173865496_1_alg».proof.Proof.Ref.Inv
import proofs.«103457_j67783173865496_1_alg».proof.Proof.Ref.Run00
import proofs.«103457_j67783173865496_1_alg».proof.Proof.Ref.Run01
import proofs.«103457_j67783173865496_1_alg».proof.Proof.Ref.Run02
import proofs.«103457_j67783173865496_1_alg».proof.Proof.Ref.Run03
import proofs.«103457_j67783173865496_1_alg».proof.Proof.Ref.Run04
import proofs.«103457_j67783173865496_1_alg».proof.Proof.Ref.Run05
import proofs.«103457_j67783173865496_1_alg».proof.Proof.Ref.Run06
import proofs.«103457_j67783173865496_1_alg».proof.Proof.Ref.Run07
import proofs.«103457_j67783173865496_1_alg».proof.Proof.Ref.Run08
import proofs.«103457_j67783173865496_1_alg».proof.Proof.Ref.Run09
import proofs.«103457_j67783173865496_1_alg».proof.Proof.Ref.Run10
import proofs.«103457_j67783173865496_1_alg».proof.Proof.Ref.Run11
import Idealize.ShloMosaic.Lib.Pipeline.Frame

noncomputable section

namespace Cert.ReferenceIdeal.HR

open Cert.ReferenceIdeal Cert.ReferenceIdeal.Gen Idealize.ShloMosaic Idealize.ShloMosaic.TcCoe Idealize.SL.Sem Idealize.ShloMosaic.StableHlo

variable {F : FTy → Type} [FloatOps F]

/-- Each list carries the invariant before it to the invariant after it. -/
theorem after_ops {V : Valuation τ sig (Elt F)} {a0 : A0 F} {a1 : A1 F} {a2 : A2 F} (h : Inv_0 V a0 a1 a2) :
    Inv_12 (after ops V) a0 a1 a2 := by
  simp only [ops, opsW0, opsW1, opsW2, opsW3, opsW4, after_append]
  exact step_11 (step_10 (step_9 (step_8 (step_7 (step_6 (step_5 (step_4 (step_3 (step_2 (step_1 (step_0 h)))))))))))

/-- Every weakly fair execution ends with the result at the last stage of the launch arguments, which are left unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v234) = res_v234 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => by
      have H := after_ops (F := F) (V := launchContents m c) (a0 := m ((c.tc : Thread nD τ).loc main_arg0))
        (a1 := m ((c.tc : Thread nD τ).loc main_arg1)) (a2 := m ((c.tc : Thread nD τ).loc main_arg2))
        (by unfold Inv_0; exact ⟨rfl, rfl, rfl⟩)
      unfold Inv_12 at H
      obtain ⟨e0, e1, e2, e234⟩ := H
      exact ⟨(h c main_v234).trans e234, (h c main_arg0).trans e0, (h c main_arg1).trans e1, (h c main_arg2).trans e2⟩)
    (run_seq scopedRefs_eq scopedSems_eq defs main (fun _ => ops) main_eq (fun _ => ops_sub) m ρ
      (fun _ => List.forall_iff_forall_mem.mp ops_fresh))

end Cert.ReferenceIdeal.HR

end
-- ==== Proof.Ref.ValDecode.lean ====
import proofs.«103457_j67783173865496_1_alg».proof.Proof.Ref.Stages
import proofs.«103457_j67783173865496_1_alg».proof.Proof.Spec
import Idealize.ShloMosaic.Lib.IdealHost
import Idealize.ShloMosaic.Lib.Pipeline.Value

namespace Cert.ReferenceIdeal.HV

open Cert.ReferenceIdeal Cert.ReferenceIdeal.HR Idealize.ShloMosaic Idealize.ShloMosaic.ValueIdx

abbrev T5 (n : Nat) : Shape := ⟨5, ![16, 76, 76, 3, n]⟩
abbrev T4 : Shape := ⟨4, ![16, 76, 76, 3]⟩

/-- A statement about every axis of an array holds once it holds of each axis. -/
private theorem ax1 {P : Fin 1 → Prop} (h0 : P 0) : ∀ d, P d
  | ⟨0, _⟩ => h0
private theorem ax2 {P : Fin 2 → Prop} (h0 : P 0) (h1 : P 1) : ∀ d, P d
  | ⟨0, _⟩ => h0 | ⟨1, _⟩ => h1
private theorem ax3 {P : Fin 3 → Prop} (h0 : P 0) (h1 : P 1) (h2 : P 2) : ∀ d, P d
  | ⟨0, _⟩ => h0 | ⟨1, _⟩ => h1 | ⟨2, _⟩ => h2
private theorem ax4 {P : Fin 4 → Prop} (h0 : P 0) (h1 : P 1) (h2 : P 2) (h3 : P 3) : ∀ d, P d
  | ⟨0, _⟩ => h0 | ⟨1, _⟩ => h1 | ⟨2, _⟩ => h2 | ⟨3, _⟩ => h3
private theorem ax5 {P : Fin 5 → Prop} (h0 : P 0) (h1 : P 1) (h2 : P 2) (h3 : P 3) (h4 : P 4) : ∀ d, P d
  | ⟨0, _⟩ => h0 | ⟨1, _⟩ => h1 | ⟨2, _⟩ => h2 | ⟨3, _⟩ => h3 | ⟨4, _⟩ => h4

section Layout
variable {α : Type}

theorem slice5_apply {n m : Nat} (o : Nat) (x : (T5 n).Idx → α) (h : (T5 n).Slices ![0, 0, 0, 0, o] (T5 m))
    (b : Fin 16) (i j : Fin 76) (a : Fin 3) (c : Fin m) (hc : o + c.val < n) :
    extractStridedSlice (T5 m) ![0, 0, 0, 0, o] x h (ix5 b i j a c) = x (ix5 b i j a ⟨o + c.val, hc⟩) :=
  extractStridedSlice_apply _ x h _ _ (by
    exact ax5 (Nat.zero_add _).symm (Nat.zero_add _).symm (Nat.zero_add _).symm (Nat.zero_add _).symm rfl)

/-- The 255 channels regrouped as 3 anchors of 85: channel 85·a + k. -/
theorem regroup_apply (x : (⟨4, ![16, 76, 76, 255]⟩ : Shape).Idx → α)
    (h : (⟨4, ![16, 76, 76, 255]⟩ : Shape).ShapeCasts (T5 85)) (b : Fin 16) (i j : Fin 76) (a : Fin 3) (k : Fin 85) :
    shapeCast (T5 85) x h (ix5 b i j a k) = x (ix4 b i j ⟨85 * a.val + k.val, by omega⟩) :=
  shapeCast_apply x h _ _ (by
    rw [Shape.rowMajor_val_four, Shape.rowMajor_val_five]
    show ((b.val * 76 + i.val) * 76 + j.val) * 255 + (85 * a.val + k.val)
      = (((b.val * 76 + i.val) * 76 + j.val) * 3 + a.val) * 85 + k.val
    omega)

theorem drop1_apply (x : (T5 1).Idx → α) (h : (T5 1).ShapeCasts T4) (b : Fin 16) (i j : Fin 76) (a : Fin 3) :
    shapeCast T4 x h (ix4 b i j a) = x (ix5 b i j a (0 : Fin 1)) :=
  shapeCast_apply x h _ _ (by
    rw [Shape.rowMajor_val_four, Shape.rowMajor_val_five]
    show ((((b.val * 76 + i.val) * 76 + j.val) * 3 + a.val) * 1 + 0)
      = ((b.val * 76 + i.val) * 76 + j.val) * 3 + a.val
    omega)

theorem add1_apply (x : T4.Idx → α) (h : T4.BroadcastsInDim (T5 1) ![0, 1, 2, 3]) (b : Fin 16) (i j : Fin 76) (a : Fin 3)
    (c : Fin 1) : broadcastInDim (T5 1) ![0, 1, 2, 3] h x (ix5 b i j a c) = x (ix4 b i j a) :=
  broadcastInDim_apply _ h x _ _ (by exact ax4 rfl rfl rfl rfl)

theorem cat22_left (x y : (T5 2).Idx → α) (h : Shape.Concatenates [T5 2, T5 2] (T5 4) 4)
    (b : Fin 16) (i j : Fin 76) (a : Fin 3) (d : Fin 4) (c : Fin 2) (hc : d.val = c.val) :
    concatenate (T5 4) 4 [⟨T5 2, x⟩, ⟨T5 2, y⟩] h (ix5 b i j a d) = x (ix5 b i j a c) :=
  concatenate_pair_apply_left 4 x y h _ rfl _ (by exact ax5 rfl rfl rfl rfl hc.symm)

theorem cat22_right (x y : (T5 2).Idx → α) (h : Shape.Concatenates [T5 2, T5 2] (T5 4) 4)
    (b : Fin 16) (i j : Fin 76) (a : Fin 3) (d : Fin 4) (c : Fin 2) (hc : c.val + 2 = d.val) :
    concatenate (T5 4) 4 [⟨T5 2, x⟩, ⟨T5 2, y⟩] h (ix5 b i j a d) = y (ix5 b i j a c) :=
  concatenate_pair_apply_right 4 x y h _ rfl rfl _
    (by exact ax5 (fun _ => rfl) (fun _ => rfl) (fun _ => rfl) (fun _ => rfl) fun he => absurd rfl he) hc

end Layout

section Grid

theorem toInt_ofNat_small (n : Nat) (hn : n < 76) : (BitVec.ofNat 32 n).toInt = (n : Int) := by
  rw [BitVec.toInt_eq_toNat_cond, BitVec.toNat_ofNat]
  have : n % 2 ^ 32 = n := Nat.mod_eq_of_lt (by omega)
  rw [this]
  split <;> omega

/-- The word of a grid coordinate converted to a float is the coordinate. -/
theorem sitofp_grid (n : Nat) (hn : n < 76) :
    FloatOps.sitofp (F := Ideal) .f32 (BitVec.ofNat 32 n) = Cert.Yolo.gridR n := by
  show (((BitVec.ofNat 32 n).toInt : ℝ) : EReal) = ((n : ℝ) : EReal)
  rw [toInt_ofNat_small n hn]
  norm_cast

variable (a0 : A0 Ideal) (a1 : A1 Ideal) (a2 : A2 Ideal)

/-- The integer grid holds the column at last coordinate 0 and the row at last coordinate 1. -/
theorem v11_col (i j : Fin 76) : res_v11 (F := Ideal) a0 a1 a2 (ix3 i j (0 : Fin 2)) = BitVec.ofNat 32 j.val := by
  unfold res_v11; beta_reduce
  refine (concatenate_pair_apply_left (t := S76x76x2) (s₁ := S76x76x1) (s₂ := S76x76x1) 2 _ _ _ _ rfl (ix3 i j (0 : Fin 1))
    (by exact ax3 rfl rfl rfl)).trans ?_
  unfold res_v9
  refine (broadcastInDim_apply _ _ _ _ (ix2 i j) (by exact ax2 rfl rfl)).trans ?_
  unfold res_v8
  exact (broadcastInDim_apply _ _ _ _ (ix1 j) (by exact ax1 rfl)).trans rfl

theorem v11_row (i j : Fin 76) : res_v11 (F := Ideal) a0 a1 a2 (ix3 i j (1 : Fin 2)) = BitVec.ofNat 32 i.val := by
  unfold res_v11; beta_reduce
  refine (concatenate_pair_apply_right (t := S76x76x2) (s₁ := S76x76x1) (s₂ := S76x76x1) 2 _ _ _ _ rfl rfl (ix3 i j (0 : Fin 1))
    (by exact ax3 (fun _ => rfl) (fun _ => rfl) fun he => absurd rfl he) rfl).trans ?_
  unfold res_v10
  refine (broadcastInDim_apply _ _ _ _ (ix2 i j) (by exact ax2 rfl rfl)).trans ?_
  unfold res_v7
  exact (broadcastInDim_apply _ _ _ _ (ix1 i) (by exact ax1 rfl)).trans rfl

/-- The float grid broadcast to every image and anchor reads the integer grid at the cell. -/
theorem v24_grid (b : Fin 16) (i j : Fin 76) (a : Fin 3) (c : Fin 2) :
    res_v24 (F := Ideal) a0 a1 a2 (ix5 b i j a c) = FloatOps.sitofp (F := Ideal) .f32 (res_v11 (F := Ideal) a0 a1 a2 (ix3 i j c)) := by
  unfold res_v24
  refine (broadcastInDim_apply _ _ _ _ (ix5 (0 : Fin 1) i j (0 : Fin 1) c) (by exact ax5 rfl rfl rfl rfl rfl)).trans ?_
  unfold res_v13
  show FloatOps.sitofp (F := Ideal) .f32 (res_v12 (F := Ideal) a0 a1 a2 (ix5 (0 : Fin 1) i j (0 : Fin 1) c)) = _
  refine congrArg (FloatOps.sitofp (F := Ideal) .f32) ?_
  unfold res_v12
  exact broadcastInDim_apply _ _ _ _ (ix3 i j c) (by exact ax3 rfl rfl rfl)

/-- The anchor table broadcast to every image and cell. -/
theorem v30_apply (b : Fin 16) (i j : Fin 76) (a : Fin 3) (c : Fin 2) :
    res_v30 (F := Ideal) a0 a1 a2 (ix5 b i j a c) = Cert.Yolo.anchor a c := by
  unfold res_v30
  refine (broadcastInDim_apply _ _ _ _ (ix5 (0 : Fin 1) (0 : Fin 1) (0 : Fin 1) a c) (by exact ax5 rfl rfl rfl rfl rfl)).trans ?_
  unfold res_v29
  refine (broadcastInDim_apply _ _ _ _ (ix2 a c) (by exact ax2 rfl rfl)).trans ?_
  unfold res_cst Cert.Yolo.anchor
  show Ideal.ofBits .f32 (lit0 (S3x2.rowMajor (ix2 a c))) = Ideal.ofBits .f32 _
  refine congrArg (Ideal.ofBits .f32) ?_
  fin_cases a <;> fin_cases c <;> rfl

end Grid

section Decode
variable (a0 : A0 Ideal) (a1 : A1 Ideal) (a2 : A2 Ideal) (b : Fin 16) (i j : Fin 76) (a : Fin 3)

/-- The head output regrouped, at a cell: the cell's raw channels. -/
theorem v0_apply (k : Fin 85) : res_v0 (F := Ideal) a0 a1 a2 (ix5 b i j a k) = Cert.Yolo.conv5 a0 b i j a k := by
  unfold res_v0
  exact regroup_apply a0 _ b i j a k

/-- A decoded centre of the cell: (σ(d)·1.2 − 0.1 + g)·8 of its logit d and its grid coordinate g. -/
theorem v27_apply (c : Fin 2) : res_v27 (F := Ideal) a0 a1 a2 (ix5 b i j a c)
    = Cert.Yolo.decodeC (Cert.Yolo.conv5 a0 b i j a ⟨0 + c.val, by omega⟩) (res_v24 (F := Ideal) a0 a1 a2 (ix5 b i j a c)) := by
  show (Ideal.div (Ideal.ofBits .f32 0x3F800000#32) (Ideal.ofBits .f32 0x3F800000#32 + Ideal.exp (-(res_v1 (F := Ideal) a0 a1 a2 _)))
    * Ideal.ofBits .f32 0x3F99999A#32 - Ideal.ofBits .f32 0x3DCCCCCD#32 + _) * Ideal.ofBits .f32 0x41000000#32 = _
  unfold res_v1; beta_reduce
  rw [slice5_apply (n := 85) 0 _ _ b i j a c (by omega), v0_apply, Ideal.ofBits_one_f32]
  rfl

/-- A decoded size of the cell: e^d · anchor. -/
theorem v31_apply (c : Fin 2) : res_v31 (F := Ideal) a0 a1 a2 (ix5 b i j a c)
    = Cert.Yolo.decodeS (Cert.Yolo.conv5 a0 b i j a ⟨2 + c.val, by omega⟩) (Cert.Yolo.anchor a c) := by
  show Ideal.exp (res_v2 (F := Ideal) a0 a1 a2 _) * res_v30 (F := Ideal) a0 a1 a2 _ = _
  unfold res_v2; beta_reduce
  rw [slice5_apply (n := 85) 2 _ _ b i j a c (by omega), v0_apply, v30_apply]
  rfl

/-- The predicted objectness of the cell. -/
theorem v37_apply : res_v37 (F := Ideal) a0 a1 a2 (ix5 b i j a (0 : Fin 1)) = Ideal.logistic (Cert.Yolo.conv5 a0 b i j a 4) := by
  show Ideal.div (Ideal.ofBits .f32 0x3F800000#32) (Ideal.ofBits .f32 0x3F800000#32 + Ideal.exp (-(res_v3 (F := Ideal) a0 a1 a2 _))) = _
  unfold res_v3; beta_reduce
  rw [slice5_apply (n := 85) 4 _ _ b i j a (0 : Fin 1) (by decide), v0_apply, Ideal.ofBits_one_f32]
  rfl

/-- The 4-piece concatenation read in its first three pieces: the centres, the sizes, the objectness. -/
theorem v44_p0 (d : Fin 85) (c : Fin 2) (hd : d.val = c.val) :
    res_v44 (F := Ideal) a0 a1 a2 (ix5 b i j a d) = res_v27 (F := Ideal) a0 a1 a2 (ix5 b i j a c) := by
  unfold res_v44
  exact concatenate_apply_piece (t := T5 85) 4 _ _ _ 0 (by show (0 : Nat) < 4; omega) (T5 2) _ rfl rfl 0 rfl (ix5 b i j a c)
    (by exact ax5 (fun _ => rfl) (fun _ => rfl) (fun _ => rfl) (fun _ => rfl) fun he => absurd rfl he)
    (by show 0 + c.val = d.val; omega)

theorem v44_p1 (d : Fin 85) (c : Fin 2) (hd : d.val = 2 + c.val) :
    res_v44 (F := Ideal) a0 a1 a2 (ix5 b i j a d) = res_v31 (F := Ideal) a0 a1 a2 (ix5 b i j a c) := by
  unfold res_v44
  exact concatenate_apply_piece (t := T5 85) 4 _ _ _ 1 (by show (1 : Nat) < 4; omega) (T5 2) _ rfl rfl 2 rfl (ix5 b i j a c)
    (by exact ax5 (fun _ => rfl) (fun _ => rfl) (fun _ => rfl) (fun _ => rfl) fun he => absurd rfl he)
    (by show 2 + c.val = d.val; omega)

theorem v44_p2 (d : Fin 85) (hd : d.val = 4) :
    res_v44 (F := Ideal) a0 a1 a2 (ix5 b i j a d) = res_v37 (F := Ideal) a0 a1 a2 (ix5 b i j a (0 : Fin 1)) := by
  unfold res_v44
  exact concatenate_apply_piece (t := T5 85) 4 _ _ _ 2 (by show (2 : Nat) < 4; omega) (T5 1) _ rfl rfl 4 rfl (ix5 b i j a (0 : Fin 1))
    (by exact ax5 (fun _ => rfl) (fun _ => rfl) (fun _ => rfl) (fun _ => rfl) fun he => absurd rfl he)
    (by show 4 + 0 = d.val; omega)

theorem v48_x : res_v48 (F := Ideal) a0 a1 a2 (ix5 b i j a (0 : Fin 4))
    = Cert.Yolo.pX (Cert.Yolo.conv5 a0 b i j a) j.val := by
  unfold res_v48; beta_reduce
  refine (slice5_apply 0 _ _ b i j a (0 : Fin 4) (by decide)).trans ?_
  refine (v44_p0 a0 a1 a2 b i j a _ (0 : Fin 2) rfl).trans ?_
  rw [v27_apply, v24_grid, v11_col]
  exact congrArg (Cert.Yolo.decodeC _) (sitofp_grid j.val j.isLt)

theorem v48_y : res_v48 (F := Ideal) a0 a1 a2 (ix5 b i j a (1 : Fin 4))
    = Cert.Yolo.pY (Cert.Yolo.conv5 a0 b i j a) i.val := by
  unfold res_v48; beta_reduce
  refine (slice5_apply 0 _ _ b i j a (1 : Fin 4) (by decide)).trans ?_
  refine (v44_p0 a0 a1 a2 b i j a _ (1 : Fin 2) rfl).trans ?_
  rw [v27_apply, v24_grid, v11_row]
  exact congrArg (Cert.Yolo.decodeC _) (sitofp_grid i.val i.isLt)

theorem v48_w : res_v48 (F := Ideal) a0 a1 a2 (ix5 b i j a (2 : Fin 4))
    = Cert.Yolo.pW (Cert.Yolo.conv5 a0 b i j a) a := by
  unfold res_v48; beta_reduce
  refine (slice5_apply 0 _ _ b i j a (2 : Fin 4) (by decide)).trans ?_
  exact (v44_p1 a0 a1 a2 b i j a _ (0 : Fin 2) rfl).trans (v31_apply a0 a1 a2 b i j a _)

theorem v48_h : res_v48 (F := Ideal) a0 a1 a2 (ix5 b i j a (3 : Fin 4))
    = Cert.Yolo.pH (Cert.Yolo.conv5 a0 b i j a) a := by
  unfold res_v48; beta_reduce
  refine (slice5_apply 0 _ _ b i j a (3 : Fin 4) (by decide)).trans ?_
  exact (v44_p1 a0 a1 a2 b i j a _ (1 : Fin 2) rfl).trans (v31_apply a0 a1 a2 b i j a _)

theorem v49_apply : res_v49 (F := Ideal) a0 a1 a2 (ix5 b i j a (0 : Fin 1))
    = Ideal.logistic (Cert.Yolo.conv5 a0 b i j a 4) := by
  unfold res_v49; beta_reduce
  refine (slice5_apply 4 _ _ b i j a (0 : Fin 1) (by decide)).trans ?_
  exact (v44_p2 a0 a1 a2 b i j a _ rfl).trans (v37_apply a0 a1 a2 b i j a)

theorem v46_apply : res_v46 (F := Ideal) a0 a1 a2 (ix5 b i j a (0 : Fin 1)) = Cert.Yolo.conv5 a0 b i j a 4 := by
  unfold res_v46; beta_reduce
  exact (slice5_apply 4 _ _ b i j a (0 : Fin 1) (by decide)).trans (v0_apply a0 a1 a2 b i j a _)

theorem v47_apply (c : Fin 80) :
    res_v47 (F := Ideal) a0 a1 a2 (ix5 b i j a c) = Cert.Yolo.conv5 a0 b i j a ⟨5 + c.val, by omega⟩ := by
  unfold res_v47; beta_reduce
  exact (slice5_apply 5 _ _ b i j a c (by omega)).trans (v0_apply a0 a1 a2 b i j a _)

theorem v50_apply (d : Fin 4) :
    res_v50 (F := Ideal) a0 a1 a2 (ix5 b i j a d) = Cert.Yolo.arr5 a1 b i j a ⟨d.val, by omega⟩ := by
  unfold res_v50; beta_reduce
  refine (slice5_apply 0 _ _ b i j a d (by omega)).trans ?_
  exact congrArg (Cert.Yolo.arr5 a1 b i j a) (Fin.ext (Nat.zero_add _))

theorem v51_apply : res_v51 (F := Ideal) a0 a1 a2 (ix5 b i j a (0 : Fin 1)) = Cert.Yolo.arr5 a1 b i j a 4 := by
  unfold res_v51; beta_reduce
  exact slice5_apply 4 _ _ b i j a (0 : Fin 1) (by decide)

theorem v52_apply (c : Fin 80) :
    res_v52 (F := Ideal) a0 a1 a2 (ix5 b i j a c) = Cert.Yolo.arr5 a1 b i j a ⟨5 + c.val, by omega⟩ := by
  unfold res_v52; beta_reduce
  exact slice5_apply 5 _ _ b i j a c (by omega)

end Decode

end Cert.ReferenceIdeal.HV
-- ==== Proof.Ref.ValGiou.lean ====
import proofs.«103457_j67783173865496_1_alg».proof.Proof.Ref.ValDecode

namespace Cert.ReferenceIdeal.HV

open Cert.ReferenceIdeal Cert.ReferenceIdeal.HR Idealize.ShloMosaic Idealize.ShloMosaic.ValueIdx
open Cert.Yolo (lo hi ovl hull giou pX pY pW pH conv5 arr5)

variable (a0 : A0 Ideal) (a1 : A1 Ideal) (a2 : A2 Ideal) (b : Fin 16) (i j : Fin 76) (a : Fin 3)

/-- A slice of the last axis from offset o reads the operand at the coordinate k = o + c. -/
theorem slice5_at {α : Type} {n m : Nat} (o : Nat) (X : (T5 n).Idx → α) (h : (T5 n).Slices ![0, 0, 0, 0, o] (T5 m))
    (c : Fin m) (k : Fin n) (hk : k.val = o + c.val) :
    extractStridedSlice (T5 m) ![0, 0, 0, 0, o] X h (ix5 b i j a c) = X (ix5 b i j a k) :=
  (slice5_apply o X h b i j a c (by omega)).trans (congrArg (fun k => X (ix5 b i j a k)) (Fin.ext hk.symm))

/-- One coordinate of the last axis cut out and the unit axis dropped. -/
theorem pick_of {α : Type} {n : Nat} (o : Nat) (X : (T5 n).Idx → α) (h : (T5 n).Slices ![0, 0, 0, 0, o] (T5 1))
    (h' : (T5 1).ShapeCasts T4) {k : Fin n} {v : α} (hv : X (ix5 b i j a k) = v) (hk : k.val = o) :
    shapeCast T4 (extractStridedSlice (T5 1) ![0, 0, 0, 0, o] X h) h' (ix4 b i j a) = v :=
  (drop1_apply _ h' b i j a).trans ((slice5_at b i j a o X h 0 k hk).trans hv)

/-- The decoded box of the cell: centre x, centre y, width, height. -/
theorem v48_apply : ∀ d : Fin 4, res_v48 (F := Ideal) a0 a1 a2 (ix5 b i j a d)
    = ![pX (conv5 a0 b i j a) j.val, pY (conv5 a0 b i j a) i.val, pW (conv5 a0 b i j a) a, pH (conv5 a0 b i j a) a] d
  | 0 => v48_x a0 a1 a2 b i j a
  | 1 => v48_y a0 a1 a2 b i j a
  | 2 => v48_w a0 a1 a2 b i j a
  | 3 => v48_h a0 a1 a2 b i j a

/-! Below, x is any reading of the decoded box and g of the label box; on axis c, p is the centre's place and s the size's. -/

section Boxes
variable {x g : Fin 4 → EReal} (hx : ∀ d, res_v48 (F := Ideal) a0 a1 a2 (ix5 b i j a d) = x d)
  (hg : ∀ d, res_v50 (F := Ideal) a0 a1 a2 (ix5 b i j a d) = g d)
  {c : Fin 2} {p s : Fin 4} (hp : p.val = 0 + c.val) (hs : s.val = 2 + c.val)

section Corners
include hp hs

/-- The corner arrays hold centre − size·½ at p and centre + size·½ at s. -/
theorem v73_apply (hx : ∀ d, res_v48 (F := Ideal) a0 a1 a2 (ix5 b i j a d) = x d) :
    res_v73 (F := Ideal) a0 a1 a2 (ix5 b i j a p) = lo (x p) (x s) ∧ res_v73 (F := Ideal) a0 a1 a2 (ix5 b i j a s) = hi (x p) (x s) := by
  unfold res_v73; beta_reduce
  refine ⟨(cat22_left _ _ _ b i j a p c (hp.trans (Nat.zero_add _))).trans ?_,
    (cat22_right _ _ _ b i j a s c ((Nat.add_comm _ _).trans hs.symm)).trans ?_⟩
  · show lo (res_v63 (F := Ideal) a0 a1 a2 _) (res_v64 (F := Ideal) a0 a1 a2 _) = _
    unfold res_v63 res_v64
    exact congrArg₂ lo ((slice5_at b i j a 0 _ _ c p hp).trans (hx p)) ((slice5_at b i j a 2 _ _ c s hs).trans (hx s))
  · show hi (res_v68 (F := Ideal) a0 a1 a2 _) (res_v69 (F := Ideal) a0 a1 a2 _) = _
    unfold res_v68 res_v69
    exact congrArg₂ hi ((slice5_at b i j a 0 _ _ c p hp).trans (hx p)) ((slice5_at b i j a 2 _ _ c s hs).trans (hx s))

theorem v84_apply (hg : ∀ d, res_v50 (F := Ideal) a0 a1 a2 (ix5 b i j a d) = g d) :
    res_v84 (F := Ideal) a0 a1 a2 (ix5 b i j a p) = lo (g p) (g s) ∧ res_v84 (F := Ideal) a0 a1 a2 (ix5 b i j a s) = hi (g p) (g s) := by
  unfold res_v84; beta_reduce
  refine ⟨(cat22_left _ _ _ b i j a p c (hp.trans (Nat.zero_add _))).trans ?_,
    (cat22_right _ _ _ b i j a s c ((Nat.add_comm _ _).trans hs.symm)).trans ?_⟩
  · show lo (res_v74 (F := Ideal) a0 a1 a2 _) (res_v75 (F := Ideal) a0 a1 a2 _) = _
    unfold res_v74 res_v75
    exact congrArg₂ lo ((slice5_at b i j a 0 _ _ c p hp).trans (hg p)) ((slice5_at b i j a 2 _ _ c s hs).trans (hg s))
  · show hi (res_v79 (F := Ideal) a0 a1 a2 _) (res_v80 (F := Ideal) a0 a1 a2 _) = _
    unfold res_v79 res_v80
    exact congrArg₂ hi ((slice5_at b i j a 0 _ _ c p hp).trans (hg p)) ((slice5_at b i j a 2 _ _ c s hs).trans (hg s))

end Corners

include hx hg

section Axis
include hp hs

/-- Any function of the low and high corners of the two boxes on the axis. -/
theorem halves_apply (f : EReal → EReal → EReal → EReal → EReal) :
    f (res_v85 (F := Ideal) a0 a1 a2 (ix5 b i j a c)) (res_v88 (F := Ideal) a0 a1 a2 (ix5 b i j a c))
        (res_v86 (F := Ideal) a0 a1 a2 (ix5 b i j a c)) (res_v89 (F := Ideal) a0 a1 a2 (ix5 b i j a c))
      = f (lo (x p) (x s)) (hi (x p) (x s)) (lo (g p) (g s)) (hi (g p) (g s)) := by
  unfold res_v85 res_v88 res_v86 res_v89; beta_reduce
  rw [slice5_at b i j a 0 _ _ c p hp, slice5_at b i j a 0 _ _ c p hp, slice5_at b i j a 2 _ _ c s hs,
    slice5_at b i j a 2 _ _ c s hs, (v73_apply a0 a1 a2 b i j a hp hs hx).1, (v73_apply a0 a1 a2 b i j a hp hs hx).2,
    (v84_apply a0 a1 a2 b i j a hp hs hg).1, (v84_apply a0 a1 a2 b i j a hp hs hg).2]

/-- The overlap and the hull of the two boxes on the axis, cut at zero. -/
theorem v93_apply : res_v93 (F := Ideal) a0 a1 a2 (ix5 b i j a c)
    = ovl (lo (x p) (x s)) (hi (x p) (x s)) (lo (g p) (g s)) (hi (g p) (g s)) := by
  refine Eq.trans ?_ (halves_apply a0 a1 a2 b i j a hx hg hp hs ovl)
  show max (min (res_v88 (F := Ideal) a0 a1 a2 _) (res_v89 (F := Ideal) a0 a1 a2 _)
    - max (res_v85 (F := Ideal) a0 a1 a2 _) (res_v86 (F := Ideal) a0 a1 a2 _)) (Ideal.ofBits .f32 0x00000000#32) = _
  rw [Ideal.ofBits_zero_f32]; rfl
theorem v110_apply : res_v110 (F := Ideal) a0 a1 a2 (ix5 b i j a c)
    = hull (lo (x p) (x s)) (hi (x p) (x s)) (lo (g p) (g s)) (hi (g p) (g s)) := by
  refine Eq.trans ?_ (halves_apply a0 a1 a2 b i j a hx hg hp hs hull)
  show max (max (res_v88 (F := Ideal) a0 a1 a2 _) (res_v89 (F := Ideal) a0 a1 a2 _)
    - min (res_v85 (F := Ideal) a0 a1 a2 _) (res_v86 (F := Ideal) a0 a1 a2 _)) (Ideal.ofBits .f32 0x00000000#32) = _
  rw [Ideal.ofBits_zero_f32]; rfl

end Axis

/-- The GIoU of the decoded box against the label box. -/
theorem v118_apply : res_v118 (F := Ideal) a0 a1 a2 (ix4 b i j a)
    = giou (x 0) (x 1) (x 2) (x 3) (g 0) (g 1) (g 2) (g 3) := by
  have e54 : res_v54 (F := Ideal) a0 a1 a2 (ix4 b i j a) = x 2 := by
    unfold res_v54 res_v53; exact pick_of b i j a 2 _ _ _ (hx 2) rfl
  have e56 : res_v56 (F := Ideal) a0 a1 a2 (ix4 b i j a) = x 3 := by
    unfold res_v56 res_v55; exact pick_of b i j a 3 _ _ _ (hx 3) rfl
  have e59 : res_v59 (F := Ideal) a0 a1 a2 (ix4 b i j a) = g 2 := by
    unfold res_v59 res_v58; exact pick_of b i j a 2 _ _ _ (hg 2) rfl
  have e61 : res_v61 (F := Ideal) a0 a1 a2 (ix4 b i j a) = g 3 := by
    unfold res_v61 res_v60; exact pick_of b i j a 3 _ _ _ (hg 3) rfl
  have e95 : res_v95 (F := Ideal) a0 a1 a2 (ix4 b i j a) = ovl (lo (x 0) (x 2)) (hi (x 0) (x 2)) (lo (g 0) (g 2)) (hi (g 0) (g 2)) := by
    unfold res_v95 res_v94; exact pick_of b i j a 0 _ _ _ (v93_apply a0 a1 a2 b i j a hx hg (c := 0) (p := 0) (s := 2) rfl rfl) rfl
  have e97 : res_v97 (F := Ideal) a0 a1 a2 (ix4 b i j a) = ovl (lo (x 1) (x 3)) (hi (x 1) (x 3)) (lo (g 1) (g 3)) (hi (g 1) (g 3)) := by
    unfold res_v97 res_v96; exact pick_of b i j a 1 _ _ _ (v93_apply a0 a1 a2 b i j a hx hg (c := 1) (p := 1) (s := 3) rfl rfl) rfl
  have e112 : res_v112 (F := Ideal) a0 a1 a2 (ix4 b i j a) = hull (lo (x 0) (x 2)) (hi (x 0) (x 2)) (lo (g 0) (g 2)) (hi (g 0) (g 2)) := by
    unfold res_v112 res_v111; exact pick_of b i j a 0 _ _ _ (v110_apply a0 a1 a2 b i j a hx hg (c := 0) (p := 0) (s := 2) rfl rfl) rfl
  have e114 : res_v114 (F := Ideal) a0 a1 a2 (ix4 b i j a) = hull (lo (x 1) (x 3)) (hi (x 1) (x 3)) (lo (g 1) (g 3)) (hi (g 1) (g 3)) := by
    unfold res_v114 res_v113; exact pick_of b i j a 1 _ _ _ (v110_apply a0 a1 a2 b i j a hx hg (c := 1) (p := 1) (s := 3) rfl rfl) rfl
  unfold giou Cert.Yolo.iou Cert.Yolo.encl Cert.Yolo.union Cert.Yolo.inter
  rw [← e95, ← e97, ← e112, ← e114, ← e54, ← e56, ← e59, ← e61]
  rfl

/-- The GIoU term: flag · (2 − w·h/608²) · (1 − GIoU), with w, h the label's sizes. -/
theorem v130_of {f : EReal} (hf : res_v51 (F := Ideal) a0 a1 a2 (ix5 b i j a (0 : Fin 1)) = f) :
    res_v130 (F := Ideal) a0 a1 a2 (ix5 b i j a (0 : Fin 1))
      = f * (Cert.Yolo.lit 0x40000000#32 - Ideal.div (g 2 * g 3) (Cert.Yolo.lit 0x48B48000#32))
        * (Cert.Yolo.lit 0x3F800000#32 - giou (x 0) (x 1) (x 2) (x 3) (g 0) (g 1) (g 2) (g 3)) := by
  have e119 : res_v119 (F := Ideal) a0 a1 a2 (ix5 b i j a (0 : Fin 1)) = giou (x 0) (x 1) (x 2) (x 3) (g 0) (g 1) (g 2) (g 3) := by
    unfold res_v119; exact (add1_apply _ _ b i j a 0).trans (v118_apply a0 a1 a2 b i j a hx hg)
  have e120 : res_v120 (F := Ideal) a0 a1 a2 (ix5 b i j a (0 : Fin 1)) = g 2 := by
    unfold res_v120; exact (slice5_at (n := 4) (m := 1) b i j a 2 _ _ 0 2 rfl).trans (hg 2)
  have e121 : res_v121 (F := Ideal) a0 a1 a2 (ix5 b i j a (0 : Fin 1)) = g 3 := by
    unfold res_v121; exact (slice5_at (n := 4) (m := 1) b i j a 3 _ _ 0 3 rfl).trans (hg 3)
  rw [← e119, ← e120, ← e121, ← hf]
  rfl

end Boxes

/-- The GIoU term of the reference at a cell is the specification's. -/
theorem v130_apply : res_v130 (F := Ideal) a0 a1 a2 (ix5 b i j a (0 : Fin 1))
    = Cert.Yolo.giouCell (conv5 a0 b i j a) (arr5 a1 b i j a) i.val j.val a :=
  (v130_of a0 a1 a2 b i j a (v48_apply a0 a1 a2 b i j a) (v50_apply a0 a1 a2 b i j a) (v51_apply a0 a1 a2 b i j a)).trans rfl

end Cert.ReferenceIdeal.HV
-- ==== Proof.Ref.ValConfLayout.lean ====
import proofs.«103457_j67783173865496_1_alg».proof.Proof.Ref.Stages
import Idealize.ShloMosaic.Lib.ValueLayout
import Idealize.ShloMosaic.Lib.IdealHost

noncomputable section

namespace Cert.ReferenceIdeal.HV

open Cert.ReferenceIdeal Cert.ReferenceIdeal.HR Cert.ReferenceIdeal.Gen Idealize.ShloMosaic Idealize.ShloMosaic.ValueIdx

variable {α : Type}

/-- A statement about every axis of an array holds once it holds of each axis. -/
theorem cf_ax3 {P : Fin 3 → Prop} (h0 : P 0) (h1 : P 1) (h2 : P 2) : ∀ d, P d
  | ⟨0, _⟩ => h0 | ⟨1, _⟩ => h1 | ⟨2, _⟩ => h2
theorem cf_ax4 {P : Fin 4 → Prop} (h0 : P 0) (h1 : P 1) (h2 : P 2) (h3 : P 3) : ∀ d, P d
  | ⟨0, _⟩ => h0 | ⟨1, _⟩ => h1 | ⟨2, _⟩ => h2 | ⟨3, _⟩ => h3
theorem cf_ax5 {P : Fin 5 → Prop} (h0 : P 0) (h1 : P 1) (h2 : P 2) (h3 : P 3) (h4 : P 4) : ∀ d, P d
  | ⟨0, _⟩ => h0 | ⟨1, _⟩ => h1 | ⟨2, _⟩ => h2 | ⟨3, _⟩ => h3 | ⟨4, _⟩ => h4
theorem cf_ax6 {P : Fin 6 → Prop} (h0 : P 0) (h1 : P 1) (h2 : P 2) (h3 : P 3) (h4 : P 4) (h5 : P 5) : ∀ d, P d
  | ⟨0, _⟩ => h0 | ⟨1, _⟩ => h1 | ⟨2, _⟩ => h2 | ⟨3, _⟩ => h3 | ⟨4, _⟩ => h4 | ⟨5, _⟩ => h5

/-- Broadcasts: an axis of extent one is ignored, every other axis is read at the same place. -/
theorem cf_bcast_cell2 (x : S16x76x76x3x1x2.Idx → α) (b : Fin 16) (i j : Fin 76) (a : Fin 3) (n : Fin 150) (d : Fin 2) :
    broadcastInDim S16x76x76x3x150x2 ![0, 1, 2, 3, 4, 5] bcast_S16x76x76x3x1x2_S16x76x76x3x150x2_0_1_2_3_4_5 x (ix6 b i j a n d)
      = x (ix6 b i j a (0 : Fin 1) d) :=
  broadcastInDim_apply _ _ x _ _ (by exact cf_ax6 rfl rfl rfl rfl rfl rfl)

theorem cf_bcast_gt2 (x : S16x1x1x1x150x2.Idx → α) (b : Fin 16) (i j : Fin 76) (a : Fin 3) (n : Fin 150) (d : Fin 2) :
    broadcastInDim S16x76x76x3x150x2 ![0, 1, 2, 3, 4, 5] bcast_S16x1x1x1x150x2_S16x76x76x3x150x2_0_1_2_3_4_5 x (ix6 b i j a n d)
      = x (ix6 b (0 : Fin 1) (0 : Fin 1) (0 : Fin 1) n d) :=
  broadcastInDim_apply _ _ x _ _ (by exact cf_ax6 rfl rfl rfl rfl rfl rfl)

theorem cf_bcast_cell1 (x : S16x76x76x3x1.Idx → α) (b : Fin 16) (i j : Fin 76) (a : Fin 3) (n : Fin 150) :
    broadcastInDim S16x76x76x3x150 ![0, 1, 2, 3, 4] bcast_S16x76x76x3x1_S16x76x76x3x150_0_1_2_3_4 x (ix5 b i j a n)
      = x (ix5 b i j a (0 : Fin 1)) :=
  broadcastInDim_apply _ _ x _ _ (by exact cf_ax5 rfl rfl rfl rfl rfl)

theorem cf_bcast_gt1 (x : S16x1x1x1x150.Idx → α) (b : Fin 16) (i j : Fin 76) (a : Fin 3) (n : Fin 150) :
    broadcastInDim S16x76x76x3x150 ![0, 1, 2, 3, 4] bcast_S16x1x1x1x150_S16x76x76x3x150_0_1_2_3_4 x (ix5 b i j a n)
      = x (ix5 b (0 : Fin 1) (0 : Fin 1) (0 : Fin 1) n) :=
  broadcastInDim_apply _ _ x _ _ (by exact cf_ax5 rfl rfl rfl rfl rfl)

theorem cf_bcast_unit (x : S16x76x76x3.Idx → α) (b : Fin 16) (i j : Fin 76) (a : Fin 3) (u : Fin 1) :
    broadcastInDim S16x76x76x3x1 ![0, 1, 2, 3] bcast_S16x76x76x3_S16x76x76x3x1_0_1_2_3 x (ix5 b i j a u)
      = x (ix4 b i j a) :=
  broadcastInDim_apply _ _ x _ _ (by exact cf_ax4 rfl rfl rfl rfl)

/-- A rank-6 array whose last axis is a unit, cast to rank 5: the row-major positions agree. -/
theorem cf_cast_dropLast {n0 n1 n2 n3 n4 : Nat} (x : (⟨6, ![n0, n1, n2, n3, n4, 1]⟩ : Shape).Idx → α)
    (h : (⟨6, ![n0, n1, n2, n3, n4, 1]⟩ : Shape).ShapeCasts ⟨5, ![n0, n1, n2, n3, n4]⟩)
    (a : Fin n0) (b : Fin n1) (c : Fin n2) (d : Fin n3) (e : Fin n4) :
    shapeCast ⟨5, ![n0, n1, n2, n3, n4]⟩ x h (ix5 a b c d e) = x (ix6 a b c d e (0 : Fin 1)) :=
  shapeCast_apply x h _ _ (by
    rw [Shape.rowMajor_val_six, Shape.rowMajor_val_five]
    show ((((a.val * n1 + b.val) * n2 + c.val) * n3 + d.val) * n4 + e.val) * 1 + 0
      = (((a.val * n1 + b.val) * n2 + c.val) * n3 + d.val) * n4 + e.val
    rw [Nat.mul_one, Nat.add_zero])

/-- Two arrays of last extent 2 side by side along the last axis: the first read at place p = 0 + k, the second at s = 2 + k. -/
theorem cf_cat {n0 n1 n2 n3 n4 : Nat} (x₁ x₂ : (⟨6, ![n0, n1, n2, n3, n4, 2]⟩ : Shape).Idx → α)
    (h : Shape.Concatenates [⟨6, ![n0, n1, n2, n3, n4, 2]⟩, ⟨6, ![n0, n1, n2, n3, n4, 2]⟩] ⟨6, ![n0, n1, n2, n3, n4, 4]⟩ 5)
    (a : Fin n0) (b : Fin n1) (c : Fin n2) (d : Fin n3) (e : Fin n4) (k : Fin 2) (p s : Fin 4) (hp : p.val = 0 + k.val)
    (hs : s.val = 2 + k.val) :
    concatenate ⟨6, ![n0, n1, n2, n3, n4, 4]⟩ 5 [⟨_, x₁⟩, ⟨_, x₂⟩] h (ix6 a b c d e p) = x₁ (ix6 a b c d e k)
      ∧ concatenate ⟨6, ![n0, n1, n2, n3, n4, 4]⟩ 5 [⟨_, x₁⟩, ⟨_, x₂⟩] h (ix6 a b c d e s) = x₂ (ix6 a b c d e k) :=
  ⟨concatenate_pair_apply_left 5 x₁ x₂ h _ rfl _ (by exact cf_ax6 rfl rfl rfl rfl rfl (hp.trans (Nat.zero_add _)).symm),
    concatenate_pair_apply_right 5 x₁ x₂ h _ rfl rfl _
      (by exact cf_ax6 (fun _ => rfl) (fun _ => rfl) (fun _ => rfl) (fun _ => rfl) (fun _ => rfl) fun he => absurd rfl he)
      ((Nat.add_comm _ _).trans hs.symm)⟩

theorem cf_reduces : S16x76x76x3x150.Reduces [4] S16x76x76x3 := by decide

/-- The cell's index with box k put back on the dropped axis. -/
theorem cf_lift (b : Fin 16) (i j : Fin 76) (a : Fin 3) (k : Fin (S16x76x76x3x150.size 4)) :
    cf_reduces.lift (ix4 b i j a) k = ix5 b i j a (⟨k.val, k.isLt⟩ : Fin 150) := by
  funext c; apply Fin.ext; revert c
  exact cf_ax5 rfl rfl rfl rfl rfl

end Cert.ReferenceIdeal.HV
-- ==== Proof.Ref.ValConfIou.lean ====
import proofs.«103457_j67783173865496_1_alg».proof.Proof.Ref.ValConfLayout
import proofs.«103457_j67783173865496_1_alg».proof.Proof.Spec

noncomputable section

namespace Cert.ReferenceIdeal.HV

open Cert.ReferenceIdeal Cert.ReferenceIdeal.HR Cert.ReferenceIdeal.Gen Idealize.ShloMosaic Idealize.ShloMosaic.ValueIdx
open Cert.Yolo (lo hi ovl)

/-- One coordinate of the last axis of a rank-6 array cut out and the unit axis dropped. -/
theorem cf_pick {α : Type} {n0 n1 n2 n3 n4 n5 : Nat} (o : Nat) (X : (⟨6, ![n0, n1, n2, n3, n4, n5]⟩ : Shape).Idx → α)
    (h : (⟨6, ![n0, n1, n2, n3, n4, n5]⟩ : Shape).Slices ![0, 0, 0, 0, 0, o] ⟨6, ![n0, n1, n2, n3, n4, 1]⟩)
    (h' : (⟨6, ![n0, n1, n2, n3, n4, 1]⟩ : Shape).ShapeCasts ⟨5, ![n0, n1, n2, n3, n4]⟩)
    (a : Fin n0) (b : Fin n1) (c : Fin n2) (d : Fin n3) (e : Fin n4) (k : Fin n5) (hk : k.val = o) :
    shapeCast ⟨5, ![n0, n1, n2, n3, n4]⟩ (extractStridedSlice ⟨6, ![n0, n1, n2, n3, n4, 1]⟩ ![0, 0, 0, 0, 0, o] X h) h'
        (ix5 a b c d e) = X (ix6 a b c d e k) :=
  (cf_cast_dropLast _ h' a b c d e).trans (slice6_axis5_apply o X h a b c d e 0 k hk)

variable (a0 : A0 Ideal) (a1 : A1 Ideal) (a2 : A2 Ideal) (b : Fin 16) (i j : Fin 76) (a : Fin 3) (n : Fin 150)

local notation "B[" d "]" => res_v48 (F := Ideal) a0 a1 a2 (ix5 b i j a d)
local notation "G[" d "]" => a2 (ix3 b n d)

/-- The decoded box and the image's boxes on the common grid. -/
theorem cf_v131 (u : Fin 1) (d : Fin 4) : res_v131 (F := Ideal) a0 a1 a2 (ix6 b i j a u d) = B[d] := by
  unfold res_v131
  exact broadcastInDim_apply _ _ _ _ (ix5 b i j a d) (by exact cf_ax5 rfl rfl rfl rfl rfl)

theorem cf_v132 (u1 u2 u3 : Fin 1) (d : Fin 4) : res_v132 (F := Ideal) a0 a1 a2 (ix6 b u1 u2 u3 n d) = G[d] := by
  unfold res_v132
  exact broadcastInDim_apply _ _ _ _ (ix3 b n d) (by exact cf_ax3 rfl rfl rfl)

/-- The two areas. -/
theorem cf_v137 (u : Fin 1) : res_v137 (F := Ideal) a0 a1 a2 (ix5 b i j a u) = B[(2 : Fin 4)] * B[(3 : Fin 4)] := by
  unfold res_v137 res_v134 res_v133 res_v136 res_v135; beta_reduce
  rw [mulf_apply, cf_pick (n5 := 4) 2 _ _ _ b i j a u 2 rfl, cf_pick (n5 := 4) 3 _ _ _ b i j a u 3 rfl, cf_v131, cf_v131]

theorem cf_v142 (u1 u2 u3 : Fin 1) : res_v142 (F := Ideal) a0 a1 a2 (ix5 b u1 u2 u3 n) = G[(2 : Fin 4)] * G[(3 : Fin 4)] := by
  unfold res_v142 res_v139 res_v138 res_v141 res_v140; beta_reduce
  rw [mulf_apply, cf_pick (n5 := 4) 2 _ _ _ b u1 u2 u3 n 2 rfl, cf_pick (n5 := 4) 3 _ _ _ b u1 u2 u3 n 3 rfl, cf_v132, cf_v132]

/-- A half of the last axis of either operand, from offset o: place k = o + d. -/
theorem cf_box (o : Nat) (h : S16x76x76x3x1x4.Slices ![0, 0, 0, 0, 0, o] S16x76x76x3x1x2) (u : Fin 1) (d : Fin 2) (k : Fin 4)
    (hk : k.val = o + d.val) :
    extractStridedSlice S16x76x76x3x1x2 ![0, 0, 0, 0, 0, o] (res_v131 (F := Ideal) a0 a1 a2) h (ix6 b i j a u d) = B[k] :=
  (slice6_axis5_apply o _ h b i j a u d k hk).trans (cf_v131 a0 a1 a2 b i j a u k)

theorem cf_gt (o : Nat) (h : S16x1x1x1x150x4.Slices ![0, 0, 0, 0, 0, o] S16x1x1x1x150x2) (u1 u2 u3 : Fin 1) (d : Fin 2) (k : Fin 4)
    (hk : k.val = o + d.val) :
    extractStridedSlice S16x1x1x1x150x2 ![0, 0, 0, 0, 0, o] (res_v132 (F := Ideal) a0 a1 a2) h (ix6 b u1 u2 u3 n d) = G[k] :=
  (slice6_axis5_apply o _ h b u1 u2 u3 n d k hk).trans (cf_v132 a0 a1 a2 b n u1 u2 u3 k)

/-! On axis d (0 the x axis, 1 the y axis), c is the place of the centre and s the place of the size. -/

section Axis
variable {d : Fin 2} {c s : Fin 4} (hc : c.val = 0 + d.val) (hs : s.val = 2 + d.val)
include hc hs

/-- The corners of the decoded box, centre ∓ half the size, read back out of their concatenation. -/
theorem cf_v165 (u : Fin 1) : res_v165 (F := Ideal) a0 a1 a2 (ix6 b i j a u d) = lo B[c] B[s] := by
  unfold res_v165
  refine (slice6_axis5_apply 0 _ _ b i j a u d c hc).trans ?_
  unfold res_v153
  refine (cf_cat _ _ _ b i j a u d c s hc hs).1.trans ?_
  unfold res_v147 res_v146 res_v145 res_cst_18 res_v143 res_v144; beta_reduce
  rw [subf_apply, mulf_apply, broadcastInDim_scalar_apply, cf_box a0 a1 a2 b i j a 0 _ u d c hc, cf_box a0 a1 a2 b i j a 2 _ u d s hs]
  rfl

theorem cf_v170 (u : Fin 1) : res_v170 (F := Ideal) a0 a1 a2 (ix6 b i j a u d) = hi B[c] B[s] := by
  unfold res_v170
  refine (slice6_axis5_apply 2 _ _ b i j a u d s hs).trans ?_
  unfold res_v153
  refine (cf_cat _ _ _ b i j a u d c s hc hs).2.trans ?_
  unfold res_v152 res_v151 res_v150 res_cst_19 res_v148 res_v149; beta_reduce
  rw [addf_apply, mulf_apply, broadcastInDim_scalar_apply, cf_box a0 a1 a2 b i j a 0 _ u d c hc, cf_box a0 a1 a2 b i j a 2 _ u d s hs]
  rfl

/-- The corners of box n likewise. -/
theorem cf_v166 (u1 u2 u3 : Fin 1) : res_v166 (F := Ideal) a0 a1 a2 (ix6 b u1 u2 u3 n d) = lo G[c] G[s] := by
  unfold res_v166
  refine (slice6_axis5_apply 0 _ _ b u1 u2 u3 n d c hc).trans ?_
  unfold res_v164
  refine (cf_cat _ _ _ b u1 u2 u3 n d c s hc hs).1.trans ?_
  unfold res_v158 res_v157 res_v156 res_cst_20 res_v154 res_v155; beta_reduce
  rw [subf_apply, mulf_apply, broadcastInDim_scalar_apply, cf_gt a0 a1 a2 b n 0 _ u1 u2 u3 d c hc, cf_gt a0 a1 a2 b n 2 _ u1 u2 u3 d s hs]
  rfl

theorem cf_v171 (u1 u2 u3 : Fin 1) : res_v171 (F := Ideal) a0 a1 a2 (ix6 b u1 u2 u3 n d) = hi G[c] G[s] := by
  unfold res_v171
  refine (slice6_axis5_apply 2 _ _ b u1 u2 u3 n d s hs).trans ?_
  unfold res_v164
  refine (cf_cat _ _ _ b u1 u2 u3 n d c s hc hs).2.trans ?_
  unfold res_v163 res_v162 res_v161 res_cst_21 res_v159 res_v160; beta_reduce
  rw [addf_apply, mulf_apply, broadcastInDim_scalar_apply, cf_gt a0 a1 a2 b n 0 _ u1 u2 u3 d c hc, cf_gt a0 a1 a2 b n 2 _ u1 u2 u3 d s hs]
  rfl

/-- The overlap of the decoded box and box n along the axis. -/
theorem cf_v177 : res_v177 (F := Ideal) a0 a1 a2 (ix6 b i j a n d) = ovl (lo B[c] B[s]) (hi B[c] B[s]) (lo G[c] G[s]) (hi G[c] G[s]) := by
  unfold res_v177 res_v175 res_v174 res_v169 res_v172 res_v173 res_v167 res_v168 res_v176 res_cst_22
  rw [maximumf_apply, subf_apply, minimumf_apply, maximumf_apply, broadcastInDim_scalar_apply, constant_apply, Ideal.ofBits_zero_f32,
    cf_bcast_cell2, cf_bcast_gt2, cf_bcast_cell2, cf_bcast_gt2, cf_v170 a0 a1 a2 b i j a hc hs, cf_v171 a0 a1 a2 b n hc hs,
    cf_v165 a0 a1 a2 b i j a hc hs, cf_v166 a0 a1 a2 b n hc hs]
  rfl

end Axis

/-- Intersection over union of the decoded box of cell (b, i, j, a) and ground-truth box n of image b. -/
theorem cf_v187 :
    res_v187 (F := Ideal) a0 a1 a2 (ix5 b i j a n)
      = Cert.Yolo.iou B[(0 : Fin 4)] B[(1 : Fin 4)] B[(2 : Fin 4)] B[(3 : Fin 4)]
          G[(0 : Fin 4)] G[(1 : Fin 4)] G[(2 : Fin 4)] G[(3 : Fin 4)] := by
  have e179 : res_v179 (F := Ideal) a0 a1 a2 (ix5 b i j a n)
      = ovl (lo B[(0 : Fin 4)] B[(2 : Fin 4)]) (hi B[(0 : Fin 4)] B[(2 : Fin 4)]) (lo G[(0 : Fin 4)] G[(2 : Fin 4)]) (hi G[(0 : Fin 4)] G[(2 : Fin 4)]) := by
    unfold res_v179 res_v178
    exact (cf_pick (n5 := 2) 0 _ _ _ b i j a n 0 rfl).trans (cf_v177 a0 a1 a2 b i j a n (d := 0) (c := 0) (s := 2) rfl rfl)
  have e181 : res_v181 (F := Ideal) a0 a1 a2 (ix5 b i j a n)
      = ovl (lo B[(1 : Fin 4)] B[(3 : Fin 4)]) (hi B[(1 : Fin 4)] B[(3 : Fin 4)]) (lo G[(1 : Fin 4)] G[(3 : Fin 4)]) (hi G[(1 : Fin 4)] G[(3 : Fin 4)]) := by
    unfold res_v181 res_v180
    exact (cf_pick (n5 := 2) 1 _ _ _ b i j a n 1 rfl).trans (cf_v177 a0 a1 a2 b i j a n (d := 1) (c := 1) (s := 3) rfl rfl)
  unfold res_v187 res_v186 res_v185 res_v183 res_v184 res_v182
  rw [hostDivf_apply, subf_apply, addf_apply, mulf_apply, cf_bcast_cell1, cf_bcast_gt1, cf_v137, cf_v142, e179, e181]
  rfl

end Cert.ReferenceIdeal.HV
-- ==== Proof.Ref.ValConf.lean ====
import proofs.«103457_j67783173865496_1_alg».proof.Proof.Ref.ValConfIou
import proofs.«103457_j67783173865496_1_alg».proof.Proof.Ref.ValDecode

noncomputable section

namespace Cert.ReferenceIdeal.HV

open Cert.ReferenceIdeal Cert.ReferenceIdeal.HR Cert.ReferenceIdeal.Gen Idealize.ShloMosaic Idealize.ShloMosaic.ValueIdx
open Cert.Yolo (pX pY pW pH conv5 arr5 arr3)

/-- One bit read as a number is the indicator of the proposition the bit decides. -/
theorem cf_ind (p : Prop) [Decidable p] : (((BitVec.ofBool (decide p)).toNat : ℝ) : EReal) = Cert.Yolo.ind p := by
  by_cases h : p <;> simp [Cert.Yolo.ind, h]

/-- A one-bit word converted to a float, and the comparison "less than", at an index. -/
theorem cf_uitofp_apply {s : Shape} (x : IVec s 1) (k : s.Idx) :
    (uitofp (F := Ideal) .f32 x : FVec Ideal s .f32) k = (((x k).toNat : ℝ) : EReal) := rfl
theorem cf_cmpf_olt_apply {s : Shape} (x y : FVec Ideal s .f32) (k : s.Idx) :
    cmpf (F := Ideal) .olt x y k = BitVec.ofBool (decide (x k < y k)) := rfl

variable (a0 : A0 Ideal) (a1 : A1 Ideal) (a2 : A2 Ideal) (b : Fin 16) (i j : Fin 76) (a : Fin 3)

/-- The best IoU of the cell's decoded box against the image's boxes: a fold of max from −∞ over the 150 boxes. -/
theorem v188_apply :
    res_v188 (F := Ideal) a0 a1 a2 (ix4 b i j a) = Cert.Yolo.maxIouCell (conv5 a0 b i j a) (arr3 a2 b) i.val j.val a := by
  unfold res_v188 res_cst_23
  beta_reduce
  refine (Host.reduce_eq_fold_single (α := Ideal .f32) (s := S16x76x76x3x150) (t := S16x76x76x3) (a := 4) (u := S_)
    (FloatOps.maximumf (F := Ideal) (φ := .f32)) (res_v187 (F := Ideal) a0 a1 a2)
    (constant (F := Ideal) S_ .f32 0xFF800000#32) reducesTo_S16x76x76x3x150_S16x76x76x3_d4 cf_reduces h_S_ (ix4 b i j a)).trans ?_
  have hf : (res_v187 (F := Ideal) a0 a1 a2 ∘ cf_reduces.lift (ix4 b i j a)) = fun n : Fin 150 =>
      Cert.Yolo.iou (pX (conv5 a0 b i j a) j.val) (pY (conv5 a0 b i j a) i.val) (pW (conv5 a0 b i j a) a) (pH (conv5 a0 b i j a) a)
        (arr3 a2 b n 0) (arr3 a2 b n 1) (arr3 a2 b n 2) (arr3 a2 b n 3) :=
    funext fun k => by
      rw [Function.comp_apply, cf_lift, cf_v187, v48_x, v48_y, v48_w, v48_h]
      rfl
  exact congrArg (fun f => Finset.fold max (Cert.Yolo.lit 0xFF800000#32) f (Finset.univ : Finset (Fin 150))) hf

/-- The indicator that no ground-truth box overlaps the decoded box by half. -/
theorem cf_v194 :
    res_v194 (F := Ideal) a0 a1 a2 (ix5 b i j a (0 : Fin 1))
      = Cert.Yolo.ind (Cert.Yolo.maxIouCell (conv5 a0 b i j a) (arr3 a2 b) i.val j.val a < Cert.Yolo.half) := by
  unfold res_v194 res_v193 res_v189 res_v192 res_cst_25
  rw [cf_uitofp_apply, cf_cmpf_olt_apply, cf_bcast_unit, broadcastInDim_scalar_apply, v188_apply]
  exact cf_ind _

/-- The background weight. -/
theorem cf_v195 :
    res_v195 (F := Ideal) a0 a1 a2 (ix5 b i j a (0 : Fin 1))
      = Cert.Yolo.bgdCell (conv5 a0 b i j a) (arr5 a1 b i j a) (arr3 a2 b) i.val j.val a := by
  unfold res_v195 res_v191 res_v190 res_cst_24
  rw [mulf_apply, subf_apply, broadcastInDim_scalar_apply, v51_apply, cf_v194]
  rfl

/-- The squared gap between the flag and the predicted objectness. -/
theorem cf_v197 :
    res_v197 (F := Ideal) a0 a1 a2 (ix5 b i j a (0 : Fin 1)) = Cert.Yolo.focalCell (conv5 a0 b i j a) (arr5 a1 b i j a) := by
  unfold res_v197 res_v196
  rw [mulf_apply, subf_apply, v51_apply, v49_apply]
  rfl

/-- The cross-entropy of the objectness logit against the flag. -/
theorem cf_v206 :
    res_v206 (F := Ideal) a0 a1 a2 (ix5 b i j a (0 : Fin 1)) = Cert.Yolo.bce (conv5 a0 b i j a 4) (arr5 a1 b i j a 4) := by
  show max (res_v46 (F := Ideal) a0 a1 a2 _) (res_v198 (F := Ideal) a0 a1 a2 _)
    - res_v46 (F := Ideal) a0 a1 a2 _ * res_v51 (F := Ideal) a0 a1 a2 _
    + Ideal.log1p (Ideal.exp (-(max (res_v46 (F := Ideal) a0 a1 a2 _) (-(res_v46 (F := Ideal) a0 a1 a2 _))))) = _
  unfold res_v198 res_cst_26
  rw [broadcastInDim_scalar_apply, constant_apply, Ideal.ofBits_zero_f32, v46_apply, v51_apply]
  rfl

/-- The objectness term of a cell, the weight distributed over the cross-entropy. -/
theorem v210_apply :
    res_v210 (F := Ideal) a0 a1 a2 (ix5 b i j a (0 : Fin 1))
      = Cert.Yolo.confRCell (conv5 a0 b i j a) (arr5 a1 b i j a) (arr3 a2 b) i.val j.val a := by
  unfold res_v210 res_v209 res_v208 res_v207
  rw [mulf_apply, addf_apply, mulf_apply, mulf_apply, cf_v197, cf_v195, cf_v206, v51_apply]
  rfl

end Cert.ReferenceIdeal.HV
-- ==== Proof.Ref.ValProb.lean ====
import proofs.«103457_j67783173865496_1_alg».proof.Proof.Ref.Stages
import proofs.«103457_j67783173865496_1_alg».proof.Proof.Spec
import proofs.«103457_j67783173865496_1_alg».proof.Proof.Ref.ValDecode
import Idealize.ShloMosaic.Lib.IdealHost
import Idealize.ShloMosaic.Lib.Pipeline.Value

noncomputable section

namespace Cert.ReferenceIdeal.HV

open Cert.ReferenceIdeal Cert.ReferenceIdeal.HR Idealize.ShloMosaic Idealize.ShloMosaic.ValueIdx

variable (a0 : A0 Ideal) (a1 : A1 Ideal) (a2 : A2 Ideal)

/-- The zero the class logit is compared with. -/
theorem v211_apply (p : S16x76x76x3x80.Idx) : res_v211 (F := Ideal) a0 a1 a2 p = 0 := by
  unfold res_v211
  rw [broadcastInDim_scalar_apply]
  exact Ideal.ofBits_zero_f32

variable (b : Fin 16) (i j : Fin 76) (a : Fin 3) (c : Fin 80)

/-- The flag broadcast along the class axis reads the flag of the cell. -/
theorem v220_apply : res_v220 (F := Ideal) a0 a1 a2 (ix5 b i j a c) = res_v51 (F := Ideal) a0 a1 a2 (ix5 b i j a (0 : Fin 1)) := by
  unfold res_v220
  exact broadcastInDim_apply _ _ _ _ _ (by intro q; fin_cases q <;> rfl)

/-- The class term of the reference at a cell and a class: flag · (max(x, 0) − x·l + log(1 + e^{−|x|})), |x| spelt max(x, −x). -/
theorem v221_apply : res_v221 (F := Ideal) a0 a1 a2 (ix5 b i j a c)
    = Cert.Yolo.probCell (Cert.Yolo.conv5 a0 b i j a) (Cert.Yolo.arr5 a1 b i j a) c := by
  show res_v220 (F := Ideal) a0 a1 a2 _ * (max (res_v47 (F := Ideal) a0 a1 a2 _) (res_v211 (F := Ideal) a0 a1 a2 _) - res_v47 (F := Ideal) a0 a1 a2 _ * res_v52 (F := Ideal) a0 a1 a2 _
    + Ideal.log1p (Ideal.exp (-(max (res_v47 (F := Ideal) a0 a1 a2 _) (-(res_v47 (F := Ideal) a0 a1 a2 _)))))) = _
  rw [v220_apply, v211_apply, v47_apply, v51_apply, v52_apply]
  rfl

end Cert.ReferenceIdeal.HV

end
-- ==== Proof.Ref.SumAxes.lean ====
import Idealize.ShloMosaic.Lib.IdealHost
import Idealize.ShloMosaic.Lib.ValueIdxRank1

noncomputable section

open scoped BigOperators

namespace Cert.ReferenceIdeal.HV

open Idealize.ShloMosaic Idealize.ShloMosaic.ValueIdx

section Coord
variable {n0 n1 n2 n3 n4 : Nat} (a : Fin n0) (b : Fin n1) (c : Fin n2) (d : Fin n3) (e : Fin n4)

theorem ix5_c0 : ix5 a b c d e 0 = a := rfl

end Coord

/-- A rank-5 index set is the product of its five coordinate ranges, so a sum over it is the five-fold sum. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

theorem sum_idx5 {M : Type*} [AddCommMonoid M] {n0 n1 n2 n3 n4 : Nat}
    (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The sum over the indices whose first coordinate is b is the four-fold sum over the other coordinates. -/
theorem sum_filter_idx5_axis0 {M : Type*} [AddCommMonoid M] {n0 n1 n2 n3 n4 : Nat}
    (f : (⟨5, ![n0, n1, n2, n3, n4]⟩ : Shape).Idx → M) (b : Fin n0) :
    ∑ i ∈ Finset.univ.filter (fun i : (⟨5, ![n0, n1, n2, n3, n4]⟩ : Shape).Idx => (i 0).val = b.val), f i
      = ∑ i1 : Fin n1, ∑ i2 : Fin n2, ∑ i3 : Fin n3, ∑ i4 : Fin n4, f (ix5 b i1 i2 i3 i4) := by
  rw [Finset.sum_filter, sum_idx5, Finset.sum_eq_single b]
  · simp only [ix5_c0, if_true]
  · intro a _ hab
    simp only [ix5_c0, Fin.val_ne_of_ne hab, if_false, Finset.sum_const_zero]
  · exact fun hb => absurd (Finset.mem_univ b) hb

/-- Dropping the last four coordinates of an index leaves b exactly when its first coordinate is b. -/
theorem drop1234_eq_iff {n0 n1 n2 n3 n4 : Nat}
    (h : (⟨5, ![n0, n1, n2, n3, n4]⟩ : Shape).ReducesTo [1, 2, 3, 4] ⟨1, ![n0]⟩)
    (i : (⟨5, ![n0, n1, n2, n3, n4]⟩ : Shape).Idx) (b : Fin n0) :
    h.drop i = ix1 b ↔ (i 0).val = b.val := by
  refine ⟨fun e => congrArg (fun j => (j 0).val) e, fun e => funext fun k => ?_⟩
  obtain rfl : k = 0 := Fin.ext (by show k.val = 0; have : k.val < 1 := k.isLt; omega)
  exact Fin.ext e

/-- The exact sum of a rank-5 array over its last four axes, and of a rank-1 array over its axis, from an initial value. -/
theorem hostReduceAdd_axes1234 {n0 n1 n2 n3 n4 : Nat}
    (h : (⟨5, ![n0, n1, n2, n3, n4]⟩ : Shape).ReducesTo [1, 2, 3, 4] ⟨1, ![n0]⟩)
    (x : (⟨5, ![n0, n1, n2, n3, n4]⟩ : Shape).Idx → EReal) (init : EReal) (b : Fin n0) :
    Ideal.hostReduceAdd h x init (ix1 b)
      = init + ∑ i : Fin n1, ∑ j : Fin n2, ∑ a : Fin n3, ∑ z : Fin n4, x (ix5 b i j a z) := by
  unfold Ideal.hostReduceAdd
  rw [Finset.filter_congr (fun i _ => drop1234_eq_iff h i b)]
  exact congrArg (init + ·) (sum_filter_idx5_axis0 x b)

theorem hostReduceAdd_rank1_total {n : Nat} (h : (⟨1, ![n]⟩ : Shape).ReducesTo [0] ⟨0, ![]⟩)
    (x : (⟨1, ![n]⟩ : Shape).Idx → EReal) (init : EReal) (j : (⟨0, ![]⟩ : Shape).Idx) :
    Ideal.hostReduceAdd h x init j = init + ∑ b : Fin n, x (ix1 b) := by
  rw [Ideal.hostReduceAdd_total h (fun b => b.elim0) x init j, sum_idx1]

end Cert.ReferenceIdeal.HV

end
-- ==== Proof.Ref.ValOut.lean ====
import proofs.«103457_j67783173865496_1_alg».proof.Proof.Ref.Stages
import proofs.«103457_j67783173865496_1_alg».proof.Proof.Spec
import proofs.«103457_j67783173865496_1_alg».proof.Proof.Ref.SumAxes
import Idealize.ShloMosaic.Lib.IdealHost
import Idealize.ShloMosaic.Lib.Pipeline.Value

noncomputable section

open scoped BigOperators

namespace Cert.ReferenceIdeal.HV

open Cert.ReferenceIdeal Cert.ReferenceIdeal.Gen Cert.ReferenceIdeal.HR Idealize.ShloMosaic Idealize.ShloMosaic.ValueIdx

/-- A per-cell array summed exactly from 0 over the cells, then over the images, and divided by 16: the mean of the cell sums. -/
theorem mean_apply {n : Nat} (X : FVec Ideal ⟨5, ![16, 76, 76, 3, n]⟩ .f32)
    (h : (⟨5, ![16, 76, 76, 3, n]⟩ : Shape).ReducesTo [1, 2, 3, 4] S16) (q : S1.Idx) :
    broadcastInDim S1 ![] bcast_S_S1 (Host.divf (Host.reduceAdd (Host.reduceAdd X (constant (F := Ideal) S_ .f32 0x00000000#32) h h_S_)
        (constant (F := Ideal) S_ .f32 0x00000000#32) reducesTo_S16_S_d0 h_S_) (constant (F := Ideal) S_ .f32 0x41800000#32)) q
      = Cert.Yolo.mean16 (∑ b : Fin 16, ∑ i : Fin 76, ∑ j : Fin 76, ∑ a : Fin 3, ∑ e : Fin n, X (ix5 b i j a e)) := by
  rw [broadcastInDim_scalar_apply, hostDivf_apply, hostReduceAdd_apply, constant_apply, Ideal.ofBits_zero_f32,
    hostReduceAdd_rank1_total, zero_add]
  simp only [hostReduceAdd_apply, constant_apply, Ideal.ofBits_zero_f32, hostReduceAdd_axes1234, zero_add]
  rfl

variable (a0 : A0 Ideal) (a1 : A1 Ideal) (a2 : A2 Ideal)

/-- The only axis of a length-1 vector is the axis the pieces are laid along. -/
private theorem only_axis (b : Fin S1.rank) (hr : S1.rank = S3.rank) (hb : b.cast hr ≠ (0 : Fin S3.rank)) : False :=
  hb (Fin.ext (by show b.val = 0; have : b.val < 1 := b.isLt; omega))

/-- The reference's result is the one-sweep grouping of the three losses, given the three per-cell arrays' readings at a cell. -/
theorem v234_of
    (h130 : ∀ (b : Fin 16) (i j : Fin 76) (a : Fin 3), res_v130 (F := Ideal) a0 a1 a2 (ix5 b i j a (0 : Fin 1))
      = Cert.Yolo.giouCell (Cert.Yolo.conv5 a0 b i j a) (Cert.Yolo.arr5 a1 b i j a) i.val j.val a)
    (h210 : ∀ (b : Fin 16) (i j : Fin 76) (a : Fin 3), res_v210 (F := Ideal) a0 a1 a2 (ix5 b i j a (0 : Fin 1))
      = Cert.Yolo.confRCell (Cert.Yolo.conv5 a0 b i j a) (Cert.Yolo.arr5 a1 b i j a) (Cert.Yolo.arr3 a2 b) i.val j.val a)
    (h221 : ∀ (b : Fin 16) (i j : Fin 76) (a : Fin 3) (c : Fin 80), res_v221 (F := Ideal) a0 a1 a2 (ix5 b i j a c)
      = Cert.Yolo.probCell (Cert.Yolo.conv5 a0 b i j a) (Cert.Yolo.arr5 a1 b i j a) c) :
    res_v234 (F := Ideal) a0 a1 a2 = Cert.Yolo.rOut a0 a1 a2 := by
  funext q
  obtain ⟨k, rfl⟩ : ∃ k : Fin 3, q = ix1 k := ⟨q 0, eq_ix1 q⟩
  unfold res_v234
  refine Eq.trans (concatenate_ofFn_unit_apply (t := S3) (s₁ := S1) 0
    ![res_v231 (F := Ideal) a0 a1 a2, res_v232 (F := Ideal) a0 a1 a2, res_v233 (F := Ideal) a0 a1 a2]
    concatenates_S1_S1_S1_S3_d0 rfl rfl (ix1 k) k rfl (ix1 (0 : Fin 1)) fun b hb => (only_axis b rfl hb).elim) ?_
  match k with
  | ⟨0, _⟩ =>
    show res_v231 (F := Ideal) a0 a1 a2 _ = _
    unfold res_v231 res_v224 res_v223 res_v222 res_cst_28 res_cst_29 res_cst_30; beta_reduce
    rw [mean_apply]
    simp only [Fin.sum_univ_one, h130]
    rfl
  | ⟨1, _⟩ =>
    show res_v232 (F := Ideal) a0 a1 a2 _ = _
    unfold res_v232 res_v227 res_v226 res_v225 res_cst_31 res_cst_32 res_cst_33; beta_reduce
    rw [mean_apply]
    simp only [Fin.sum_univ_one, h210]
    rfl
  | ⟨2, _⟩ =>
    show res_v233 (F := Ideal) a0 a1 a2 _ = _
    unfold res_v233 res_v230 res_v229 res_v228 res_cst_34 res_cst_35 res_cst_36; beta_reduce
    rw [mean_apply]
    simp only [h221]
    rfl

end Cert.ReferenceIdeal.HV

end
-- ==== Proof.Ref.Val.lean ====
import proofs.«103457_j67783173865496_1_alg».proof.Proof.Ref.Run
import proofs.«103457_j67783173865496_1_alg».proof.Proof.Ref.ValGiou
import proofs.«103457_j67783173865496_1_alg».proof.Proof.Ref.ValConf
import proofs.«103457_j67783173865496_1_alg».proof.Proof.Ref.ValProb
import proofs.«103457_j67783173865496_1_alg».proof.Proof.Ref.ValOut

noncomputable section

namespace Cert.ReferenceIdeal.HV

open Idealize.ShloMosaic Idealize.SL.Sem Cert.ReferenceIdeal Cert.ReferenceIdeal.HR

/-- The last stage is the loss in the one-sweep grouping. -/
theorem v234_eq (a0 : A0 Ideal) (a1 : A1 Ideal) (a2 : A2 Ideal) : res_v234 (F := Ideal) a0 a1 a2 = Cert.Yolo.rOut a0 a1 a2 :=
  v234_of a0 a1 a2 (v130_apply a0 a1 a2) (v210_apply a0 a1 a2) (v221_apply a0 a1 a2)

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v234)
        = Cert.Yolo.rOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun _ h c => ⟨(h c).1.trans (v234_eq _ _ _), (h c).2⟩) (HR.run (F := Ideal) m ρ)

end Cert.ReferenceIdeal.HV

end
-- ==== Proof.Bridge.lean ====
import proofs.«103457_j67783173865496_1_alg».proof.Proof.Spec
import Idealize.ShloMosaic.PureOps.Ideal.Laws

noncomputable section

open scoped BigOperators
open Classical

namespace Cert.Yolo

open Idealize.ShloMosaic

theorem lit_one : lit 0x3F800000#32 = ((1 : ℝ) : EReal) := by
  have h : Ideal.ofBits .f32 0x3F800000#32 = (1 : EReal) := by
    simp [Ideal.ofBits, Ideal.ieee, -EReal.coe_mul]; norm_num
  exact h.trans EReal.coe_one.symm

theorem coe_max' (a b : ℝ) : max (a : EReal) (b : EReal) = ((max a b : ℝ) : EReal) :=
  (EReal.coe_strictMono.monotone.map_max).symm

theorem logistic_real (x : ℝ) : ∃ r : ℝ, Ideal.logistic (x : EReal) = (r : EReal) := ⟨_, Ideal.logistic_coe x⟩

theorem bce_real (x l : ℝ) : ∃ r : ℝ, bce (x : EReal) (l : EReal) = (r : EReal) := by
  refine ⟨max x 0 - x * l + Real.log (1 + Real.exp (-(max x (-x)))), ?_⟩
  have hpos : ¬ (1 + Real.exp (-(max x (-x))) ≤ 0) := not_le.mpr (by positivity)
  unfold bce Ideal.log1p
  rw [show (0 : EReal) = ((0 : ℝ) : EReal) from rfl, coe_max', ← EReal.coe_neg, coe_max', ← EReal.coe_neg,
    Ideal.exp_coe, show (1 : EReal) = ((1 : ℝ) : EReal) from rfl, ← EReal.coe_add, Ideal.log_coe, if_neg hpos,
    ← EReal.coe_mul, ← EReal.coe_sub, ← EReal.coe_add]

theorem ind_real (p : Prop) : ∃ r : ℝ, ind p = (r : EReal) := by
  unfold ind; by_cases h : p
  · exact ⟨1, by rw [if_pos h]; rfl⟩
  · exact ⟨0, by rw [if_neg h]; rfl⟩

/-- Distributivity of the objectness weight over the two masks: all factors are real. -/
theorem confKCell_eq_confRCell (cvc lbc : Fin 85 → EReal) (bxb : Fin 150 → Fin 4 → EReal) (gi gj : ℕ) (a : Fin 3)
    (hc : ∃ r : ℝ, cvc 4 = (r : EReal)) (hl : ∃ r : ℝ, lbc 4 = (r : EReal)) :
    confKCell cvc lbc bxb gi gj a = confRCell cvc lbc bxb gi gj a := by
  obtain ⟨x, hx⟩ := hc
  obtain ⟨l, hl⟩ := hl
  obtain ⟨s, hs⟩ := logistic_real x
  obtain ⟨e, he⟩ := bce_real x l
  obtain ⟨d, hd⟩ := ind_real (maxIouCell cvc bxb gi gj a < half)
  unfold confKCell confRCell focalCell bgdCell
  rw [hx, hl, hs, he, hd, lit_one]
  simp only [← EReal.coe_sub, ← EReal.coe_mul, ← EReal.coe_add]
  congr 1
  ring

/-- Row i = 19 r + p: a sum over bands and rows within a band is a sum over all 76 rows. -/
theorem sum_bands (f : Fin 76 → EReal) : ∑ r : Fin 4, ∑ p : Fin 19, f (rowOf r p) = ∑ i : Fin 76, f i := by
  rw [← Fintype.sum_prod_type' (fun (r : Fin 4) (p : Fin 19) => f (rowOf r p))]
  refine Fintype.sum_equiv (finProdFinEquiv (m := 4) (n := 19)) _ _ (fun x => ?_)
  refine congrArg f (Fin.ext ?_)
  show 19 * x.1.val + x.2.val = x.2.val + 19 * x.1.val
  omega

theorem KG_eq_RG (cv lb : Fin 16 → Fin 76 → Fin 76 → Fin 3 → Fin 85 → EReal) (bx : Fin 16 → Fin 150 → Fin 4 → EReal)
    (hcv : ∀ b i j a k, ∃ r : ℝ, cv b i j a k = (r : EReal)) (hlb : ∀ b i j a k, ∃ r : ℝ, lb b i j a k = (r : EReal))
    (l : Fin 3) : KG cv lb bx l = RG cv lb bx l := by
  match l with
  | 0 =>
    show mean16 _ = mean16 _
    congr 1
    refine Finset.sum_congr rfl fun b _ => ?_
    exact sum_bands fun i => ∑ j : Fin 76, ∑ a : Fin 3, giouT cv lb b i j a
  | 1 =>
    show mean16 _ = mean16 _
    congr 1
    refine Finset.sum_congr rfl fun b _ => ?_
    rw [sum_bands fun i => ∑ j : Fin 76, ∑ a : Fin 3, confK cv lb bx b i j a]
    refine Finset.sum_congr rfl fun i _ => Finset.sum_congr rfl fun j _ => Finset.sum_congr rfl fun a _ => ?_
    exact confKCell_eq_confRCell _ _ _ _ _ _ (hcv b i j a 4) (hlb b i j a 4)
  | 2 =>
    show mean16 _ = mean16 _
    congr 1
    refine Finset.sum_congr rfl fun b _ => ?_
    exact sum_bands fun i => ∑ j : Fin 76, ∑ a : Fin 3, ∑ c : Fin 80, probT cv lb b i j a c

theorem kOut_eq_rOut (a0 : (⟨4, ![16, 76, 76, 255]⟩ : Shape).Idx → EReal) (a1 : (⟨5, ![16, 76, 76, 3, 85]⟩ : Shape).Idx → EReal)
    (a2 : (⟨3, ![16, 150, 4]⟩ : Shape).Idx → EReal)
    (h0 : ∀ i, ∃ r : ℝ, a0 i = (r : EReal)) (h1 : ∀ i, ∃ r : ℝ, a1 i = (r : EReal)) :
    kOut a0 a1 a2 = rOut a0 a1 a2 :=
  funext fun i => KG_eq_RG _ _ _ (fun b i j a k => h0 _) (fun b i j a k => h1 _) (i 0)

end Cert.Yolo

end
-- ==== Proof.Finite.lean ====
import proofs.«103457_j67783173865496_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic

theorem inf_eq_top : Ideal.ofBits .f32 0x7F800000#32 = (⊤ : EReal) := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [inf_eq_top] at h
  have hlt : max x (-x) < ⊤ := by
    by_contra hn
    simp [Ideal.cmp, hn] at h
  induction x using EReal.rec with
  | bot => simp at hlt
  | coe r => exact ⟨r, rfl⟩
  | top => simp at hlt

instance : Subsingleton (Cert.Pre_finite_inputs.S_).Idx := ⟨fun a b => funext fun d => d.elim0⟩

theorem real_of_pre [Cert.Pre_finite_inputs.Facts]
    (a0 : FVec Ideal Cert.Pre_finite_inputs.S16x76x76x255 .f32) (a1 : FVec Ideal Cert.Pre_finite_inputs.S16x76x76x3x85 .f32)
    (a2 : FVec Ideal Cert.Pre_finite_inputs.S16x150x4 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h01, h2⟩ := IntOp.andi_eq_one.1 h0
  obtain ⟨h0', h1'⟩ := IntOp.andi_eq_one.1 h01
  refine ⟨fun i => ?_, fun i => ?_, fun i => ?_⟩
  · exact real_of_abs_lt _ (Host.reduce_andi_all _ _ _ _ _ h0' i)
  · exact real_of_abs_lt _ (Host.reduce_andi_all _ _ _ _ _ h1' i)
  · exact real_of_abs_lt _ (Host.reduce_andi_all _ _ _ _ _ h2 i)

end Cert.Finite

end
-- ==== Proof.lean ====
import proofs.«103457_j67783173865496_1_alg».proof.Defs
import proofs.«103457_j67783173865496_1_alg».proof.Proof.Gen.Kernel
import proofs.«103457_j67783173865496_1_alg».proof.Proof.Gen.KernelIdeal
import proofs.«103457_j67783173865496_1_alg».proof.Proof.Gen.ReferenceIdeal
import proofs.«103457_j67783173865496_1_alg».proof.Proof.Gen.Pre_finite_inputs
import proofs.«103457_j67783173865496_1_alg».proof.Proof.K.Frame
import proofs.«103457_j67783173865496_1_alg».proof.Proof.KI.Frame
import proofs.«103457_j67783173865496_1_alg».proof.Proof.KI.ValRun
import proofs.«103457_j67783173865496_1_alg».proof.Proof.Ref.Val
import proofs.«103457_j67783173865496_1_alg».proof.Proof.Bridge
import proofs.«103457_j67783173865496_1_alg».proof.Proof.Finite

noncomputable section

namespace Cert.Proof

open Idealize.ShloMosaic Idealize.SL.Sem

theorem frame_k : Cert.frame_Kernel := fun m ρ _ => Cert.Kernel.HF.frame (F := Bits) m ρ

theorem frame_ki : Cert.frame_KernelIdeal := fun m ρ _ => Cert.KernelIdeal.HF.frame (F := Ideal) m ρ

theorem frame_ri : Cert.frame_ReferenceIdeal := fun m ρ _ =>
  (θ_run Cert.ReferenceIdeal.defs _ _).mono (fun _ h c => (h c).2) (Cert.ReferenceIdeal.HV.run m ρ)

/-- Both programs end at the same loss, summed band by band by one and in one sweep by the other; the regrouping and the one use of distributivity need only that every input is a real number. -/
theorem algebraic : Cert.algebraic_KernelIdeal_ReferenceIdeal := by
  intro m ρ m' ρ' hpre hagree
  refine ⟨_, Cert.KernelIdeal.HV.run m ρ, ?_⟩
  refine (θ_run Cert.ReferenceIdeal.defs _ _).mono (fun _ h c => ⟨(h c).1.trans ?_, (h c).2⟩)
    (Cert.ReferenceIdeal.HV.run m' ρ')
  rw [(hagree c).1, (hagree c).2.1, (hagree c).2.2]
  obtain ⟨h0, h1, _⟩ := Cert.Finite.real_of_pre _ _ _ (hpre c)
  exact (Cert.Yolo.kOut_eq_rOut _ _ _ h0 h1).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
